-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S64x256 : Shape := ⟨2, ![64, 256]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x1024 : Shape := ⟨2, ![512, 1024]⟩
abbrev S1024x2048 : Shape := ⟨2, ![1024, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S8192 : S_.BroadcastsInDim S8192 (![] : Fin 0 → Fin S8192.rank)
  reducesTo_S8192_S_d0 : S8192.ReducesTo [0] S_

variable [Facts]

def fn_part6 {F : FTy → Type} [FloatOps F] (main_arg1 : IVec S8192 32) (main_arg22 : FVec F S2048 .f32) (main_v98 : IVec S_ 1) (main_v101 : IVec S1024x2048 1) (main_c_39 : IVec S_ 1) : IVec S_ 1 :=
  let main_v102 : IVec S_ 1 := (fun x v => Host.reduce IntOp.andi x v reducesTo_S1024x2048_S_d0_1 h_S_) main_v101 main_c_39
  let main_v103 : IVec S_ 1 := andi main_v98 main_v102
  let main_v104 : FVec F S2048 .f32 := Host.absf main_arg22
  let main_cst_40 : FVec F S_ .f32 := constant S_ .f32 0x7F800000#32
  let main_v105 : FVec F S2048 .f32 := broadcastInDim S2048 ![] bcast_S_S2048 main_cst_40
  let main_v106 : IVec S2048 1 := cmpf .olt main_v104 main_v105
  let main_c_41 : IVec S_ 1 := constantI S_ 1 1#1
  let main_v107 : IVec S_ 1 := (fun x v => Host.reduce IntOp.andi x v reducesTo_S2048_S_d0 h_S_) main_v106 main_c_41
  let main_v108 : IVec S_ 1 := andi main_v103 main_v107
  let main_c_42 : IVec S_ 32 := constantI S_ 32 0#32
  let main_v109 : IVec S8192 32 := broadcastInDim S8192 ![] bcast_S_S8192 main_c_42
  let main_v110 : IVec S8192 1 := cmpi .sge main_arg1 main_v109
  let main_c_43 : IVec S_ 32 := constantI S_ 32 64#32
  let main_v111 : IVec S8192 32 := broadcastInDim S8192 ![] bcast_S_S8192 main_c_43
  let main_v112 : IVec S8192 1 := cmpi .slt main_arg1 main_v111
  let main_v113 : IVec S8192 1 := andi main_v110 main_v112
  let main_c_44 : IVec S_ 1 := constantI S_ 1 1#1
  let main_v114 : IVec S_ 1 := (fun x v => Host.reduce IntOp.andi x v reducesTo_S8192_S_d0 h_S_) main_v113 main_c_44
  let main_v115 : IVec S_ 1 := andi main_v108 main_v114
  main_v115

def fn_part5 {F : FTy → Type} [FloatOps F] (main_arg1 : IVec S8192 32) (main_arg19 : FVec F S1024 .f32) (main_arg20 : FVec F S1024 .f32) (main_arg21 : FVec F S1024x2048 .f32) (main_arg22 : FVec F S2048 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg19
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024 .f32 := Host.absf main_arg20
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024x2048 .f32 := Host.absf main_arg21
  let main_cst_38 : FVec F S_ .f32 := constant S_ .f32 0x7F800000#32
  let main_v100 : FVec F S1024x2048 .f32 := broadcastInDim S1024x2048 ![] bcast_S_S1024x2048 main_cst_38
  let main_v101 : IVec S1024x2048 1 := cmpf .olt main_v99 main_v100
  let main_c_39 : IVec S_ 1 := constantI S_ 1 1#1
  fn_part6 (F := F) main_arg1 main_arg22 main_v98 main_v101 main_c_39

def fn_part4 {F : FTy → Type} [FloatOps F] (main_arg1 : IVec S8192 32) (main_arg15 : FVec F S512 .f32) (main_arg16 : FVec F S512 .f32) (main_arg17 : FVec F S512x1024 .f32) (main_arg18 : FVec F S1024 .f32) (main_arg19 : FVec F S1024 .f32) (main_arg20 : FVec F S1024 .f32) (main_arg21 : FVec F S1024x2048 .f32) (main_arg22 : FVec F S2048 .f32) (main_v63 : IVec S_ 1) (main_v67 : IVec S_ 1) : IVec S_ 1 :=
  let main_v68 : IVec S_ 1 := andi main_v63 main_v67
  let main_v69 : FVec F S512 .f32 := Host.absf main_arg15
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg16
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x1024 .f32 := Host.absf main_arg17
  let main_cst_30 : FVec F S_ .f32 := constant S_ .f32 0x7F800000#32
  let main_v80 : FVec F S512x1024 .f32 := broadcastInDim S512x1024 ![] bcast_S_S512x1024 main_cst_30
  let main_v81 : IVec S512x1024 1 := cmpf .olt main_v79 main_v80
  let main_c_31 : IVec S_ 1 := constantI S_ 1 1#1
  let main_v82 : IVec S_ 1 := (fun x v => Host.reduce IntOp.andi x v reducesTo_S512x1024_S_d0_1 h_S_) main_v81 main_c_31
  let main_v83 : IVec S_ 1 := andi main_v78 main_v82
  let main_v84 : FVec F S1024 .f32 := Host.absf main_arg18
  let main_cst_32 : FVec F S_ .f32 := constant S_ .f32 0x7F800000#32
  fn_part5 (F := F) main_arg1 main_arg19 main_arg20 main_arg21 main_arg22 main_v83 main_v84 main_cst_32

def fn_part3 {F : FTy → Type} [FloatOps F] (main_arg1 : IVec S8192 32) (main_arg12 : FVec F S256 .f32) (main_arg13 : FVec F S256x512 .f32) (main_arg14 : FVec F S512 .f32) (main_arg15 : FVec F S512 .f32) (main_arg16 : FVec F S512 .f32) (main_arg17 : FVec F S512x1024 .f32) (main_arg18 : FVec F S1024 .f32) (main_arg19 : FVec F S1024 .f32) (main_arg20 : FVec F S1024 .f32) (main_arg21 : FVec F S1024x2048 .f32) (main_arg22 : FVec F S2048 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x512 .f32 := Host.absf main_arg13
  let main_cst_22 : FVec F S_ .f32 := constant S_ .f32 0x7F800000#32
  let main_v60 : FVec F S256x512 .f32 := broadcastInDim S256x512 ![] bcast_S_S256x512 main_cst_22
  let main_v61 : IVec S256x512 1 := cmpf .olt main_v59 main_v60
  let main_c_23 : IVec S_ 1 := constantI S_ 1 1#1
  let main_v62 : IVec S_ 1 := (fun x v => Host.reduce IntOp.andi x v reducesTo_S256x512_S_d0_1 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg1 main_arg15 main_arg16 main_arg17 main_arg18 main_arg19 main_arg20 main_arg21 main_arg22 main_v63 main_v67

def fn_part2 {F : FTy → Type} [FloatOps F] (main_arg1 : IVec S8192 32) (main_arg8 : FVec F S512 .f32) (main_arg9 : FVec F S512x256 .f32) (main_arg10 : FVec F S256 .f32) (main_arg11 : FVec F S256 .f32) (main_arg12 : FVec F S256 .f32) (main_arg13 : FVec F S256x512 .f32) (main_arg14 : FVec F S512 .f32) (main_arg15 : FVec F S512 .f32) (main_arg16 : FVec F S512 .f32) (main_arg17 : FVec F S512x1024 .f32) (main_arg18 : FVec F S1024 .f32) (main_arg19 : FVec F S1024 .f32) (main_arg20 : FVec F S1024 .f32) (main_arg21 : FVec F S1024x2048 .f32) (main_arg22 : FVec F S2048 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg9
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg1 main_arg12 main_arg13 main_arg14 main_arg15 main_arg16 main_arg17 main_arg18 main_arg19 main_arg20 main_arg21 main_arg22 main_v48 main_v49 main_v50

def fn_part1 {F : FTy → Type} [FloatOps F] (main_arg1 : IVec S8192 32) (main_arg5 : FVec F S1024x512 .f32) (main_arg6 : FVec F S512 .f32) (main_arg7 : FVec F S512 .f32) (main_arg8 : FVec F S512 .f32) (main_arg9 : FVec F S512x256 .f32) (main_arg10 : FVec F S256 .f32) (main_arg11 : FVec F S256 .f32) (main_arg12 : FVec F S256 .f32) (main_arg13 : FVec F S256x512 .f32) (main_arg14 : FVec F S512 .f32) (main_arg15 : FVec F S512 .f32) (main_arg16 : FVec F S512 .f32) (main_arg17 : FVec F S512x1024 .f32) (main_arg18 : FVec F S1024 .f32) (main_arg19 : FVec F S1024 .f32) (main_arg20 : FVec F S1024 .f32) (main_arg21 : FVec F S1024x2048 .f32) (main_arg22 : FVec F S2048 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg5
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S8192x2048 .f32) (main_arg1 : IVec S8192 32) (main_arg2 : FVec F S64x256 .f32) (main_arg3 : FVec F S2048x1024 .f32) (main_arg4 : FVec F S1024 .f32) (main_arg5 : FVec F S1024x512 .f32) (main_arg6 : FVec F S512 .f32) (main_arg7 : FVec F S512 .f32) (main_arg8 : FVec F S512 .f32) (main_arg9 : FVec F S512x256 .f32) (main_arg10 : FVec F S256 .f32) (main_arg11 : FVec F S256 .f32) (main_arg12 : FVec F S256 .f32) (main_arg13 : FVec F S256x512 .f32) (main_arg14 : FVec F S512 .f32) (main_arg15 : FVec F S512 .f32) (main_arg16 : FVec F S512 .f32) (main_arg17 : FVec F S512x1024 .f32) (main_arg18 : FVec F S1024 .f32) (main_arg19 : FVec F S1024 .f32) (main_arg20 : FVec F S1024 .f32) (main_arg21 : FVec F S1024x2048 .f32) (main_arg22 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S8192x2048 : Shape := ⟨2, ![8192, 2048]⟩
abbrev S8192 : Shape := ⟨1, ![8192]⟩
abbrev S64x256 : Shape := ⟨2, ![64, 256]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x1024 : Shape := ⟨2, ![512, 1024]⟩
abbrev S1024x2048 : Shape := ⟨2, ![1024, 2048]⟩
abbrev S2048 : Shape := ⟨1, ![2048]⟩
abbrev S_ : Shape := ⟨0, ![]⟩
abbrev S8192x1 : Shape := ⟨2, ![8192, 1]⟩
abbrev S1x1024 : Shape := ⟨2, ![1, 1024]⟩
abbrev S1x512 : Shape := ⟨2, ![1, 512]⟩
abbrev S8192x512 : Shape := ⟨2, ![8192, 512]⟩
abbrev S16x512 : Shape := ⟨2, ![16, 512]⟩
abbrev S512x2048 : Shape := ⟨2, ![512, 2048]⟩
abbrev S512x512 : Shape := ⟨2, ![512, 512]⟩
abbrev S8x512 : Shape := ⟨2, ![8, 512]⟩
abbrev S2x8x512 : Shape := ⟨3, ![2, 8, 512]⟩
abbrev S2x1x512 : Shape := ⟨3, ![2, 1, 512]⟩
abbrev S2x512 : Shape := ⟨2, ![2, 512]⟩
abbrev S1x256 : Shape := ⟨2, ![1, 256]⟩
abbrev S8192x256 : Shape := ⟨2, ![8192, 256]⟩
abbrev S16x256 : Shape := ⟨2, ![16, 256]⟩
abbrev S8x256 : Shape := ⟨2, ![8, 256]⟩
abbrev S2x8x256 : Shape := ⟨3, ![2, 8, 256]⟩
abbrev S2x1x256 : Shape := ⟨3, ![2, 1, 256]⟩
abbrev S2x256 : Shape := ⟨2, ![2, 256]⟩
abbrev S8192x1024 : Shape := ⟨2, ![8192, 1024]⟩
abbrev S16x1024 : Shape := ⟨2, ![16, 1024]⟩
abbrev S8x1024 : Shape := ⟨2, ![8, 1024]⟩
abbrev S2x8x1024 : Shape := ⟨3, ![2, 8, 1024]⟩
abbrev S2x1x1024 : Shape := ⟨3, ![2, 1, 1024]⟩
abbrev S2x1024 : Shape := ⟨2, ![2, 1024]⟩
abbrev S1x2048 : Shape := ⟨2, ![1, 2048]⟩
abbrev S16x1 : Shape := ⟨2, ![16, 1]⟩
abbrev S512x1 : Shape := ⟨2, ![512, 1]⟩
abbrev S8x1 : Shape := ⟨2, ![8, 1]⟩
abbrev S1x512x2048 : Shape := ⟨3, ![1, 512, 2048]⟩
abbrev S1 : Shape := ⟨1, ![1]⟩
abbrev S1x1x1 : Shape := ⟨3, ![1, 1, 1]⟩
abbrev S512x64 : Shape := ⟨2, ![512, 64]⟩
abbrev S1x512x256 : Shape := ⟨3, ![1, 512, 256]⟩
abbrev S2x8x1 : Shape := ⟨3, ![2, 8, 1]⟩
abbrev S2x1x1 : Shape := ⟨3, ![2, 1, 1]⟩
abbrev S2x1 : Shape := ⟨2, ![2, 1]⟩

abbrev nBuf : Space → Nat
  | .hbm => 199
  | .vmem => 67
  | .smem => 0
  | _ => 0

abbrev hbmTy0_0 (i : Nat) : BufTy := match i % 128 with
  | 0 => ⟨S8192x2048, .f32⟩
  | 1 => ⟨S8192, .i32⟩
  | 2 => ⟨S64x256, .f32⟩
  | 3 => ⟨S2048x1024, .f32⟩
  | 4 => ⟨S1024, .f32⟩
  | 5 => ⟨S1024x512, .f32⟩
  | 6 => ⟨S512, .f32⟩
  | 7 => ⟨S512, .f32⟩
  | 8 => ⟨S512, .f32⟩
  | 9 => ⟨S512x256, .f32⟩
  | 10 => ⟨S256, .f32⟩
  | 11 => ⟨S256, .f32⟩
  | 12 => ⟨S256, .f32⟩
  | 13 => ⟨S256x512, .f32⟩
  | 14 => ⟨S512, .f32⟩
  | 15 => ⟨S512, .f32⟩
  | 16 => ⟨S512, .f32⟩
  | 17 => ⟨S512x1024, .f32⟩
  | 18 => ⟨S1024, .f32⟩
  | 19 => ⟨S1024, .f32⟩
  | 20 => ⟨S1024, .f32⟩
  | 21 => ⟨S1024x2048, .f32⟩
  | 22 => ⟨S2048, .f32⟩
  | 23 => ⟨S_, .i32⟩
  | 24 => ⟨S_, .i32⟩
  | 25 => ⟨S_, .i32⟩
  | 26 => ⟨S8192, .i32⟩
  | 27 => ⟨S8192, .i32⟩
  | 28 => ⟨S_, .i32⟩
  | 29 => ⟨S8192, .i32⟩
  | 30 => ⟨S8192, .i32⟩
  | 31 => ⟨S8192x1, .i32⟩
  | 32 => ⟨S2048x1024, .bf16⟩
  | 33 => ⟨S1024x512, .bf16⟩
  | 34 => ⟨S512x256, .bf16⟩
  | 35 => ⟨S256x512, .bf16⟩
  | 36 => ⟨S512x1024, .bf16⟩
  | 37 => ⟨S1024x2048, .bf16⟩
  | 38 => ⟨S1x1024, .f32⟩
  | 39 => ⟨S1x512, .f32⟩
  | 40 => ⟨S8192x512, .bf16⟩
  | 41 => ⟨S16x512, .f32⟩
  | 42 => ⟨S16x512, .f32⟩
  | 43 => ⟨S2x8x512, .f32⟩
  | 44 => ⟨S2x1x512, .f32⟩
  | 45 => ⟨S2x512, .f32⟩
  | 46 => ⟨S_, .f32⟩
  | 47 => ⟨S512, .f32⟩
  | 48 => ⟨S2x8x512, .f32⟩
  | 49 => ⟨S2x1x512, .f32⟩
  | 50 => ⟨S2x512, .f32⟩
  | 51 => ⟨S_, .f32⟩
  | 52 => ⟨S512, .f32⟩
  | 53 => ⟨S_, .f32⟩
  | 54 => ⟨S512, .f32⟩
  | 55 => ⟨S512, .f32⟩
  | 56 => ⟨S_, .f32⟩
  | 57 => ⟨S512, .f32⟩
  | 58 => ⟨S512, .f32⟩
  | 59 => ⟨S512, .f32⟩
  | 60 => ⟨S512, .f32⟩
  | 61 => ⟨S_, .f32⟩
  | 62 => ⟨S512, .f32⟩
  | 63 => ⟨S512, .f32⟩
  | 64 => ⟨S_, .f32⟩
  | 65 => ⟨S512, .f32⟩
  | 66 => ⟨S512, .f32⟩
  | 67 => ⟨S512, .f32⟩
  | 68 => ⟨S512, .f32⟩
  | 69 => ⟨S512, .f32⟩
  | 70 => ⟨S512, .f32⟩
  | 71 => ⟨S1x512, .f32⟩
  | 72 => ⟨S1x512, .f32⟩
  | 73 => ⟨S1x256, .f32⟩
  | 74 => ⟨S8192x256, .bf16⟩
  | 75 => ⟨S16x256, .f32⟩
  | 76 => ⟨S16x256, .f32⟩
  | 77 => ⟨S2x8x256, .f32⟩
  | 78 => ⟨S2x1x256, .f32⟩
  | 79 => ⟨S2x256, .f32⟩
  | 80 => ⟨S_, .f32⟩
  | 81 => ⟨S256, .f32⟩
  | 82 => ⟨S2x8x256, .f32⟩
  | 83 => ⟨S2x1x256, .f32⟩
  | 84 => ⟨S2x256, .f32⟩
  | 85 => ⟨S_, .f32⟩
  | 86 => ⟨S256, .f32⟩
  | 87 => ⟨S_, .f32⟩
  | 88 => ⟨S256, .f32⟩
  | 89 => ⟨S256, .f32⟩
  | 90 => ⟨S_, .f32⟩
  | 91 => ⟨S256, .f32⟩
  | 92 => ⟨S256, .f32⟩
  | 93 => ⟨S256, .f32⟩
  | 94 => ⟨S256, .f32⟩
  | 95 => ⟨S_, .f32⟩
  | 96 => ⟨S256, .f32⟩
  | 97 => ⟨S256, .f32⟩
  | 98 => ⟨S_, .f32⟩
  | 99 => ⟨S256, .f32⟩
  | 100 => ⟨S256, .f32⟩
  | 101 => ⟨S256, .f32⟩
  | 102 => ⟨S256, .f32⟩
  | 103 => ⟨S256, .f32⟩
  | 104 => ⟨S256, .f32⟩
  | 105 => ⟨S1x256, .f32⟩
  | 106 => ⟨S1x256, .f32⟩
  | 107 => ⟨S1x512, .f32⟩
  | 108 => ⟨S8192x512, .bf16⟩
  | 109 => ⟨S16x512, .f32⟩
  | 110 => ⟨S16x512, .f32⟩
  | 111 => ⟨S2x8x512, .f32⟩
  | 112 => ⟨S2x1x512, .f32⟩
  | 113 => ⟨S2x512, .f32⟩
  | 114 => ⟨S_, .f32⟩
  | 115 => ⟨S512, .f32⟩
  | 116 => ⟨S2x8x512, .f32⟩
  | 117 => ⟨S2x1x512, .f32⟩
  | 118 => ⟨S2x512, .f32⟩
  | 119 => ⟨S_, .f32⟩
  | 120 => ⟨S512, .f32⟩
  | 121 => ⟨S_, .f32⟩
  | 122 => ⟨S512, .f32⟩
  | 123 => ⟨S512, .f32⟩
  | 124 => ⟨S_, .f32⟩
  | 125 => ⟨S512, .f32⟩
  | 126 => ⟨S512, .f32⟩
  | 127 => ⟨S512, .f32⟩
  | _ => ⟨S8192x2048, .f32⟩

abbrev hbmTy0_1 (i : Nat) : BufTy := match i % 128 with
  | 0 => ⟨S512, .f32⟩
  | 1 => ⟨S_, .f32⟩
  | 2 => ⟨S512, .f32⟩
  | 3 => ⟨S512, .f32⟩
  | 4 => ⟨S_, .f32⟩
  | 5 => ⟨S512, .f32⟩
  | 6 => ⟨S512, .f32⟩
  | 7 => ⟨S512, .f32⟩
  | 8 => ⟨S512, .f32⟩
  | 9 => ⟨S512, .f32⟩
  | 10 => ⟨S512, .f32⟩
  | 11 => ⟨S1x512, .f32⟩
  | 12 => ⟨S1x512, .f32⟩
  | 13 => ⟨S1x1024, .f32⟩
  | 14 => ⟨S8192x1024, .bf16⟩
  | 15 => ⟨S16x1024, .f32⟩
  | 16 => ⟨S16x1024, .f32⟩
  | 17 => ⟨S2x8x1024, .f32⟩
  | 18 => ⟨S2x1x1024, .f32⟩
  | 19 => ⟨S2x1024, .f32⟩
  | 20 => ⟨S_, .f32⟩
  | 21 => ⟨S1024, .f32⟩
  | 22 => ⟨S2x8x1024, .f32⟩
  | 23 => ⟨S2x1x1024, .f32⟩
  | 24 => ⟨S2x1024, .f32⟩
  | 25 => ⟨S_, .f32⟩
  | 26 => ⟨S1024, .f32⟩
  | 27 => ⟨S_, .f32⟩
  | 28 => ⟨S1024, .f32⟩
  | 29 => ⟨S1024, .f32⟩
  | 30 => ⟨S_, .f32⟩
  | 31 => ⟨S1024, .f32⟩
  | 32 => ⟨S1024, .f32⟩
  | 33 => ⟨S1024, .f32⟩
  | 34 => ⟨S1024, .f32⟩
  | 35 => ⟨S_, .f32⟩
  | 36 => ⟨S1024, .f32⟩
  | 37 => ⟨S1024, .f32⟩
  | 38 => ⟨S_, .f32⟩
  | 39 => ⟨S1024, .f32⟩
  | 40 => ⟨S1024, .f32⟩
  | 41 => ⟨S1024, .f32⟩
  | 42 => ⟨S1024, .f32⟩
  | 43 => ⟨S1024, .f32⟩
  | 44 => ⟨S1024, .f32⟩
  | 45 => ⟨S1x1024, .f32⟩
  | 46 => ⟨S1x1024, .f32⟩
  | 47 => ⟨S1x2048, .f32⟩
  | 48 => ⟨S1x256, .f32⟩
  | 49 => ⟨S1x256, .f32⟩
  | 50 => ⟨S16x1, .f32⟩
  | 51 => ⟨S16x1, .f32⟩
  | 52 => ⟨S2x8x1, .f32⟩
  | 53 => ⟨S2x1x1, .f32⟩
  | 54 => ⟨S2x1, .f32⟩
  | 55 => ⟨S_, .f32⟩
  | 56 => ⟨S1, .f32⟩
  | 57 => ⟨S_, .f32⟩
  | 58 => ⟨S2x8x1, .f32⟩
  | 59 => ⟨S2x1x1, .f32⟩
  | 60 => ⟨S2x1, .f32⟩
  | 61 => ⟨S_, .f32⟩
  | 62 => ⟨S1, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S1x1024, .f32⟩
  | .local _ .vmem, ⟨4, _⟩ => ⟨S1024x512, .bf16⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S512x512, .bf16⟩
  | .local _ .vmem, ⟨13, _⟩ => ⟨S512x512, .bf16⟩
  | .local _ .vmem, ⟨14, _⟩ => ⟨S1x512, .f32⟩
  | .local _ .vmem, ⟨15, _⟩ => ⟨S1x512, .f32⟩
  | .local _ .vmem, ⟨16, _⟩ => ⟨S512x256, .bf16⟩
  | .local _ .vmem, ⟨17, _⟩ => ⟨S1x256, .f32⟩
  | .local _ .vmem, ⟨18, _⟩ => ⟨S512x256, .bf16⟩
  | .local _ .vmem, ⟨19, _⟩ => ⟨S512x256, .bf16⟩
  | .local _ .vmem, ⟨20, _⟩ => ⟨S8x256, .f32⟩
  | .local _ .vmem, ⟨21, _⟩ => ⟨S8x256, .f32⟩
  | .local _ .vmem, ⟨22, _⟩ => ⟨S8x256, .f32⟩
  | .local _ .vmem, ⟨23, _⟩ => ⟨S8x256, .f32⟩
  | .local _ .vmem, ⟨24, _⟩ => ⟨S512x256, .bf16⟩
  | .local _ .vmem, ⟨25, _⟩ => ⟨S512x256, .bf16⟩
  | .local _ .vmem, ⟨26, _⟩ => ⟨S1x256, .f32⟩
  | .local _ .vmem, ⟨27, _⟩ => ⟨S1x256, .f32⟩
  | .local _ .vmem, ⟨28, _⟩ => ⟨S256x512, .bf16⟩
  | .local _ .vmem, ⟨29, _⟩ => ⟨S1x512, .f32⟩
  | .local _ .vmem, ⟨30, _⟩ => ⟨S512x512, .bf16⟩
  | .local _ .vmem, ⟨31, _⟩ => ⟨S512x512, .bf16⟩
  | .local _ .vmem, ⟨32, _⟩ => ⟨S8x512, .f32⟩
  | .local _ .vmem, ⟨33, _⟩ => ⟨S8x512, .f32⟩
  | .local _ .vmem, ⟨34, _⟩ => ⟨S8x512, .f32⟩
  | .local _ .vmem, ⟨35, _⟩ => ⟨S8x512, .f32⟩
  | .local _ .vmem, ⟨36, _⟩ => ⟨S512x512, .bf16⟩
  | .local _ .vmem, ⟨37, _⟩ => ⟨S512x512, .bf16⟩
  | .local _ .vmem, ⟨38, _⟩ => ⟨S1x512, .f32⟩
  | .local _ .vmem, ⟨39, _⟩ => ⟨S1x512, .f32⟩
  | .local _ .vmem, ⟨40, _⟩ => ⟨S512x1024, .bf16⟩
  | .local _ .vmem, ⟨41, _⟩ => ⟨S1x1024, .f32⟩
  | .local _ .vmem, ⟨42, _⟩ => ⟨S512x1024, .bf16⟩
  | .local _ .vmem, ⟨43, _⟩ => ⟨S512x1024, .bf16⟩
  | .local _ .vmem, ⟨44, _⟩ => ⟨S8x1024, .f32⟩
  | .local _ .vmem, ⟨45, _⟩ => ⟨S8x1024, .f32⟩
  | .local _ .vmem, ⟨46, _⟩ => ⟨S8x1024, .f32⟩
  | .local _ .vmem, ⟨47, _⟩ => ⟨S8x1024, .f32⟩
  | .local _ .vmem, ⟨48, _⟩ => ⟨S512x1024, .bf16⟩
  | .local _ .vmem, ⟨49, _⟩ => ⟨S512x1024, .bf16⟩
  | .local _ .vmem, ⟨50, _⟩ => ⟨S1x1024, .f32⟩
  | .local _ .vmem, ⟨51, _⟩ => ⟨S1x1024, .f32⟩
  | .local _ .vmem, ⟨52, _⟩ => ⟨S1024x2048, .bf16⟩
  | .local _ .vmem, ⟨53, _⟩ => ⟨S1x2048, .f32⟩
  | .local _ .vmem, ⟨54, _⟩ => ⟨S512x2048, .f32⟩
  | .local _ .vmem, ⟨55, _⟩ => ⟨S512x2048, .f32⟩
  | .local _ .vmem, ⟨56, _⟩ => ⟨S512x256, .bf16⟩
  | .local _ .vmem, ⟨57, _⟩ => ⟨S512x256, .bf16⟩
  | .local _ .vmem, ⟨58, _⟩ => ⟨S1x256, .f32⟩
  | .local _ .vmem, ⟨59, _⟩ => ⟨S1x256, .f32⟩
  | .local _ .vmem, ⟨60, _⟩ => ⟨S512x1, .i32⟩
  | .local _ .vmem, ⟨61, _⟩ => ⟨S512x1, .i32⟩
  | .local _ .vmem, ⟨62, _⟩ => ⟨S64x256, .f32⟩
  | .local _ .vmem, ⟨63, _⟩ => ⟨S8x1, .f32⟩
  | .local _ .vmem, ⟨64, _⟩ => ⟨S8x1, .f32⟩
  | .local _ .vmem, ⟨65, _⟩ => ⟨S8x1, .f32⟩
  | .local _ .vmem, ⟨66, _⟩ => ⟨S8x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_c_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10_0 : Ref sig .tc := ⟨.hbm, 40, rfl⟩
abbrev main_v10_1 : Ref sig .tc := ⟨.hbm, 41, rfl⟩
abbrev main_v10_2 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_1 : Ref sig .tc := ⟨.hbm, 51, rfl⟩
abbrev main_v18 : Ref sig .tc := ⟨.hbm, 52, rfl⟩
abbrev main_cst_2 : Ref sig .tc := ⟨.hbm, 53, rfl⟩
abbrev main_v19 : Ref sig .tc := ⟨.hbm, 54, rfl⟩
abbrev main_v20 : Ref sig .tc := ⟨.hbm, 55, rfl⟩
abbrev main_cst_3 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_4 : Ref sig .tc := ⟨.hbm, 61, rfl⟩
abbrev main_v25 : Ref sig .tc := ⟨.hbm, 62, rfl⟩
abbrev main_v26 : Ref sig .tc := ⟨.hbm, 63, rfl⟩
abbrev main_cst_5 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36_0 : Ref sig .tc := ⟨.hbm, 74, rfl⟩
abbrev main_v36_1 : Ref sig .tc := ⟨.hbm, 75, rfl⟩
abbrev main_v36_2 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_6 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_7 : Ref sig .tc := ⟨.hbm, 85, rfl⟩
abbrev main_v44 : Ref sig .tc := ⟨.hbm, 86, rfl⟩
abbrev main_cst_8 : Ref sig .tc := ⟨.hbm, 87, rfl⟩
abbrev main_v45 : Ref sig .tc := ⟨.hbm, 88, rfl⟩
abbrev main_v46 : Ref sig .tc := ⟨.hbm, 89, rfl⟩
abbrev main_cst_9 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_10 : Ref sig .tc := ⟨.hbm, 95, rfl⟩
abbrev main_v51 : Ref sig .tc := ⟨.hbm, 96, rfl⟩
abbrev main_v52 : Ref sig .tc := ⟨.hbm, 97, rfl⟩
abbrev main_cst_11 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62_0 : Ref sig .tc := ⟨.hbm, 108, rfl⟩
abbrev main_v62_1 : Ref sig .tc := ⟨.hbm, 109, rfl⟩
abbrev main_v62_2 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_12 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_13 : Ref sig .tc := ⟨.hbm, 119, rfl⟩
abbrev main_v70 : Ref sig .tc := ⟨.hbm, 120, rfl⟩
abbrev main_cst_14 : Ref sig .tc := ⟨.hbm, 121, rfl⟩
abbrev main_v71 : Ref sig .tc := ⟨.hbm, 122, rfl⟩
abbrev main_v72 : Ref sig .tc := ⟨.hbm, 123, rfl⟩
abbrev main_cst_15 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_16 : Ref sig .tc := ⟨.hbm, 129, rfl⟩
abbrev main_v77 : Ref sig .tc := ⟨.hbm, 130, rfl⟩
abbrev main_v78 : Ref sig .tc := ⟨.hbm, 131, rfl⟩
abbrev main_cst_17 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88_0 : Ref sig .tc := ⟨.hbm, 142, rfl⟩
abbrev main_v88_1 : Ref sig .tc := ⟨.hbm, 143, rfl⟩
abbrev main_v88_2 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_18 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_19 : Ref sig .tc := ⟨.hbm, 153, rfl⟩
abbrev main_v96 : Ref sig .tc := ⟨.hbm, 154, rfl⟩
abbrev main_cst_20 : Ref sig .tc := ⟨.hbm, 155, rfl⟩
abbrev main_v97 : Ref sig .tc := ⟨.hbm, 156, rfl⟩
abbrev main_v98 : Ref sig .tc := ⟨.hbm, 157, rfl⟩
abbrev main_cst_21 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_cst_22 : Ref sig .tc := ⟨.hbm, 163, rfl⟩
abbrev main_v103 : Ref sig .tc := ⟨.hbm, 164, rfl⟩
abbrev main_v104 : Ref sig .tc := ⟨.hbm, 165, rfl⟩
abbrev main_cst_23 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116_0 : Ref sig .tc := ⟨.hbm, 178, rfl⟩
abbrev main_v116_1 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_cst_24 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_cst_25 : Ref sig .tc := ⟨.hbm, 189, rfl⟩
abbrev main_v125 : Ref sig .tc := ⟨.hbm, 190, rfl⟩
abbrev main_v126 : Ref sig .tc := ⟨.hbm, 191, rfl⟩
abbrev main_cst_26 : Ref sig .tc := ⟨.hbm, 192, rfl⟩
abbrev main_v127 : Ref sig .tc := ⟨.hbm, 193, rfl⟩
abbrev main_cst_27 : Ref sig .tc := ⟨.hbm, 194, rfl⟩
abbrev main_v128 : Ref sig .tc := ⟨.hbm, 195, rfl⟩
abbrev main_cst_28 : Ref sig .tc := ⟨.hbm, 196, rfl⟩
abbrev main_v129 : Ref sig .tc := ⟨.hbm, 197, rfl⟩
abbrev main_v130 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc3_stg6_1 : Ref sig .tc := ⟨.vmem, 45, rfl⟩
abbrev cc3_stg7_0 : Ref sig .tc := ⟨.vmem, 46, rfl⟩
abbrev cc3_stg7_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg5_1 : Ref sig .tc := ⟨.vmem, 55, rfl⟩
abbrev cc4_stg6_0 : Ref sig .tc := ⟨.vmem, 56, rfl⟩
abbrev cc4_stg6_1 : Ref sig .tc := ⟨.vmem, 57, rfl⟩
abbrev cc4_stg7_0 : Ref sig .tc := ⟨.vmem, 58, rfl⟩
abbrev cc4_stg8_0 : Ref sig .tc := ⟨.vmem, 59, rfl⟩
abbrev cc4_stg9_0 : Ref sig .tc := ⟨.vmem, 60, rfl⟩
abbrev cc4_stg9_1 : Ref sig .tc := ⟨.vmem, 61, rfl⟩
abbrev cc4_stg10_0 : Ref sig .tc := ⟨.vmem, 62, rfl⟩
abbrev cc4_stg11_0 : Ref sig .tc := ⟨.vmem, 63, rfl⟩
abbrev cc4_stg11_1 : Ref sig .tc := ⟨.vmem, 64, rfl⟩
abbrev cc4_stg12_0 : Ref sig .tc := ⟨.vmem, 65, rfl⟩
abbrev cc4_stg12_1 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc3_sem6_0 : DmaSem sig := 44
abbrev cc3_sem6_1 : DmaSem sig := 45
abbrev cc3_sem7_0 : DmaSem sig := 46
abbrev cc3_sem7_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem5_1 : DmaSem sig := 55
abbrev cc4_sem6_0 : DmaSem sig := 56
abbrev cc4_sem6_1 : DmaSem sig := 57
abbrev cc4_sem7_0 : DmaSem sig := 58
abbrev cc4_sem8_0 : DmaSem sig := 59
abbrev cc4_sem9_0 : DmaSem sig := 60
abbrev cc4_sem9_1 : DmaSem sig := 61
abbrev cc4_sem10_0 : DmaSem sig := 62
abbrev cc4_sem11_0 : DmaSem sig := 63
abbrev cc4_sem11_1 : DmaSem sig := 64
abbrev cc4_sem12_0 : DmaSem sig := 65
abbrev cc4_sem12_1 : DmaSem sig := 66

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S512x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S8x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x512 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S8x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S8x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S512x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S512x1024 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S8x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S8x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc4_transform_6 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc4_transform_10 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_12 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S1x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1024x2048 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x2048 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S512x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S512x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S1x256 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 2 → Memref sig .tc .vmem S512x1 .i32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev stage4_10 : Fin 1 → Memref sig .tc .vmem S64x256 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false, false]

abbrev stage4_11 : Fin 2 → Memref sig .tc .vmem S8x1 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true, false]

abbrev stage4_12 : Fin 2 → Memref sig .tc .vmem S8x1 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true, false]

class Facts₀ : Prop where
  bcast_S_S8192 : S_.BroadcastsInDim S8192 (![] : Fin 0 → Fin S8192.rank)
  shapeCasts_S8192_S8192x1 : S8192.ShapeCasts S8192x1
  bitsLt_bf16_f32 : FTy.bits .bf16 < FTy.bits .f32
  shapeCasts_S1024_S1x1024 : S1024.ShapeCasts S1x1024
  shapeCasts_S512_S1x512 : S512.ShapeCasts S1x512
  inb_S8x512_S8x512_0_0 : ∀ a, (![0, 0] : Fin 2 → Nat) a + S8x512.size a ≤ S8x512.size a
  h_S8x512 : 0 < S8x512.numel
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  reduces_S512x512_S512 : S512x512.Reduces [0] S512
  shapeCasts_S8x512_S8x512 : S8x512.ShapeCasts S8x512
  broadcasts_S1x512_S8x512 : S1x512.Broadcasts S8x512
  shapeCasts_S16x512_S2x8x512 : S16x512.ShapeCasts S2x8x512
  slices_S2x8x512_S2x1x512_0_0_0 : S2x8x512.Slices ![0, 0, 0] S2x1x512
  shapeCasts_S2x1x512_S2x512 : S2x1x512.ShapeCasts S2x512
  reducesTo_S2x512_S512_d0 : S2x512.ReducesTo [0] S512
  h_S_ : 0 < S_.numel
  bcast_S_S512 : S_.BroadcastsInDim S512 (![] : Fin 0 → Fin S512.rank)
  shapeCasts_S256_S1x256 : S256.ShapeCasts S1x256
  inb_S8x256_S8x256_0_0 : ∀ a, (![0, 0] : Fin 2 → Nat) a + S8x256.size a ≤ S8x256.size a
  h_S8x256 : 0 < S8x256.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  packedbf16_S512x256_S512x256_0_0 : (Rect.unit (s := S512x256) ![0, 0] S512x256.size inb_S512x256_S512x256_0_0).PackedRows (EltTy.packing .bf16)
  reduces_S512x256_S256 : S512x256.Reduces [0] S256
  shapeCasts_S8x256_S8x256 : S8x256.ShapeCasts S8x256
  broadcasts_S1x256_S8x256 : S1x256.Broadcasts S8x256
  shapeCasts_S16x256_S2x8x256 : S16x256.ShapeCasts S2x8x256
  slices_S2x8x256_S2x1x256_0_0_0 : S2x8x256.Slices ![0, 0, 0] S2x1x256
  shapeCasts_S2x1x256_S2x256 : S2x1x256.ShapeCasts S2x256
  reducesTo_S2x256_S256_d0 : S2x256.ReducesTo [0] S256
  bcast_S_S256 : S_.BroadcastsInDim S256 (![] : Fin 0 → Fin S256.rank)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S8x1024_S8x1024_0_0 : ∀ a, (![0, 0] : Fin 2 → Nat) a + S8x1024.size a ≤ S8x1024.size a
  h_S8x1024 : 0 < S8x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  reduces_S512x1024_S1024 : S512x1024.Reduces [0] S1024
  shapeCasts_S8x1024_S8x1024 : S8x1024.ShapeCasts S8x1024
  broadcasts_S1x1024_S8x1024 : S1x1024.Broadcasts S8x1024
  shapeCasts_S16x1024_S2x8x1024 : S16x1024.ShapeCasts S2x8x1024
  slices_S2x8x1024_S2x1x1024_0_0_0 : S2x8x1024.Slices ![0, 0, 0] S2x1x1024
  shapeCasts_S2x1x1024_S2x1024 : S2x1x1024.ShapeCasts S2x1024
  reducesTo_S2x1024_S1024_d0 : S2x1024.ReducesTo [0] S1024
  bcast_S_S1024 : S_.BroadcastsInDim S1024 (![] : Fin 0 → Fin S1024.rank)
  shapeCasts_S2048_S1x2048 : S2048.ShapeCasts S1x2048
  inb_S8x1_S8x1_0_0 : ∀ a, (![0, 0] : Fin 2 → Nat) a + S8x1.size a ≤ S8x1.size a
  h_S8x1 : 0 < S8x1.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S512x2048_S1x512x2048 : S512x2048.ShapeCasts S1x512x2048
  reduces_S1x512x2048_S1 : S1x512x2048.Reduces [1, 2] S1
  shapeCasts_S1_S1x1x1 : S1.ShapeCasts S1x1x1
  inpos_S1x1x1_p0_0_0 : ∀ a, (![0, 0, 0] : Fin 3 → Nat) a < S1x1x1.size a
  shapeCasts_S8x1_S8x1 : S8x1.ShapeCasts S8x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x64_d1_w32 : S512x64.Iotas .tc 32 [1]
  broadcasts_S512x1_S512x64 : S512x1.Broadcasts S512x64
  natLt_1_32 : 1 < 32
  inb_S64x256_S64x256_0_0 : ∀ a, (![0, 0] : Fin 2 → Nat) a + S64x256.size a ≤ S64x256.size a
  h_S64x256 : 0 < S64x256.numel
  shapeCasts_S512x256_S1x512x256 : S512x256.ShapeCasts S1x512x256
  reduces_S1x512x256_S1 : S1x512x256.Reduces [1, 2] S1
  shapeCasts_S16x1_S2x8x1 : S16x1.ShapeCasts S2x8x1
  slices_S2x8x1_S2x1x1_0_0_0 : S2x8x1.Slices ![0, 0, 0] S2x1x1
  shapeCasts_S2x1x1_S2x1 : S2x1x1.ShapeCasts S2x1
  reducesTo_S2x1_S1_d0 : S2x1.ReducesTo [0] S1
  shapeCasts_S1_S_ : S1.ShapeCasts S_
  dot_S512x2048_S2048x1024_S512x1024_1_0_0_1_n_n_wf : DotDims.WF S512x2048 S2048x1024 S512x1024 [1] [0] [0] [1] [] []
  dot_S512x1024_S1024x512_S512x512_1_0_0_1_n_n_wf : DotDims.WF S512x1024 S1024x512 S512x512 [1] [0] [0] [1] [] []
  dot_S512x512_S512x256_S512x256_1_0_0_1_n_n_wf : DotDims.WF S512x512 S512x256 S512x256 [1] [0] [0] [1] [] []
  dot_S512x256_S256x512_S512x512_1_0_0_1_n_n_wf : DotDims.WF S512x256 S256x512 S512x512 [1] [0] [0] [1] [] []
  dot_S512x512_S512x1024_S512x1024_1_0_0_1_n_n_wf : DotDims.WF S512x512 S512x1024 S512x1024 [1] [0] [0] [1] [] []
  dot_S512x1024_S1024x2048_S512x2048_1_0_0_1_n_n_wf : DotDims.WF S512x1024 S1024x2048 S512x2048 [1] [0] [0] [1] [] []
  dot_S512x64_S64x256_S512x256_1_0_0_1_n_n_wf : DotDims.WF S512x64 S64x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x512.size a
  hwx0_5 : ∀ i : grid0.Coords, EltTy.bits .bf16 = 32 ∨ (Rect.block (s := S8192x512) S512x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512.size a ≤ S16x512.size a
  hwx0_6 : ∀ i : grid0.Coords, EltTy.bits .f32 = 32 ∨ (Rect.block (s := S16x512) S8x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x512.size a ≤ S16x512.size a
  hwx0_7 : ∀ i : grid0.Coords, EltTy.bits .f32 = 32 ∨ (Rect.block (s := S16x512) S8x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .bf16 = 32 ∨ (Rect.block (s := S8192x512) S512x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .bf16 = 32 ∨ (Rect.block (s := S512x256) S512x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S8192x256.size a
  hwx1_5 : ∀ i : grid1.Coords, EltTy.bits .bf16 = 32 ∨ (Rect.block (s := S8192x256) S512x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x256.size a ≤ S16x256.size a
  hwx1_6 : ∀ i : grid1.Coords, EltTy.bits .f32 = 32 ∨ (Rect.block (s := S16x256) S8x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x256.size a ≤ S16x256.size a
  hwx1_7 : ∀ i : grid1.Coords, EltTy.bits .f32 = 32 ∨ (Rect.block (s := S16x256) S8x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x256.size a
  hwx2_0 : ∀ i : grid2.Coords, EltTy.bits .bf16 = 32 ∨ (Rect.block (s := S8192x256) S512x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x512.size a ≤ S256x512.size a
  hwx2_3 : ∀ i : grid2.Coords, EltTy.bits .bf16 = 32 ∨ (Rect.block (s := S256x512) S256x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x512.size a ≤ S8192x512.size a
  hwx2_5 : ∀ i : grid2.Coords, EltTy.bits .bf16 = 32 ∨ (Rect.block (s := S8192x512) S512x512.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x512.size a ≤ S16x512.size a
  hwx2_6 : ∀ i : grid2.Coords, EltTy.bits .f32 = 32 ∨ (Rect.block (s := S16x512) S8x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x512.size a ≤ S16x512.size a
  hwx2_7 : ∀ i : grid2.Coords, EltTy.bits .f32 = 32 ∨ (Rect.block (s := S16x512) S8x512.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S8192x512.size a
  hwx3_0 : ∀ i : grid3.Coords, EltTy.bits .bf16 = 32 ∨ (Rect.block (s := S8192x512) S512x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S512x1024.size a
  hwx3_3 : ∀ i : grid3.Coords, EltTy.bits .bf16 = 32 ∨ (Rect.block (s := S512x1024) S512x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x1024.size a ≤ S8192x1024.size a
  hwx3_5 : ∀ i : grid3.Coords, EltTy.bits .bf16 = 32 ∨ (Rect.block (s := S8192x1024) S512x1024.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8x1024.size a ≤ S16x1024.size a
  hwx3_6 : ∀ i : grid3.Coords, EltTy.bits .f32 = 32 ∨ (Rect.block (s := S16x1024) S8x1024.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8x1024.size a ≤ S16x1024.size a
  hwx3_7 : ∀ i : grid3.Coords, EltTy.bits .f32 = 32 ∨ (Rect.block (s := S16x1024) S8x1024.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S8192x1024.size a
  hwx4_0 : ∀ i : grid4.Coords, EltTy.bits .bf16 = 32 ∨ (Rect.block (s := S8192x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1024.size a ≤ S1x1024.size a
  hwx4_1 : ∀ i : grid4.Coords, EltTy.bits .f32 = 32 ∨ (Rect.block (s := S1x1024) S1x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1024x2048.size a ≤ S1024x2048.size a
  hwx4_3 : ∀ i : grid4.Coords, EltTy.bits .bf16 = 32 ∨ (Rect.block (s := S1024x2048) S1024x2048.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2048.size a ≤ S1x2048.size a
  hwx4_4 : ∀ i : grid4.Coords, EltTy.bits .f32 = 32 ∨ (Rect.block (s := S1x2048) S1x2048.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S512x2048.size a ≤ S8192x2048.size a
  hwx4_5 : ∀ i : grid4.Coords, EltTy.bits .f32 = 32 ∨ (Rect.block (s := S8192x2048) S512x2048.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S512x256.size a ≤ S8192x256.size a
  hwx4_6 : ∀ i : grid4.Coords, EltTy.bits .bf16 = 32 ∨ (Rect.block (s := S8192x256) S512x256.size (cc4_transform_6 i) (hinb4_6 i)).WholeWords (EltTy.packing .bf16)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x256.size a ≤ S1x256.size a
  hwx4_8 : ∀ i : grid4.Coords, EltTy.bits .f32 = 32 ∨ (Rect.block (s := S1x256) S1x256.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S512x1.size a ≤ S8192x1.size a
  hwx4_9 : ∀ i : grid4.Coords, EltTy.bits .i32 = 32 ∨ (Rect.block (s := S8192x1) S512x1.size (cc4_transform_9 i) (hinb4_9 i)).WholeWords (EltTy.packing .i32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S64x256.size a ≤ S64x256.size a
  hwx4_10 : ∀ i : grid4.Coords, EltTy.bits .f32 = 32 ∨ (Rect.block (s := S64x256) S64x256.size (cc4_transform_10 i) (hinb4_10 i)).WholeWords (EltTy.packing .f32)
  hstage4_11 : ∀ j, (stage4_11 j).IsWhole
  nbuf4_11 : grid4.bufCount reads4_11 false = 2
  hreads4_11 : ∀ i i' : grid4.Coords, (∀ a, reads4_11 a = true → i a = i' a) → cc4_transform_11 i = cc4_transform_11 i'
  hinb4_11 : ∀ (i : grid4.Coords) a, (cc4_transform_11 i a + 1) * S8x1.size a ≤ S16x1.size a
  hwx4_11 : ∀ i : grid4.Coords, EltTy.bits .f32 = 32 ∨ (Rect.block (s := S16x1) S8x1.size (cc4_transform_11 i) (hinb4_11 i)).WholeWords (EltTy.packing .f32)
  hstage4_12 : ∀ j, (stage4_12 j).IsWhole
  nbuf4_12 : grid4.bufCount reads4_12 false = 2
  hreads4_12 : ∀ i i' : grid4.Coords, (∀ a, reads4_12 a = true → i a = i' a) → cc4_transform_12 i = cc4_transform_12 i'
  hinb4_12 : ∀ (i : grid4.Coords) a, (cc4_transform_12 i a + 1) * S8x1.size a ≤ S16x1.size a
  hwx4_12 : ∀ i : grid4.Coords, EltTy.bits .f32 = 32 ∨ (Rect.block (s := S16x1) S8x1.size (cc4_transform_12 i) (hinb4_12 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S8x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_2) S8x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v10_0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36_0) S512x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v36_1) S8x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v36_2) S8x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v36_0) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S256x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62_0) S512x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v62_1) S8x512.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v62_2) S8x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v62_0) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v6) S512x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v88_0) S512x1024.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v88_1) S8x1024.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v88_2) S8x1024.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v88_0) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v111) S1x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v112) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v7) S1024x2048.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v113) S1x2048.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg0) S512x2048.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v36_0) S512x256.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v114) S1x256.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v115) S1x256.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v1) S512x1.size cc4_transform_9 reads4_9 false false 2 stage4_9 sem4_9
    hrank4 hreads4_9 hinb4_9 nbuf4_9 (Memref.isWhole_whole _) hwx4_9 hstage4_9

abbrev win4_10 : Pipeline.Window sig grid4 :=
  Pipeline.Window.ofSpec (Memref.whole main_arg2) S64x256.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v116_0) S8x1.size cc4_transform_11 reads4_11 true false 2 stage4_11 sem4_11
    hrank4 hreads4_11 hinb4_11 nbuf4_11 (Memref.isWhole_whole _) hwx4_11 hstage4_11

abbrev win4_12 : Pipeline.Window sig grid4 :=
  Pipeline.Window.ofSpec (Memref.whole main_v116_1) S8x1.size cc4_transform_12 reads4_12 true false 2 stage4_12 sem4_12
    hrank4 hreads4_12 hinb4_12 nbuf4_12 (Memref.isWhole_whole _) hwx4_12 hstage4_12

abbrev win4 : Fin 13 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | ⟨_ + 13, h⟩ => absurd h (Nat.not_lt.2 (Nat.le_add_left _ _))
abbrev spec4 : Fin 13 → Pipeline.WinSpec sig grid4.rank := fun w => (win4 w).toWinSpec

class Facts : Prop extends Facts₀ where

variable [Facts]
-- ==== ReferenceIdeal.lean ====
abbrev S8192x2048 : Shape := ⟨2, ![8192, 2048]⟩
abbrev S8192 : Shape := ⟨1, ![8192]⟩
abbrev S64x256 : Shape := ⟨2, ![64, 256]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x512 : Shape := ⟨2, ![256, 512]⟩
abbrev S512x1024 : Shape := ⟨2, ![512, 1024]⟩
abbrev S1024x2048 : Shape := ⟨2, ![1024, 2048]⟩
abbrev S2048 : Shape := ⟨1, ![2048]⟩
abbrev S8192x1024 : Shape := ⟨2, ![8192, 1024]⟩
abbrev S1x1024 : Shape := ⟨2, ![1, 1024]⟩
abbrev S_ : Shape := ⟨0, ![]⟩
abbrev S8192x512 : Shape := ⟨2, ![8192, 512]⟩
abbrev S1x512 : Shape := ⟨2, ![1, 512]⟩
abbrev S8192x256 : Shape := ⟨2, ![8192, 256]⟩
abbrev S1x256 : Shape := ⟨2, ![1, 256]⟩
abbrev S1x2048 : Shape := ⟨2, ![1, 2048]⟩
abbrev S8192x1 : Shape := ⟨2, ![8192, 1]⟩

abbrev nBuf : Space → Nat
  | .hbm => 206
  | .vmem => 0
  | .smem => 0
  | _ => 0

abbrev hbmTy0_0 (i : Nat) : BufTy := match i % 128 with
  | 0 => ⟨S8192x2048, .f32⟩
  | 1 => ⟨S8192, .i32⟩
  | 2 => ⟨S64x256, .f32⟩
  | 3 => ⟨S2048x1024, .f32⟩
  | 4 => ⟨S1024, .f32⟩
  | 5 => ⟨S1024x512, .f32⟩
  | 6 => ⟨S512, .f32⟩
  | 7 => ⟨S512, .f32⟩
  | 8 => ⟨S512, .f32⟩
  | 9 => ⟨S512x256, .f32⟩
  | 10 => ⟨S256, .f32⟩
  | 11 => ⟨S256, .f32⟩
  | 12 => ⟨S256, .f32⟩
  | 13 => ⟨S256x512, .f32⟩
  | 14 => ⟨S512, .f32⟩
  | 15 => ⟨S512, .f32⟩
  | 16 => ⟨S512, .f32⟩
  | 17 => ⟨S512x1024, .f32⟩
  | 18 => ⟨S1024, .f32⟩
  | 19 => ⟨S1024, .f32⟩
  | 20 => ⟨S1024, .f32⟩
  | 21 => ⟨S1024x2048, .f32⟩
  | 22 => ⟨S2048, .f32⟩
  | 23 => ⟨S8192x1024, .f32⟩
  | 24 => ⟨S1x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S8192x512, .f32⟩
  | 31 => ⟨S1x512, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S_, .f32⟩
  | 38 => ⟨S512, .f32⟩
  | 39 => ⟨S_, .f32⟩
  | 40 => ⟨S512, .f32⟩
  | 41 => ⟨S512, .f32⟩
  | 42 => ⟨S1x512, .f32⟩
  | 43 => ⟨S8192x512, .f32⟩
  | 44 => ⟨S8192x512, .f32⟩
  | 45 => ⟨S8192x512, .f32⟩
  | 46 => ⟨S_, .f32⟩
  | 47 => ⟨S512, .f32⟩
  | 48 => ⟨S_, .f32⟩
  | 49 => ⟨S512, .f32⟩
  | 50 => ⟨S512, .f32⟩
  | 51 => ⟨S1x512, .f32⟩
  | 52 => ⟨S8192x512, .f32⟩
  | 53 => ⟨S8192x512, .f32⟩
  | 54 => ⟨S1x512, .f32⟩
  | 55 => ⟨S8192x512, .f32⟩
  | 56 => ⟨S8192x512, .f32⟩
  | 57 => ⟨S_, .f32⟩
  | 58 => ⟨S512, .f32⟩
  | 59 => ⟨S512, .f32⟩
  | 60 => ⟨S512, .f32⟩
  | 61 => ⟨S1x512, .f32⟩
  | 62 => ⟨S8192x512, .f32⟩
  | 63 => ⟨S8192x512, .f32⟩
  | 64 => ⟨S1x512, .f32⟩
  | 65 => ⟨S8192x512, .f32⟩
  | 66 => ⟨S8192x512, .f32⟩
  | 67 => ⟨S8192x256, .f32⟩
  | 68 => ⟨S1x256, .f32⟩
  | 69 => ⟨S8192x256, .f32⟩
  | 70 => ⟨S8192x256, .f32⟩
  | 71 => ⟨S_, .f32⟩
  | 72 => ⟨S8192x256, .f32⟩
  | 73 => ⟨S8192x256, .f32⟩
  | 74 => ⟨S_, .f32⟩
  | 75 => ⟨S256, .f32⟩
  | 76 => ⟨S_, .f32⟩
  | 77 => ⟨S256, .f32⟩
  | 78 => ⟨S256, .f32⟩
  | 79 => ⟨S1x256, .f32⟩
  | 80 => ⟨S8192x256, .f32⟩
  | 81 => ⟨S8192x256, .f32⟩
  | 82 => ⟨S8192x256, .f32⟩
  | 83 => ⟨S_, .f32⟩
  | 84 => ⟨S256, .f32⟩
  | 85 => ⟨S_, .f32⟩
  | 86 => ⟨S256, .f32⟩
  | 87 => ⟨S256, .f32⟩
  | 88 => ⟨S1x256, .f32⟩
  | 89 => ⟨S8192x256, .f32⟩
  | 90 => ⟨S8192x256, .f32⟩
  | 91 => ⟨S1x256, .f32⟩
  | 92 => ⟨S8192x256, .f32⟩
  | 93 => ⟨S8192x256, .f32⟩
  | 94 => ⟨S_, .f32⟩
  | 95 => ⟨S256, .f32⟩
  | 96 => ⟨S256, .f32⟩
  | 97 => ⟨S256, .f32⟩
  | 98 => ⟨S1x256, .f32⟩
  | 99 => ⟨S8192x256, .f32⟩
  | 100 => ⟨S8192x256, .f32⟩
  | 101 => ⟨S1x256, .f32⟩
  | 102 => ⟨S8192x256, .f32⟩
  | 103 => ⟨S8192x256, .f32⟩
  | 104 => ⟨S8192x512, .f32⟩
  | 105 => ⟨S1x512, .f32⟩
  | 106 => ⟨S8192x512, .f32⟩
  | 107 => ⟨S8192x512, .f32⟩
  | 108 => ⟨S_, .f32⟩
  | 109 => ⟨S8192x512, .f32⟩
  | 110 => ⟨S8192x512, .f32⟩
  | 111 => ⟨S_, .f32⟩
  | 112 => ⟨S512, .f32⟩
  | 113 => ⟨S_, .f32⟩
  | 114 => ⟨S512, .f32⟩
  | 115 => ⟨S512, .f32⟩
  | 116 => ⟨S1x512, .f32⟩
  | 117 => ⟨S8192x512, .f32⟩
  | 118 => ⟨S8192x512, .f32⟩
  | 119 => ⟨S8192x512, .f32⟩
  | 120 => ⟨S_, .f32⟩
  | 121 => ⟨S512, .f32⟩
  | 122 => ⟨S_, .f32⟩
  | 123 => ⟨S512, .f32⟩
  | 124 => ⟨S512, .f32⟩
  | 125 => ⟨S1x512, .f32⟩
  | 126 => ⟨S8192x512, .f32⟩
  | 127 => ⟨S8192x512, .f32⟩
  | _ => ⟨S8192x2048, .f32⟩

abbrev hbmTy0_1 (i : Nat) : BufTy := match i % 128 with
  | 0 => ⟨S1x512, .f32⟩
  | 1 => ⟨S8192x512, .f32⟩
  | 2 => ⟨S8192x512, .f32⟩
  | 3 => ⟨S_, .f32⟩
  | 4 => ⟨S512, .f32⟩
  | 5 => ⟨S512, .f32⟩
  | 6 => ⟨S512, .f32⟩
  | 7 => ⟨S1x512, .f32⟩
  | 8 => ⟨S8192x512, .f32⟩
  | 9 => ⟨S8192x512, .f32⟩
  | 10 => ⟨S1x512, .f32⟩
  | 11 => ⟨S8192x512, .f32⟩
  | 12 => ⟨S8192x512, .f32⟩
  | 13 => ⟨S8192x1024, .f32⟩
  | 14 => ⟨S1x1024, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S_, .f32⟩
  | 21 => ⟨S1024, .f32⟩
  | 22 => ⟨S_, .f32⟩
  | 23 => ⟨S1024, .f32⟩
  | 24 => ⟨S1024, .f32⟩
  | 25 => ⟨S1x1024, .f32⟩
  | 26 => ⟨S8192x1024, .f32⟩
  | 27 => ⟨S8192x1024, .f32⟩
  | 28 => ⟨S8192x1024, .f32⟩
  | 29 => ⟨S_, .f32⟩
  | 30 => ⟨S1024, .f32⟩
  | 31 => ⟨S_, .f32⟩
  | 32 => ⟨S1024, .f32⟩
  | 33 => ⟨S1024, .f32⟩
  | 34 => ⟨S1x1024, .f32⟩
  | 35 => ⟨S8192x1024, .f32⟩
  | 36 => ⟨S8192x1024, .f32⟩
  | 37 => ⟨S1x1024, .f32⟩
  | 38 => ⟨S8192x1024, .f32⟩
  | 39 => ⟨S8192x1024, .f32⟩
  | 40 => ⟨S_, .f32⟩
  | 41 => ⟨S1024, .f32⟩
  | 42 => ⟨S1024, .f32⟩
  | 43 => ⟨S1024, .f32⟩
  | 44 => ⟨S1x1024, .f32⟩
  | 45 => ⟨S8192x1024, .f32⟩
  | 46 => ⟨S8192x1024, .f32⟩
  | 47 => ⟨S1x1024, .f32⟩
  | 48 => ⟨S8192x1024, .f32⟩
  | 49 => ⟨S8192x1024, .f32⟩
  | 50 => ⟨S8192x2048, .f32⟩
  | 51 => ⟨S1x2048, .f32⟩
  | 52 => ⟨S8192x2048, .f32⟩
  | 53 => ⟨S8192x2048, .f32⟩
  | 54 => ⟨S8192x2048, .f32⟩
  | 55 => ⟨S8192x2048, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S8192x1, .i32⟩
  | 70 => ⟨S8192x256, .f32⟩
  | 71 => ⟨S8192x256, .f32⟩
  | 72 => ⟨S8192x256, .f32⟩
  | 73 => ⟨S_, .f32⟩
  | 74 => ⟨S_, .f32⟩
  | 75 => ⟨S_, .f32⟩
  | 76 => ⟨S_, .f32⟩
  | 77 => ⟨S_, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_cst : Ref sig .tc := ⟨.hbm, 27, rfl⟩
abbrev main_call0_v0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_call1_cst : Ref sig .tc := ⟨.hbm, 34, rfl⟩
abbrev main_call1_v0 : Ref sig .tc := ⟨.hbm, 35, rfl⟩
abbrev main_v9 : Ref sig .tc := ⟨.hbm, 36, rfl⟩
abbrev main_cst : Ref sig .tc := ⟨.hbm, 37, rfl⟩
abbrev main_v10 : Ref sig .tc := ⟨.hbm, 38, rfl⟩
abbrev main_cst_0 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_1 : Ref sig .tc := ⟨.hbm, 46, rfl⟩
abbrev main_v17 : Ref sig .tc := ⟨.hbm, 47, rfl⟩
abbrev main_cst_2 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_3 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_call2_cst : Ref sig .tc := ⟨.hbm, 71, rfl⟩
abbrev main_call2_v0 : Ref sig .tc := ⟨.hbm, 72, rfl⟩
abbrev main_v39 : Ref sig .tc := ⟨.hbm, 73, rfl⟩
abbrev main_cst_4 : Ref sig .tc := ⟨.hbm, 74, rfl⟩
abbrev main_v40 : Ref sig .tc := ⟨.hbm, 75, rfl⟩
abbrev main_cst_5 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_6 : Ref sig .tc := ⟨.hbm, 83, rfl⟩
abbrev main_v47 : Ref sig .tc := ⟨.hbm, 84, rfl⟩
abbrev main_cst_7 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_8 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_call3_cst : Ref sig .tc := ⟨.hbm, 108, rfl⟩
abbrev main_call3_v0 : Ref sig .tc := ⟨.hbm, 109, rfl⟩
abbrev main_v69 : Ref sig .tc := ⟨.hbm, 110, rfl⟩
abbrev main_cst_9 : Ref sig .tc := ⟨.hbm, 111, rfl⟩
abbrev main_v70 : Ref sig .tc := ⟨.hbm, 112, rfl⟩
abbrev main_cst_10 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_11 : Ref sig .tc := ⟨.hbm, 120, rfl⟩
abbrev main_v77 : Ref sig .tc := ⟨.hbm, 121, rfl⟩
abbrev main_cst_12 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_13 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_call4_cst : Ref sig .tc := ⟨.hbm, 145, rfl⟩
abbrev main_call4_v0 : Ref sig .tc := ⟨.hbm, 146, rfl⟩
abbrev main_v99 : Ref sig .tc := ⟨.hbm, 147, rfl⟩
abbrev main_cst_14 : Ref sig .tc := ⟨.hbm, 148, rfl⟩
abbrev main_v100 : Ref sig .tc := ⟨.hbm, 149, rfl⟩
abbrev main_cst_15 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_cst_16 : Ref sig .tc := ⟨.hbm, 157, rfl⟩
abbrev main_v107 : Ref sig .tc := ⟨.hbm, 158, rfl⟩
abbrev main_cst_17 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_cst_18 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_19 : Ref sig .tc := ⟨.hbm, 184, rfl⟩
abbrev main_v131 : Ref sig .tc := ⟨.hbm, 185, rfl⟩
abbrev main_cst_20 : Ref sig .tc := ⟨.hbm, 186, rfl⟩
abbrev main_v132 : Ref sig .tc := ⟨.hbm, 187, rfl⟩
abbrev main_cst_21 : Ref sig .tc := ⟨.hbm, 188, rfl⟩
abbrev main_v133 : Ref sig .tc := ⟨.hbm, 189, rfl⟩
abbrev main_c : Ref sig .tc := ⟨.hbm, 190, rfl⟩
abbrev main_v134 : Ref sig .tc := ⟨.hbm, 191, rfl⟩
abbrev main_v135 : Ref sig .tc := ⟨.hbm, 192, rfl⟩
abbrev main_c_22 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_23 : Ref sig .tc := ⟨.hbm, 201, rfl⟩
abbrev main_v143 : Ref sig .tc := ⟨.hbm, 202, rfl⟩
abbrev main_cst_24 : Ref sig .tc := ⟨.hbm, 203, rfl⟩
abbrev main_v144 : Ref sig .tc := ⟨.hbm, 204, rfl⟩
abbrev main_v145 : Ref sig .tc := ⟨.hbm, 205, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  reducesTo_S8192x512_S512_d0 : S8192x512.ReducesTo [0] S512
  h_S_ : 0 < S_.numel
  bcast_S_S512 : S_.BroadcastsInDim S512 (![] : Fin 0 → Fin S512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  reducesTo_S8192x256_S256_d0 : S8192x256.ReducesTo [0] S256
  bcast_S_S256 : S_.BroadcastsInDim S256 (![] : Fin 0 → Fin S256.rank)
  reducesTo_S8192x1024_S1024_d0 : S8192x1024.ReducesTo [0] S1024
  bcast_S_S1024 : S_.BroadcastsInDim S1024 (![] : Fin 0 → Fin S1024.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S_d0_1 : S8192x2048.ReducesTo [0, 1] S_
  bcast_S_S8192 : S_.BroadcastsInDim S8192 (![] : Fin 0 → Fin S8192.rank)
  bcast_S8192_S8192x1_0 : S8192.BroadcastsInDim S8192x1 (![0] : Fin 1 → Fin S8192x1.rank)
  reducesTo_S8192x256_S_d0_1 : S8192x256.ReducesTo [0, 1] S_
  dot_S8192x2048_S2048x1024_S8192x1024_1_0_0_1_n_n_wf : DotDims.WF S8192x2048 S2048x1024 S8192x1024 [1] [0] [0] [1] [] []
  dot_S8192x1024_S1024x512_S8192x512_1_0_0_1_n_n_wf : DotDims.WF S8192x1024 S1024x512 S8192x512 [1] [0] [0] [1] [] []
  dot_S8192x512_S512x256_S8192x256_1_0_0_1_n_n_wf : DotDims.WF S8192x512 S512x256 S8192x256 [1] [0] [0] [1] [] []
  dot_S8192x256_S256x512_S8192x512_1_0_0_1_n_n_wf : DotDims.WF S8192x256 S256x512 S8192x512 [1] [0] [0] [1] [] []
  dot_S8192x512_S512x1024_S8192x1024_1_0_0_1_n_n_wf : DotDims.WF S8192x512 S512x1024 S8192x1024 [1] [0] [0] [1] [] []
  dot_S8192x1024_S1024x2048_S8192x2048_1_0_0_1_n_n_wf : DotDims.WF S8192x1024 S1024x2048 S8192x2048 [1] [0] [0] [1] [] []
  gather_S64x256_S8192x1_S8192x256_1_0_n_n_0_1_1256_wf : GatherDims.WF S64x256 S8192x1 S8192x256 [1] [0] [] [0] [] 1 ![1, 256]

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x1024_S8192x1024_1_0_0_1_n_n : DotDims S8192x512 S512x1024 S8192x1024 where
  lhsContracting := [1]
  rhsContracting := [0]
  lhsNonContracting := [0]
  rhsNonContracting := [1]
  lhsBatch := []
  rhsBatch := []
  wf := dot_S8192x512_S512x1024_S8192x1024_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def gather_S64x256_S8192x1_S8192x256_1_0_n_n_0_1_1256 : GatherDims S64x256 S8192x1 S8192x256 where
  offsetDims := [1]
  collapsedSliceDims := [0]
  operandBatchingDims := []
  startIndicesBatchingDims := []
  startIndexMap := [0]
  indexVectorDim := 1
  sliceSizes := ![1, 256]
  wf := gather_S64x256_S8192x1_S8192x256_1_0_n_n_0_1_1256_wf

class Facts : Prop extends Facts₀ where

variable [Facts]
-- ==== Proof.ChainKeep.lean ====
/- Between two segment boundaries of @main a buffer that no host operation in between writes, and that is no array
   of a kernel call in between (or is one of its input arrays), holds at the later boundary what it held at the earlier. -/
import proofs.«426192_j71700184039604_3_alg».proof.Proof.Gen.KernelIdeal.Frame

noncomputable section

namespace Cert.KernelIdeal.Chain

open Cert.KernelIdeal Cert.KernelIdeal.Gen
open Idealize.ShloMosaic Idealize.ShloMosaic.TcCoe Idealize.SL.Sem

variable {F : FTy → Type} [FloatOps F]

abbrev wr0 : List (Ref sig .tc) :=
  [main_c, main_c_0, main_call0_v0, main_call0_v1, main_call0_v2, main_call0_v3, main_call0_v4, main_v0,
   main_v1, main_v2, main_v3, main_v4, main_v5, main_v6, main_v7, main_v8, main_v9]
abbrev wr1 : List (Ref sig .tc) :=
  [main_v11, main_v12, main_v13, main_cst, main_v14, main_v15, main_v16, main_v17, main_cst_1, main_v18,
   main_cst_2, main_v19, main_v20, main_cst_3, main_v21, main_v22, main_v23, main_v24, main_cst_4, main_v25,
   main_v26, main_cst_5, main_v27, main_v28, main_v29, main_v30, main_v31, main_v32, main_v33, main_v34,
   main_v35]
abbrev wr2 : List (Ref sig .tc) :=
  [main_v37, main_v38, main_v39, main_cst_6, main_v40, main_v41, main_v42, main_v43, main_cst_7, main_v44,
   main_cst_8, main_v45, main_v46, main_cst_9, main_v47, main_v48, main_v49, main_v50, main_cst_10,
   main_v51, main_v52, main_cst_11, main_v53, main_v54, main_v55, main_v56, main_v57, main_v58, main_v59,
   main_v60, main_v61]
abbrev wr3 : List (Ref sig .tc) :=
  [main_v63, main_v64, main_v65, main_cst_12, main_v66, main_v67, main_v68, main_v69, main_cst_13, main_v70,
   main_cst_14, main_v71, main_v72, main_cst_15, main_v73, main_v74, main_v75, main_v76, main_cst_16,
   main_v77, main_v78, main_cst_17, main_v79, main_v80, main_v81, main_v82, main_v83, main_v84, main_v85,
   main_v86, main_v87]
abbrev wr4 : List (Ref sig .tc) :=
  [main_v89, main_v90, main_v91, main_cst_18, main_v92, main_v93, main_v94, main_v95, main_cst_19, main_v96,
   main_cst_20, main_v97, main_v98, main_cst_21, main_v99, main_v100, main_v101, main_v102, main_cst_22,
   main_v103, main_v104, main_cst_23, main_v105, main_v106, main_v107, main_v108, main_v109, main_v110,
   main_v111, main_v112, main_v113, main_v114, main_v115]

abbrev WritesIn (ops : List (HloOp τ sig (Elt F))) (w : List (Ref sig .tc)) : Prop :=
  ops.Forall fun op => op.writes ⊆ (w.map (Proc.devRef (τ := τ) .tc)).toFinset

/-- Every host stretch before the last kernel call writes only the buffers listed for it. -/
theorem writesIn : WritesIn (F := F) hostOps0 wr0 ∧ WritesIn (F := F) hostOps0_1 wr0 ∧ WritesIn (F := F) hostOps0_2 wr0 ∧ WritesIn (F := F) hostOps1 wr1 ∧
    WritesIn (F := F) hostOps2 wr2 ∧ WritesIn (F := F) hostOps3 wr3 ∧ WritesIn (F := F) hostOps4 wr4 := by
  simp only [WritesIn, hostOps0, hostOps0_1, hostOps0_2, hostOps1, hostOps2, hostOps3, hostOps4, List.Forall,
    StableHlo.nullary_writes, StableHlo.unary_writes, StableHlo.binary_writes, StableHlo.reshape_writes,
    Finset.singleton_subset_iff, List.mem_toFinset]
  repeat' apply And.intro
  all_goals exact List.mem_map_of_mem (by decide)

variable (m : (ℓ : Loc nD τ sig) → Buf (Elt F) ℓ) (ρ : Dev nD → PrngReg) (c : Dev nD) (r : Ref sig .tc)

theorem hk3 (h : r ∉ wr0) : W3 m ρ c (Proc.devRef .tc r) = W0 m ρ c (Proc.devRef .tc r) :=
  ((StableHlo.after_of_writes_sub _ _ writesIn.2.2.1 h).trans (StableHlo.after_of_writes_sub _ _ writesIn.2.1 h)).trans (StableHlo.after_of_writes_sub _ _ writesIn.1 h)
theorem hk5 (h : r ∉ wr1) : W5 m ρ c (Proc.devRef .tc r) = W4 m ρ c (Proc.devRef .tc r) :=
  StableHlo.after_of_writes_sub _ _ writesIn.2.2.2.1 h
theorem hk7 (h : r ∉ wr2) : W7 m ρ c (Proc.devRef .tc r) = W6 m ρ c (Proc.devRef .tc r) :=
  StableHlo.after_of_writes_sub _ _ writesIn.2.2.2.2.1 h
theorem hk9 (h : r ∉ wr3) : W9 m ρ c (Proc.devRef .tc r) = W8 m ρ c (Proc.devRef .tc r) :=
  StableHlo.after_of_writes_sub _ _ writesIn.2.2.2.2.2.1 h
theorem hk11 (h : r ∉ wr4) : W11 m ρ c (Proc.devRef .tc r) = W10 m ρ c (Proc.devRef .tc r) :=
  StableHlo.after_of_writes_sub _ _ writesIn.2.2.2.2.2.2 h

/-- `r` is neither written by the host stretch before call `k` nor one of that call's arrays. -/
abbrev Free0 : Prop := r ∉ wr0 ∧ ∀ w, Pipeline.arrRef spec0 w ≠ r
abbrev Free1 : Prop := r ∉ wr1 ∧ ∀ w, Pipeline.arrRef spec1 w ≠ r
abbrev Free2 : Prop := r ∉ wr2 ∧ ∀ w, Pipeline.arrRef spec2 w ≠ r
abbrev Free3 : Prop := r ∉ wr3 ∧ ∀ w, Pipeline.arrRef spec3 w ≠ r
abbrev Free1' : Prop := r ∉ wr2 ∧ ∀ w, Pipeline.arrRef spec1 w ≠ r
abbrev Free2' : Prop := r ∉ wr3 ∧ ∀ w, Pipeline.arrRef spec2 w ≠ r
abbrev Free3' : Prop := r ∉ wr4 ∧ ∀ w, Pipeline.arrRef spec3 w ≠ r

/-- Across a host stretch and the kernel call after it. -/
theorem ha4 (h : Free0 r) : W4 m ρ c (Proc.devRef .tc r) = W0 m ρ c (Proc.devRef .tc r) :=
  (W4_of_ne m ρ c r h.2).trans (hk3 m ρ c r h.1)
theorem ha6 (h : Free1 r) : W6 m ρ c (Proc.devRef .tc r) = W4 m ρ c (Proc.devRef .tc r) :=
  (W6_of_ne m ρ c r h.2).trans (hk5 m ρ c r h.1)
theorem ha8 (h : Free2 r) : W8 m ρ c (Proc.devRef .tc r) = W6 m ρ c (Proc.devRef .tc r) :=
  (W8_of_ne m ρ c r h.2).trans (hk7 m ρ c r h.1)
theorem ha10 (h : Free3 r) : W10 m ρ c (Proc.devRef .tc r) = W8 m ρ c (Proc.devRef .tc r) :=
  (W10_of_ne m ρ c r h.2).trans (hk9 m ρ c r h.1)

/-- An argument no call before boundary `k` has among its arrays holds there what the launch gave it. -/
theorem arg6 (h : Free1 r ∧ Free0 r) : W6 m ρ c (Proc.devRef .tc r) = W0 m ρ c (Proc.devRef .tc r) :=
  (ha6 m ρ c r h.1).trans (ha4 m ρ c r h.2)
theorem arg8 (h : Free2 r ∧ Free1 r ∧ Free0 r) : W8 m ρ c (Proc.devRef .tc r) = W0 m ρ c (Proc.devRef .tc r) :=
  (ha8 m ρ c r h.1).trans (arg6 m ρ c r h.2)
theorem arg10 (h : Free3 r ∧ Free2 r ∧ Free1 r ∧ Free0 r) : W10 m ρ c (Proc.devRef .tc r) = W0 m ρ c (Proc.devRef .tc r) :=
  (ha10 m ρ c r h.1).trans (arg8 m ρ c r h.2)
theorem arg11 (h : r ∉ wr4 ∧ Free3 r ∧ Free2 r ∧ Free1 r ∧ Free0 r) : W11 m ρ c (Proc.devRef .tc r) = W0 m ρ c (Proc.devRef .tc r) :=
  (hk11 m ρ c r h.1).trans (arg10 m ρ c r h.2)

/-- A buffer written before the first call and read by no call before boundary `k` holds there what it held at the first call's entry. -/
theorem from5 (h : r ∉ wr1 ∧ ∀ w, Pipeline.arrRef spec0 w ≠ r) : W5 m ρ c (Proc.devRef .tc r) = W3 m ρ c (Proc.devRef .tc r) :=
  (hk5 m ρ c r h.1).trans (W4_of_ne m ρ c r h.2)
theorem from7 (h : Free1' r ∧ r ∉ wr1 ∧ ∀ w, Pipeline.arrRef spec0 w ≠ r) : W7 m ρ c (Proc.devRef .tc r) = W3 m ρ c (Proc.devRef .tc r) :=
  ((hk7 m ρ c r h.1.1).trans (W6_of_ne m ρ c r h.1.2)).trans (from5 m ρ c r h.2)
theorem from9 (h : Free2' r ∧ Free1' r ∧ r ∉ wr1 ∧ ∀ w, Pipeline.arrRef spec0 w ≠ r) : W9 m ρ c (Proc.devRef .tc r) = W3 m ρ c (Proc.devRef .tc r) :=
  ((hk9 m ρ c r h.1.1).trans (W8_of_ne m ρ c r h.1.2)).trans (from7 m ρ c r h.2)
theorem from11 (h : Free3' r ∧ Free2' r ∧ Free1' r ∧ r ∉ wr1 ∧ ∀ w, Pipeline.arrRef spec0 w ≠ r) :
    W11 m ρ c (Proc.devRef .tc r) = W3 m ρ c (Proc.devRef .tc r) :=
  ((hk11 m ρ c r h.1.1).trans (W10_of_ne m ρ c r h.1.2)).trans (from9 m ρ c r h.2)

/-- The first input of the first call is `main_arg0`, so the call leaves it; likewise the third call and its first input. -/
theorem keep_main_arg0_11_0 : W11 m ρ c (Proc.devRef .tc main_arg0) = W0 m ρ c (Proc.devRef .tc main_arg0) :=
  (hk11 m ρ c _ (by decide)).trans <| (ha10 m ρ c _ (by decide)).trans <| (ha8 m ρ c _ (by decide)).trans <| (ha6 m ρ c _ (by decide)).trans <|
    ((W4_arr m ρ c 0).trans (((dat0 (V3 m ρ) c).arrAt_in 0 rfl _).trans (A_eq0 (V3 m ρ) c 0))).trans (hk3 m ρ c _ (by decide))
theorem keep_main_v36_0_11_6 : W11 m ρ c (Proc.devRef .tc main_v36_0) = W6 m ρ c (Proc.devRef .tc main_v36_0) :=
  (hk11 m ρ c _ (by decide)).trans <| (W10_of_ne m ρ c _ (by decide)).trans <| (hk9 m ρ c _ (by decide)).trans <|
    ((W8_arr m ρ c 0).trans (((dat2 (V7 m ρ) c).arrAt_in 0 rfl _).trans (A_eq2 (V7 m ρ) c 0))).trans (hk7 m ρ c _ (by decide))
theorem keep_10_7 (h : (∀ w, Pipeline.arrRef spec3 w ≠ r) ∧ Free2' r) : W10 m ρ c (Proc.devRef .tc r) = W7 m ρ c (Proc.devRef .tc r) :=
  (W10_of_ne m ρ c r h.1).trans ((hk9 m ρ c r h.2.1).trans (W8_of_ne m ρ c r h.2.2))

end Cert.KernelIdeal.Chain

end
-- ==== Proof.Spec.lean ====
/- What both programs compute, as functions of arrays over the extended reals, index by index. -/
import Idealize.ShloMosaic.PureOps.Ideal
import Idealize.ShloMosaic.PureOps.Ideal.Laws

noncomputable section

open scoped BigOperators
open Idealize.ShloMosaic

namespace Cert.Spec

abbrev zeroW : EReal := Ideal.ofBits .f32 0x00000000#32
abbrev cntW : EReal := Ideal.ofBits .f32 0x46000000#32
abbrev epsW : EReal := Ideal.ofBits .f32 0x3727C5AC#32
abbrev lamW : EReal := Ideal.ofBits .f32 0x3DCCCCCD#32
abbrev numW : EReal := Ideal.ofBits .f32 0x4B800000#32
abbrev halfW : EReal := Ideal.ofBits .f32 0x3F000000#32

variable {B K N : ℕ}

def lin (x : Fin B → Fin K → EReal) (w : Fin K → Fin N → EReal) (b : Fin N → EReal) : Fin B → Fin N → EReal :=
  fun i j => (∑ k, x i k * w k j) + b j

def relu (x : Fin B → Fin N → EReal) : Fin B → Fin N → EReal := fun i j => max (x i j) zeroW

def affine (a : Fin B → Fin N → EReal) (sc sh : Fin N → EReal) : Fin B → Fin N → EReal :=
  fun i j => a i j * sc j + sh j

def coreRow (c : Fin 2) (i : Fin 4096) : Fin 8192 := ⟨4096 * c.val + i.val, by omega⟩

def coreSum (a : Fin 8192 → Fin N → EReal) (c : Fin 2) (j : Fin N) : EReal := ∑ i : Fin 4096, a (coreRow c i) j

def coreSumSq (a : Fin 8192 → Fin N → EReal) (c : Fin 2) (j : Fin N) : EReal :=
  ∑ i : Fin 4096, a (coreRow c i) j * a (coreRow c i) j

def coreTot (e : Fin 8192 → Fin N → EReal) (c : Fin 2) : EReal := ∑ i : Fin 4096, ∑ j, e (coreRow c i) j

def twoCore (p : Fin 2 → EReal) : EReal := zeroW + ∑ c : Fin 2, p c

def colS (a : Fin 8192 → Fin N → EReal) : Fin N → EReal := fun j => twoCore fun c => coreSum a c j
def colQ (a : Fin 8192 → Fin N → EReal) : Fin N → EReal := fun j => twoCore fun c => coreSumSq a c j

def kMean (S : Fin N → EReal) : Fin N → EReal := fun j => Ideal.div (S j) cntW
def kVar (S Q : Fin N → EReal) : Fin N → EReal :=
  fun j => max (Ideal.div (Q j) cntW - kMean S j * kMean S j) zeroW
def kScale (S Q g : Fin N → EReal) : Fin N → EReal := fun j => g j * Ideal.rsqrt (kVar S Q j + epsW)
def kShift (S Q g be : Fin N → EReal) : Fin N → EReal := fun j => be j - kMean S j * kScale S Q g j

def kBN (a : Fin 8192 → Fin N → EReal) (g be : Fin N → EReal) : Fin 8192 → Fin N → EReal :=
  affine a (kScale (colS a) (colQ a) g) (kShift (colS a) (colQ a) g be)

def rMean (a : Fin B → Fin N → EReal) : Fin N → EReal := fun j => Ideal.div (zeroW + ∑ i, a i j) cntW
def rVar (a : Fin B → Fin N → EReal) : Fin N → EReal :=
  fun j => Ideal.div (zeroW + ∑ i, (a i j - rMean a j) * (a i j - rMean a j)) cntW
def rBN (a : Fin B → Fin N → EReal) (g be : Fin N → EReal) : Fin B → Fin N → EReal :=
  fun i j => Ideal.div (g j * (a i j - rMean a j)) (Ideal.sqrt (rVar a j + epsW)) + be j

structure Inputs where
  X : Fin 8192 → Fin 2048 → EReal
  idx : Fin 8192 → Fin 64
  cl : Fin 64 → Fin 256 → EReal
  w0 : Fin 2048 → Fin 1024 → EReal
  b0 : Fin 1024 → EReal
  w1 : Fin 1024 → Fin 512 → EReal
  b1 : Fin 512 → EReal
  g1 : Fin 512 → EReal
  be1 : Fin 512 → EReal
  w2 : Fin 512 → Fin 256 → EReal
  b2 : Fin 256 → EReal
  g2 : Fin 256 → EReal
  be2 : Fin 256 → EReal
  w3 : Fin 256 → Fin 512 → EReal
  b3 : Fin 512 → EReal
  g3 : Fin 512 → EReal
  be3 : Fin 512 → EReal
  w4 : Fin 512 → Fin 1024 → EReal
  b4 : Fin 1024 → EReal
  g4 : Fin 1024 → EReal
  be4 : Fin 1024 → EReal
  w5 : Fin 1024 → Fin 2048 → EReal
  b5 : Fin 2048 → EReal

structure Inputs.IsReal (I : Inputs) : Prop where
  X : ∀ i j, ∃ r : ℝ, I.X i j = r
  cl : ∀ i j, ∃ r : ℝ, I.cl i j = r
  w0 : ∀ i j, ∃ r : ℝ, I.w0 i j = r
  b0 : ∀ j, ∃ r : ℝ, I.b0 j = r
  w1 : ∀ i j, ∃ r : ℝ, I.w1 i j = r
  b1 : ∀ j, ∃ r : ℝ, I.b1 j = r
  g1 : ∀ j, ∃ r : ℝ, I.g1 j = r
  be1 : ∀ j, ∃ r : ℝ, I.be1 j = r
  w2 : ∀ i j, ∃ r : ℝ, I.w2 i j = r
  b2 : ∀ j, ∃ r : ℝ, I.b2 j = r
  g2 : ∀ j, ∃ r : ℝ, I.g2 j = r
  be2 : ∀ j, ∃ r : ℝ, I.be2 j = r
  w3 : ∀ i j, ∃ r : ℝ, I.w3 i j = r
  b3 : ∀ j, ∃ r : ℝ, I.b3 j = r
  g3 : ∀ j, ∃ r : ℝ, I.g3 j = r
  be3 : ∀ j, ∃ r : ℝ, I.be3 j = r
  w4 : ∀ i j, ∃ r : ℝ, I.w4 i j = r
  b4 : ∀ j, ∃ r : ℝ, I.b4 j = r
  g4 : ∀ j, ∃ r : ℝ, I.g4 j = r
  be4 : ∀ j, ∃ r : ℝ, I.be4 j = r
  w5 : ∀ i j, ∃ r : ℝ, I.w5 i j = r
  b5 : ∀ j, ∃ r : ℝ, I.b5 j = r

variable (I : Inputs)

def act1 : Fin 8192 → Fin 512 → EReal := relu (lin (relu (lin I.X I.w0 I.b0)) I.w1 I.b1)

def kAct2 : Fin 8192 → Fin 256 → EReal := relu (lin (kBN (act1 I) I.g1 I.be1) I.w2 I.b2)
def kLat : Fin 8192 → Fin 256 → EReal := kBN (kAct2 I) I.g2 I.be2
def kAct3 : Fin 8192 → Fin 512 → EReal := relu (lin (kLat I) I.w3 I.b3)
def kAct4 : Fin 8192 → Fin 1024 → EReal := relu (lin (kBN (kAct3 I) I.g3 I.be3) I.w4 I.b4)
def kRec : Fin 8192 → Fin 2048 → EReal := lin (kBN (kAct4 I) I.g4 I.be4) I.w5 I.b5
def kRecErr : Fin 8192 → Fin 2048 → EReal := fun i j => (I.X i j - kRec I i j) * (I.X i j - kRec I i j)
def kDistErr : Fin 8192 → Fin 256 → EReal :=
  fun i j => (kLat I i j - I.cl (I.idx i) j) * (kLat I i j - I.cl (I.idx i) j)

def kVal : EReal :=
  Ideal.div (lamW * twoCore (coreTot (kRecErr I))) numW + halfW * twoCore (coreTot (kDistErr I))

def rAct2 : Fin 8192 → Fin 256 → EReal := relu (lin (rBN (act1 I) I.g1 I.be1) I.w2 I.b2)
def rLat : Fin 8192 → Fin 256 → EReal := rBN (rAct2 I) I.g2 I.be2
def rAct3 : Fin 8192 → Fin 512 → EReal := relu (lin (rLat I) I.w3 I.b3)
def rAct4 : Fin 8192 → Fin 1024 → EReal := relu (lin (rBN (rAct3 I) I.g3 I.be3) I.w4 I.b4)
def rRec : Fin 8192 → Fin 2048 → EReal := lin (rBN (rAct4 I) I.g4 I.be4) I.w5 I.b5
def rRecErr : Fin 8192 → Fin 2048 → EReal := fun i j => (I.X i j - rRec I i j) * (I.X i j - rRec I i j)
def rDistErr : Fin 8192 → Fin 256 → EReal :=
  fun i j => (rLat I i j - I.cl (I.idx i) j) * (rLat I i j - I.cl (I.idx i) j)

def rVal : EReal :=
  lamW * Ideal.div (zeroW + ∑ i, ∑ j, rRecErr I i j) numW + halfW * (zeroW + ∑ i, ∑ j, rDistErr I i j)

end Cert.Spec

end
-- ==== Proof.Host.lean ====
/- The host operations between the calls read at an index: the clipped cluster ids, the reshaped biases, and after each of the first four calls mean, variance, scale and shift from the two halves' column sums. -/
import proofs.«426192_j71700184039604_3_alg».proof.Proof.Gen.KernelIdeal.Launch
import proofs.«426192_j71700184039604_3_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx

namespace Cert.KernelIdeal.Host

open Cert.KernelIdeal Cert.KernelIdeal.Gen

variable (W : Valuation τ sig (Elt Ideal))

def half8 (c : Fin 2) : Fin 16 := ⟨8 * c.val, by omega⟩

def statOf {N : ℕ} (arr : Fin 16 → Fin N → EReal) : Fin N → EReal := fun j => Spec.twoCore fun c => arr (half8 c) j

section Generic
variable {N : ℕ} {α : Type}

theorem halves_apply (arr : (⟨2, ![16, N]⟩ : Shape).Idx → α)
    (h1 : (⟨2, ![16, N]⟩ : Shape).ShapeCasts ⟨3, ![2, 8, N]⟩)
    (h2 : (⟨3, ![2, 8, N]⟩ : Shape).Slices ![0, 0, 0] ⟨3, ![2, 1, N]⟩)
    (h3 : (⟨3, ![2, 1, N]⟩ : Shape).ShapeCasts ⟨2, ![2, N]⟩) (c : Fin 2) (j : Fin N) :
    shapeCast ⟨2, ![2, N]⟩
        (extractStridedSlice ⟨3, ![2, 1, N]⟩ ![0, 0, 0] (shapeCast ⟨3, ![2, 8, N]⟩ arr h1) h2) h3 (ix2 c j)
      = arr (ix2 (half8 c) j) := by
  rw [shapeCast_apply _ h3 (ix2 c j) (ix3 c 0 j) (by
    rw [Shape.rowMajor_val_three, Shape.rowMajor_val_two]
    show (c.val * 1 + 0) * N + j.val = c.val * N + j.val
    rw [Nat.mul_one, Nat.add_zero])]
  rw [extractStridedSlice_apply ![0, 0, 0] _ h2 (ix3 c 0 j) (ix3 c 0 j) (fun a => by
    match a with
    | ⟨0, _⟩ => exact (Nat.zero_add _).symm
    | ⟨1, _⟩ => exact (Nat.zero_add _).symm
    | ⟨2, _⟩ => exact (Nat.zero_add _).symm)]
  rw [shapeCast_apply _ h1 (ix3 c 0 j) (ix2 (half8 c) j) (by
    rw [Shape.rowMajor_val_three, Shape.rowMajor_val_two]
    show (8 * c.val) * N + j.val = (c.val * 8 + 0) * N + j.val
    ring)]

theorem rows2_sum (x : (⟨2, ![2, N]⟩ : Shape).Idx → EReal) (init : EReal)
    (h' : (⟨2, ![2, N]⟩ : Shape).ReducesTo [0] ⟨1, ![N]⟩) (h : (⟨2, ![2, N]⟩ : Shape).Reduces [0] ⟨1, ![N]⟩) (j : Fin N) :
    Ideal.hostReduceAdd h' x init (ix1 j) = init + ∑ c : Fin 2, x (ix2 c j) := by
  rw [Ideal.hostReduceAdd_single h' h]
  refine congrArg (init + ·) (Finset.sum_congr rfl fun k _ => congrArg x ?_)
  exact funext fun a => Fin.ext (by match a with | ⟨0, _⟩ => rfl | ⟨1, _⟩ => rfl)

theorem stat_apply (arr : (⟨2, ![16, N]⟩ : Shape).Idx → EReal)
    (h1 : (⟨2, ![16, N]⟩ : Shape).ShapeCasts ⟨3, ![2, 8, N]⟩)
    (h2 : (⟨3, ![2, 8, N]⟩ : Shape).Slices ![0, 0, 0] ⟨3, ![2, 1, N]⟩)
    (h3 : (⟨3, ![2, 1, N]⟩ : Shape).ShapeCasts ⟨2, ![2, N]⟩)
    (h' : (⟨2, ![2, N]⟩ : Shape).ReducesTo [0] ⟨1, ![N]⟩) (h : (⟨2, ![2, N]⟩ : Shape).Reduces [0] ⟨1, ![N]⟩)
    {u : Shape} (hu : 0 < u.numel) (j : Fin N) :
    Host.reduceAdd (F := Ideal) (φ := .f32)
        (fun i => shapeCast ⟨2, ![2, N]⟩
          (extractStridedSlice ⟨3, ![2, 1, N]⟩ ![0, 0, 0] (fun i => shapeCast ⟨3, ![2, 8, N]⟩ arr h1 i) h2) h3 i)
        (constant u .f32 0x00000000#32) h' hu (ix1 j)
      = statOf (fun r j => arr (ix2 r j)) j := by
  show Ideal.hostReduceAdd h' _ (Ideal.ofBits .f32 0x00000000#32) (ix1 j) = _
  rw [rows2_sum _ _ h' h j]
  refine congrArg (_ + ·) (Finset.sum_congr rfl fun c _ => ?_)
  exact halves_apply arr h1 h2 h3 c j

theorem shapeCast_1_0_apply (x : (⟨1, ![1]⟩ : Shape).Idx → α) (h : (⟨1, ![1]⟩ : Shape).ShapeCasts ⟨0, ![]⟩) :
    shapeCast ⟨0, ![]⟩ x h ix0 = x (ix1 0) :=
  shapeCast_apply x h _ _ (by
    rw [Shape.rowMajor_val_one]
    show (0 : ℕ) = (Shape.rowMajorPi _ _).val
    rw [Shape.rowMajorPi_zero])

theorem shapeCast_a_a1_apply {a : ℕ} (x : (⟨1, ![a]⟩ : Shape).Idx → α) (h : (⟨1, ![a]⟩ : Shape).ShapeCasts ⟨2, ![a, 1]⟩)
    (i : Fin a) : shapeCast ⟨2, ![a, 1]⟩ x h (ix2 i 0) = x (ix1 i) :=
  shapeCast_apply x h _ _ (by
    rw [Shape.rowMajor_val_two, Shape.rowMajor_val_one]
    show i.val = i.val * 1 + 0
    rw [Nat.mul_one, Nat.add_zero])

theorem hdivf_apply {s : Shape} {φ : FTy} (a b : FVec Ideal s φ) (i : s.Idx) :
    Host.divf a b i = Ideal.div (a i) (b i) := rfl
theorem hrsqrt_apply {s : Shape} {φ : FTy} (a : FVec Ideal s φ) (i : s.Idx) :
    Host.rsqrt a i = Ideal.rsqrt (a i) := rfl

end Generic

abbrev W3of : Valuation τ sig (Elt Ideal) :=
  StableHlo.after hostOps0_2 (StableHlo.after hostOps0_1 (StableHlo.after hostOps0 W))

abbrev cidArg : Vec Ideal S8192 .i32 := W (Proc.devRef .tc main_arg1)
abbrev cidClip : Vec Ideal S8192x1 .i32 := W3of W (Proc.devRef .tc main_v1)

theorem cid_eq (i : Fin 8192) (n : Fin 64) (h : (cidArg W (ix1 i) : BitVec 32) = BitVec.ofNat 32 n.val) :
    (cidClip W (ix2 i 0) : BitVec 32) = BitVec.ofNat 32 n.val := by
  show StableHlo.after hostOps0_2 (StableHlo.after hostOps0_1 (StableHlo.after hostOps0 W))
    (Proc.devRef .tc main_v1) (ix2 i 0) = _
  after_results_simp
  refine (shapeCast_a_a1_apply _ _ _).trans ?_

  show IntOp.minsi (63#32) (IntOp.maxsi (0#32) (cidArg W (ix1 i))) = _
  rw [h]
  clear h
  revert n
  decide

abbrev w0Arg : Vec Ideal S2048x1024 .f32 := W (Proc.devRef .tc main_arg3)
abbrev w0B : Vec Ideal S2048x1024 .bf16 := W3of W (Proc.devRef .tc main_v2)
theorem w0_eq (k : Fin 2048) (j : Fin 1024) : (w0B W (ix2 k j) : EReal) = w0Arg W (ix2 k j) := by
  show StableHlo.after hostOps0_2 (StableHlo.after hostOps0_1 (StableHlo.after hostOps0 W))
    (Proc.devRef .tc main_v2) (ix2 k j) = _
  after_results_simp

  rfl
abbrev w1Arg : Vec Ideal S1024x512 .f32 := W (Proc.devRef .tc main_arg5)
abbrev w1B : Vec Ideal S1024x512 .bf16 := W3of W (Proc.devRef .tc main_v3)
theorem w1_eq (k : Fin 1024) (j : Fin 512) : (w1B W (ix2 k j) : EReal) = w1Arg W (ix2 k j) := by
  show StableHlo.after hostOps0_2 (StableHlo.after hostOps0_1 (StableHlo.after hostOps0 W))
    (Proc.devRef .tc main_v3) (ix2 k j) = _
  after_results_simp

  rfl
abbrev w2Arg : Vec Ideal S512x256 .f32 := W (Proc.devRef .tc main_arg9)
abbrev w2B : Vec Ideal S512x256 .bf16 := W3of W (Proc.devRef .tc main_v4)
theorem w2_eq (k : Fin 512) (j : Fin 256) : (w2B W (ix2 k j) : EReal) = w2Arg W (ix2 k j) := by
  show StableHlo.after hostOps0_2 (StableHlo.after hostOps0_1 (StableHlo.after hostOps0 W))
    (Proc.devRef .tc main_v4) (ix2 k j) = _
  after_results_simp

  rfl
abbrev w3Arg : Vec Ideal S256x512 .f32 := W (Proc.devRef .tc main_arg13)
abbrev w3B : Vec Ideal S256x512 .bf16 := W3of W (Proc.devRef .tc main_v5)
theorem w3_eq (k : Fin 256) (j : Fin 512) : (w3B W (ix2 k j) : EReal) = w3Arg W (ix2 k j) := by
  show StableHlo.after hostOps0_2 (StableHlo.after hostOps0_1 (StableHlo.after hostOps0 W))
    (Proc.devRef .tc main_v5) (ix2 k j) = _
  after_results_simp

  rfl
abbrev w4Arg : Vec Ideal S512x1024 .f32 := W (Proc.devRef .tc main_arg17)
abbrev w4B : Vec Ideal S512x1024 .bf16 := W3of W (Proc.devRef .tc main_v6)
theorem w4_eq (k : Fin 512) (j : Fin 1024) : (w4B W (ix2 k j) : EReal) = w4Arg W (ix2 k j) := by
  show StableHlo.after hostOps0_2 (StableHlo.after hostOps0_1 (StableHlo.after hostOps0 W))
    (Proc.devRef .tc main_v6) (ix2 k j) = _
  after_results_simp

  rfl
abbrev w5Arg : Vec Ideal S1024x2048 .f32 := W (Proc.devRef .tc main_arg21)
abbrev w5B : Vec Ideal S1024x2048 .bf16 := W3of W (Proc.devRef .tc main_v7)
theorem w5_eq (k : Fin 1024) (j : Fin 2048) : (w5B W (ix2 k j) : EReal) = w5Arg W (ix2 k j) := by
  show StableHlo.after hostOps0_2 (StableHlo.after hostOps0_1 (StableHlo.after hostOps0 W))
    (Proc.devRef .tc main_v7) (ix2 k j) = _
  after_results_simp

  rfl
abbrev b0Arg : Vec Ideal S1024 .f32 := W (Proc.devRef .tc main_arg4)
abbrev b0Row : Vec Ideal S1x1024 .f32 := W3of W (Proc.devRef .tc main_v8)
theorem b0_eq (j : Fin 1024) : (b0Row W (ix2 0 j) : EReal) = b0Arg W (ix1 j) := by
  show StableHlo.after hostOps0_2 (StableHlo.after hostOps0_1 (StableHlo.after hostOps0 W))
    (Proc.devRef .tc main_v8) (ix2 0 j) = _
  after_results_simp
  exact shapeCast_a_1a_apply _ _ _ _
abbrev b1Arg : Vec Ideal S512 .f32 := W (Proc.devRef .tc main_arg6)
abbrev b1Row : Vec Ideal S1x512 .f32 := W3of W (Proc.devRef .tc main_v9)
theorem b1_eq (j : Fin 512) : (b1Row W (ix2 0 j) : EReal) = b1Arg W (ix1 j) := by
  show StableHlo.after hostOps0_2 (StableHlo.after hostOps0_1 (StableHlo.after hostOps0 W))
    (Proc.devRef .tc main_v9) (ix2 0 j) = _
  after_results_simp
  exact shapeCast_a_1a_apply _ _ _ _

abbrev sumArr1 : Vec Ideal S16x512 .f32 := W (Proc.devRef .tc main_v10_1)
abbrev sqArr1 : Vec Ideal S16x512 .f32 := W (Proc.devRef .tc main_v10_2)
abbrev gArr1 : Vec Ideal S512 .f32 := W (Proc.devRef .tc main_arg7)
abbrev beArr1 : Vec Ideal S512 .f32 := W (Proc.devRef .tc main_arg8)
abbrev nbArr1 : Vec Ideal S256 .f32 := W (Proc.devRef .tc main_arg10)
def S1 : Fin 512 → EReal := statOf fun r j => sumArr1 W (ix2 r j)
def Q1 : Fin 512 → EReal := statOf fun r j => sqArr1 W (ix2 r j)
def g1 : Fin 512 → EReal := fun j => gArr1 W (ix1 j)
def be1 : Fin 512 → EReal := fun j => beArr1 W (ix1 j)
def nb1 : Fin 256 → EReal := fun j => nbArr1 W (ix1 j)
abbrev scale1 : Vec Ideal S1x512 .f32 := StableHlo.after hostOps1 W (Proc.devRef .tc main_v33)
abbrev shift1 : Vec Ideal S1x512 .f32 := StableHlo.after hostOps1 W (Proc.devRef .tc main_v34)
abbrev bias1 : Vec Ideal S1x256 .f32 := StableHlo.after hostOps1 W (Proc.devRef .tc main_v35)

theorem scale1_eq (j : Fin 512) : (scale1 W (ix2 0 j) : EReal) = Spec.kScale (S1 W) (Q1 W) (g1 W) j := by
  show StableHlo.after hostOps1 W (Proc.devRef .tc main_v33) (ix2 0 j) = _
  after_results_simp
  refine (shapeCast_a_1a_apply _ _ _ _).trans ?_

  simp only [mulf_apply, addf_apply, subf_apply, maximumf_apply, hdivf_apply, hrsqrt_apply]
  erw [stat_apply (W (Proc.devRef .tc main_v10_1)) shapeCasts_S16x512_S2x8x512 slices_S2x8x512_S2x1x512_0_0_0
      shapeCasts_S2x1x512_S2x512 reducesTo_S2x512_S512_d0 (by decide) h_S_ j,
    stat_apply (W (Proc.devRef .tc main_v10_2)) shapeCasts_S16x512_S2x8x512 slices_S2x8x512_S2x1x512_0_0_0
      shapeCasts_S2x1x512_S2x512 reducesTo_S2x512_S512_d0 (by decide) h_S_ j]
  rfl
theorem shift1_eq (j : Fin 512) :
    (shift1 W (ix2 0 j) : EReal) = Spec.kShift (S1 W) (Q1 W) (g1 W) (be1 W) j := by
  show StableHlo.after hostOps1 W (Proc.devRef .tc main_v34) (ix2 0 j) = _
  after_results_simp
  refine (shapeCast_a_1a_apply _ _ _ _).trans ?_
  simp only [mulf_apply, addf_apply, subf_apply, maximumf_apply, hdivf_apply, hrsqrt_apply]
  erw [stat_apply (W (Proc.devRef .tc main_v10_1)) shapeCasts_S16x512_S2x8x512 slices_S2x8x512_S2x1x512_0_0_0
      shapeCasts_S2x1x512_S2x512 reducesTo_S2x512_S512_d0 (by decide) h_S_ j,
    stat_apply (W (Proc.devRef .tc main_v10_2)) shapeCasts_S16x512_S2x8x512 slices_S2x8x512_S2x1x512_0_0_0
      shapeCasts_S2x1x512_S2x512 reducesTo_S2x512_S512_d0 (by decide) h_S_ j]
  rfl
theorem bias1_eq (j : Fin 256) : (bias1 W (ix2 0 j) : EReal) = nb1 W j := by
  show StableHlo.after hostOps1 W (Proc.devRef .tc main_v35) (ix2 0 j) = _
  after_results_simp
  exact shapeCast_a_1a_apply _ _ _ _

abbrev sumArr2 : Vec Ideal S16x256 .f32 := W (Proc.devRef .tc main_v36_1)
abbrev sqArr2 : Vec Ideal S16x256 .f32 := W (Proc.devRef .tc main_v36_2)
abbrev gArr2 : Vec Ideal S256 .f32 := W (Proc.devRef .tc main_arg11)
abbrev beArr2 : Vec Ideal S256 .f32 := W (Proc.devRef .tc main_arg12)
abbrev nbArr2 : Vec Ideal S512 .f32 := W (Proc.devRef .tc main_arg14)
def S2 : Fin 256 → EReal := statOf fun r j => sumArr2 W (ix2 r j)
def Q2 : Fin 256 → EReal := statOf fun r j => sqArr2 W (ix2 r j)
def g2 : Fin 256 → EReal := fun j => gArr2 W (ix1 j)
def be2 : Fin 256 → EReal := fun j => beArr2 W (ix1 j)
def nb2 : Fin 512 → EReal := fun j => nbArr2 W (ix1 j)
abbrev scale2 : Vec Ideal S1x256 .f32 := StableHlo.after hostOps2 W (Proc.devRef .tc main_v59)
abbrev shift2 : Vec Ideal S1x256 .f32 := StableHlo.after hostOps2 W (Proc.devRef .tc main_v60)
abbrev bias2 : Vec Ideal S1x512 .f32 := StableHlo.after hostOps2 W (Proc.devRef .tc main_v61)

theorem scale2_eq (j : Fin 256) : (scale2 W (ix2 0 j) : EReal) = Spec.kScale (S2 W) (Q2 W) (g2 W) j := by
  show StableHlo.after hostOps2 W (Proc.devRef .tc main_v59) (ix2 0 j) = _
  after_results_simp
  refine (shapeCast_a_1a_apply _ _ _ _).trans ?_

  simp only [mulf_apply, addf_apply, subf_apply, maximumf_apply, hdivf_apply, hrsqrt_apply]
  erw [stat_apply (W (Proc.devRef .tc main_v36_1)) shapeCasts_S16x256_S2x8x256 slices_S2x8x256_S2x1x256_0_0_0
      shapeCasts_S2x1x256_S2x256 reducesTo_S2x256_S256_d0 (by decide) h_S_ j,
    stat_apply (W (Proc.devRef .tc main_v36_2)) shapeCasts_S16x256_S2x8x256 slices_S2x8x256_S2x1x256_0_0_0
      shapeCasts_S2x1x256_S2x256 reducesTo_S2x256_S256_d0 (by decide) h_S_ j]
  rfl
theorem shift2_eq (j : Fin 256) :
    (shift2 W (ix2 0 j) : EReal) = Spec.kShift (S2 W) (Q2 W) (g2 W) (be2 W) j := by
  show StableHlo.after hostOps2 W (Proc.devRef .tc main_v60) (ix2 0 j) = _
  after_results_simp
  refine (shapeCast_a_1a_apply _ _ _ _).trans ?_
  simp only [mulf_apply, addf_apply, subf_apply, maximumf_apply, hdivf_apply, hrsqrt_apply]
  erw [stat_apply (W (Proc.devRef .tc main_v36_1)) shapeCasts_S16x256_S2x8x256 slices_S2x8x256_S2x1x256_0_0_0
      shapeCasts_S2x1x256_S2x256 reducesTo_S2x256_S256_d0 (by decide) h_S_ j,
    stat_apply (W (Proc.devRef .tc main_v36_2)) shapeCasts_S16x256_S2x8x256 slices_S2x8x256_S2x1x256_0_0_0
      shapeCasts_S2x1x256_S2x256 reducesTo_S2x256_S256_d0 (by decide) h_S_ j]
  rfl
theorem bias2_eq (j : Fin 512) : (bias2 W (ix2 0 j) : EReal) = nb2 W j := by
  show StableHlo.after hostOps2 W (Proc.devRef .tc main_v61) (ix2 0 j) = _
  after_results_simp
  exact shapeCast_a_1a_apply _ _ _ _

abbrev scaleVec2 : Vec Ideal S256 .f32 := StableHlo.after hostOps2 W (Proc.devRef .tc main_v56)
abbrev shiftVec2 : Vec Ideal S256 .f32 := StableHlo.after hostOps2 W (Proc.devRef .tc main_v58)
theorem scaleVec2_eq (j : Fin 256) : (scaleVec2 W (ix1 j) : EReal) = Spec.kScale (S2 W) (Q2 W) (g2 W) j := by
  show StableHlo.after hostOps2 W (Proc.devRef .tc main_v56) (ix1 j) = _
  after_results_simp
  simp only [mulf_apply, addf_apply, subf_apply, maximumf_apply, hdivf_apply, hrsqrt_apply]
  erw [stat_apply (W (Proc.devRef .tc main_v36_1)) shapeCasts_S16x256_S2x8x256 slices_S2x8x256_S2x1x256_0_0_0
      shapeCasts_S2x1x256_S2x256 reducesTo_S2x256_S256_d0 (by decide) h_S_ j,
    stat_apply (W (Proc.devRef .tc main_v36_2)) shapeCasts_S16x256_S2x8x256 slices_S2x8x256_S2x1x256_0_0_0
      shapeCasts_S2x1x256_S2x256 reducesTo_S2x256_S256_d0 (by decide) h_S_ j]
  rfl
theorem shiftVec2_eq (j : Fin 256) :
    (shiftVec2 W (ix1 j) : EReal) = Spec.kShift (S2 W) (Q2 W) (g2 W) (be2 W) j := by
  show StableHlo.after hostOps2 W (Proc.devRef .tc main_v58) (ix1 j) = _
  after_results_simp
  simp only [mulf_apply, addf_apply, subf_apply, maximumf_apply, hdivf_apply, hrsqrt_apply]
  erw [stat_apply (W (Proc.devRef .tc main_v36_1)) shapeCasts_S16x256_S2x8x256 slices_S2x8x256_S2x1x256_0_0_0
      shapeCasts_S2x1x256_S2x256 reducesTo_S2x256_S256_d0 (by decide) h_S_ j,
    stat_apply (W (Proc.devRef .tc main_v36_2)) shapeCasts_S16x256_S2x8x256 slices_S2x8x256_S2x1x256_0_0_0
      shapeCasts_S2x1x256_S2x256 reducesTo_S2x256_S256_d0 (by decide) h_S_ j]
  rfl

abbrev sumArr3 : Vec Ideal S16x512 .f32 := W (Proc.devRef .tc main_v62_1)
abbrev sqArr3 : Vec Ideal S16x512 .f32 := W (Proc.devRef .tc main_v62_2)
abbrev gArr3 : Vec Ideal S512 .f32 := W (Proc.devRef .tc main_arg15)
abbrev beArr3 : Vec Ideal S512 .f32 := W (Proc.devRef .tc main_arg16)
abbrev nbArr3 : Vec Ideal S1024 .f32 := W (Proc.devRef .tc main_arg18)
def S3 : Fin 512 → EReal := statOf fun r j => sumArr3 W (ix2 r j)
def Q3 : Fin 512 → EReal := statOf fun r j => sqArr3 W (ix2 r j)
def g3 : Fin 512 → EReal := fun j => gArr3 W (ix1 j)
def be3 : Fin 512 → EReal := fun j => beArr3 W (ix1 j)
def nb3 : Fin 1024 → EReal := fun j => nbArr3 W (ix1 j)
abbrev scale3 : Vec Ideal S1x512 .f32 := StableHlo.after hostOps3 W (Proc.devRef .tc main_v85)
abbrev shift3 : Vec Ideal S1x512 .f32 := StableHlo.after hostOps3 W (Proc.devRef .tc main_v86)
abbrev bias3 : Vec Ideal S1x1024 .f32 := StableHlo.after hostOps3 W (Proc.devRef .tc main_v87)

theorem scale3_eq (j : Fin 512) : (scale3 W (ix2 0 j) : EReal) = Spec.kScale (S3 W) (Q3 W) (g3 W) j := by
  show StableHlo.after hostOps3 W (Proc.devRef .tc main_v85) (ix2 0 j) = _
  after_results_simp
  refine (shapeCast_a_1a_apply _ _ _ _).trans ?_

  simp only [mulf_apply, addf_apply, subf_apply, maximumf_apply, hdivf_apply, hrsqrt_apply]
  erw [stat_apply (W (Proc.devRef .tc main_v62_1)) shapeCasts_S16x512_S2x8x512 slices_S2x8x512_S2x1x512_0_0_0
      shapeCasts_S2x1x512_S2x512 reducesTo_S2x512_S512_d0 (by decide) h_S_ j,
    stat_apply (W (Proc.devRef .tc main_v62_2)) shapeCasts_S16x512_S2x8x512 slices_S2x8x512_S2x1x512_0_0_0
      shapeCasts_S2x1x512_S2x512 reducesTo_S2x512_S512_d0 (by decide) h_S_ j]
  rfl
theorem shift3_eq (j : Fin 512) :
    (shift3 W (ix2 0 j) : EReal) = Spec.kShift (S3 W) (Q3 W) (g3 W) (be3 W) j := by
  show StableHlo.after hostOps3 W (Proc.devRef .tc main_v86) (ix2 0 j) = _
  after_results_simp
  refine (shapeCast_a_1a_apply _ _ _ _).trans ?_
  simp only [mulf_apply, addf_apply, subf_apply, maximumf_apply, hdivf_apply, hrsqrt_apply]
  erw [stat_apply (W (Proc.devRef .tc main_v62_1)) shapeCasts_S16x512_S2x8x512 slices_S2x8x512_S2x1x512_0_0_0
      shapeCasts_S2x1x512_S2x512 reducesTo_S2x512_S512_d0 (by decide) h_S_ j,
    stat_apply (W (Proc.devRef .tc main_v62_2)) shapeCasts_S16x512_S2x8x512 slices_S2x8x512_S2x1x512_0_0_0
      shapeCasts_S2x1x512_S2x512 reducesTo_S2x512_S512_d0 (by decide) h_S_ j]
  rfl
theorem bias3_eq (j : Fin 1024) : (bias3 W (ix2 0 j) : EReal) = nb3 W j := by
  show StableHlo.after hostOps3 W (Proc.devRef .tc main_v87) (ix2 0 j) = _
  after_results_simp
  exact shapeCast_a_1a_apply _ _ _ _

abbrev sumArr4 : Vec Ideal S16x1024 .f32 := W (Proc.devRef .tc main_v88_1)
abbrev sqArr4 : Vec Ideal S16x1024 .f32 := W (Proc.devRef .tc main_v88_2)
abbrev gArr4 : Vec Ideal S1024 .f32 := W (Proc.devRef .tc main_arg19)
abbrev beArr4 : Vec Ideal S1024 .f32 := W (Proc.devRef .tc main_arg20)
abbrev nbArr4 : Vec Ideal S2048 .f32 := W (Proc.devRef .tc main_arg22)
def S4 : Fin 1024 → EReal := statOf fun r j => sumArr4 W (ix2 r j)
def Q4 : Fin 1024 → EReal := statOf fun r j => sqArr4 W (ix2 r j)
def g4 : Fin 1024 → EReal := fun j => gArr4 W (ix1 j)
def be4 : Fin 1024 → EReal := fun j => beArr4 W (ix1 j)
def nb4 : Fin 2048 → EReal := fun j => nbArr4 W (ix1 j)
abbrev scale4 : Vec Ideal S1x1024 .f32 := StableHlo.after hostOps4 W (Proc.devRef .tc main_v111)
abbrev shift4 : Vec Ideal S1x1024 .f32 := StableHlo.after hostOps4 W (Proc.devRef .tc main_v112)
abbrev bias4 : Vec Ideal S1x2048 .f32 := StableHlo.after hostOps4 W (Proc.devRef .tc main_v113)

theorem scale4_eq (j : Fin 1024) : (scale4 W (ix2 0 j) : EReal) = Spec.kScale (S4 W) (Q4 W) (g4 W) j := by
  show StableHlo.after hostOps4 W (Proc.devRef .tc main_v111) (ix2 0 j) = _
  after_results_simp
  refine (shapeCast_a_1a_apply _ _ _ _).trans ?_

  simp only [mulf_apply, addf_apply, subf_apply, maximumf_apply, hdivf_apply, hrsqrt_apply]
  erw [stat_apply (W (Proc.devRef .tc main_v88_1)) shapeCasts_S16x1024_S2x8x1024 slices_S2x8x1024_S2x1x1024_0_0_0
      shapeCasts_S2x1x1024_S2x1024 reducesTo_S2x1024_S1024_d0 (by decide) h_S_ j,
    stat_apply (W (Proc.devRef .tc main_v88_2)) shapeCasts_S16x1024_S2x8x1024 slices_S2x8x1024_S2x1x1024_0_0_0
      shapeCasts_S2x1x1024_S2x1024 reducesTo_S2x1024_S1024_d0 (by decide) h_S_ j]
  rfl
theorem shift4_eq (j : Fin 1024) :
    (shift4 W (ix2 0 j) : EReal) = Spec.kShift (S4 W) (Q4 W) (g4 W) (be4 W) j := by
  show StableHlo.after hostOps4 W (Proc.devRef .tc main_v112) (ix2 0 j) = _
  after_results_simp
  refine (shapeCast_a_1a_apply _ _ _ _).trans ?_
  simp only [mulf_apply, addf_apply, subf_apply, maximumf_apply, hdivf_apply, hrsqrt_apply]
  erw [stat_apply (W (Proc.devRef .tc main_v88_1)) shapeCasts_S16x1024_S2x8x1024 slices_S2x8x1024_S2x1x1024_0_0_0
      shapeCasts_S2x1x1024_S2x1024 reducesTo_S2x1024_S1024_d0 (by decide) h_S_ j,
    stat_apply (W (Proc.devRef .tc main_v88_2)) shapeCasts_S16x1024_S2x8x1024 slices_S2x8x1024_S2x1x1024_0_0_0
      shapeCasts_S2x1x1024_S2x1024 reducesTo_S2x1024_S1024_d0 (by decide) h_S_ j]
  rfl
theorem bias4_eq (j : Fin 2048) : (bias4 W (ix2 0 j) : EReal) = nb4 W j := by
  show StableHlo.after hostOps4 W (Proc.devRef .tc main_v113) (ix2 0 j) = _
  after_results_simp
  exact shapeCast_a_1a_apply _ _ _ _

abbrev latScVec : Vec Ideal S256 .f32 := W (Proc.devRef .tc main_v56)
abbrev latShVec : Vec Ideal S256 .f32 := W (Proc.devRef .tc main_v58)
abbrev latScRow : Vec Ideal S1x256 .f32 := StableHlo.after hostOps4 W (Proc.devRef .tc main_v114)
abbrev latShRow : Vec Ideal S1x256 .f32 := StableHlo.after hostOps4 W (Proc.devRef .tc main_v115)
theorem latScRow_eq (j : Fin 256) : (latScRow W (ix2 0 j) : EReal) = latScVec W (ix1 j) := by
  show StableHlo.after hostOps4 W (Proc.devRef .tc main_v114) (ix2 0 j) = _
  after_results_simp
  exact shapeCast_a_1a_apply _ _ _ _
theorem latShRow_eq (j : Fin 256) : (latShRow W (ix2 0 j) : EReal) = latShVec W (ix1 j) := by
  show StableHlo.after hostOps4 W (Proc.devRef .tc main_v115) (ix2 0 j) = _
  after_results_simp
  exact shapeCast_a_1a_apply _ _ _ _

abbrev recArr : Vec Ideal S16x1 .f32 := W (Proc.devRef .tc main_v116_0)
abbrev distArr : Vec Ideal S16x1 .f32 := W (Proc.devRef .tc main_v116_1)
abbrev result : Vec Ideal S_ .f32 := StableHlo.after hostOps5 W (Proc.devRef .tc main_v130)

theorem result_eq :
    (result W ix0 : EReal)
      = Ideal.div (Spec.lamW * Spec.twoCore fun c => (recArr W (ix2 (half8 c) 0) : EReal)) Spec.numW
        + Spec.halfW * Spec.twoCore fun c => (distArr W (ix2 (half8 c) 0) : EReal) := by
  show StableHlo.after hostOps5 W (Proc.devRef .tc main_v130) ix0 = _
  after_results_simp
  simp only [mulf_apply, addf_apply, subf_apply, maximumf_apply, hdivf_apply, hrsqrt_apply]

  refine congrArg₂ (· + ·) (congrArg₂ Ideal.div (congrArg (_ * ·) ?_) rfl) (congrArg (_ * ·) ?_)
  · refine (shapeCast_1_0_apply _ _).trans ?_
    exact stat_apply (W (Proc.devRef .tc main_v116_0)) shapeCasts_S16x1_S2x8x1 slices_S2x8x1_S2x1x1_0_0_0
      shapeCasts_S2x1x1_S2x1 reducesTo_S2x1_S1_d0 (by decide) h_S_ (0 : Fin 1)
  · refine (shapeCast_1_0_apply _ _).trans ?_
    exact stat_apply (W (Proc.devRef .tc main_v116_1)) shapeCasts_S16x1_S2x8x1 slices_S2x8x1_S2x1x1_0_0_0
      shapeCasts_S2x1x1_S2x1 reducesTo_S2x1_S1_d0 (by decide) h_S_ (0 : Fin 1)

end Cert.KernelIdeal.Host

end
-- ==== Proof.Region0Pay.lean ====
/- The first call's body at an index: two dense layers with relu, and the column sums of the result and of its square added to the running blocks. -/
import proofs.«426192_j71700184039604_3_alg».proof.Proof.Gen.KernelIdeal.Skeleton
import proofs.«426192_j71700184039604_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.Region0Pay

open Cert.KernelIdeal Cert.KernelIdeal.Gen

theorem lhs_mm0_0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem lhs_mm0_1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem rhs_mm0_0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem rhs_mm0_1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

theorem mm0_apply (a : FVec Ideal S512x2048 .bf16) (b : FVec Ideal S2048x1024 .bf16) (p : Fin 512) (j : Fin 1024) :
    matmul (F := Ideal) dot_S512x2048_S2048x1024_S512x1024_1_0_0_1_n_n none a b (constant (F := Ideal) S512x1024 .f32 0x00000000#32) (ix2 p j)
      = ∑ k : Fin 2048, a (ix2 p k) * b (ix2 k j) := by
  simp only [matmul]
  rw [Ideal.matmul_constant_zero_apply, ← Equiv.sum_comp (ValueIdx.contrEquiv1 dot_S512x2048_S2048x1024_S512x1024_1_0_0_1_n_n 2048 rfl rfl).symm]
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 p j) ((ValueIdx.contrEquiv1 dot_S512x2048_S2048x1024_S512x1024_1_0_0_1_n_n 2048 rfl rfl).symm k) = ix2 p k := funext fun a => Fin.ext (by
    match a with
    | ⟨0, _⟩ => exact lhs_mm0_0 _ _
    | ⟨1, _⟩ => exact (lhs_mm0_1 _ _).trans hk)
  have er : dot_S512x2048_S2048x1024_S512x1024_1_0_0_1_n_n.rhsIdx (ix2 p j) ((ValueIdx.contrEquiv1 dot_S512x2048_S2048x1024_S512x1024_1_0_0_1_n_n 2048 rfl rfl).symm k) = ix2 k j := funext fun a => Fin.ext (by
    match a with
    | ⟨0, _⟩ => exact (rhs_mm0_0 _ _).trans hk
    | ⟨1, _⟩ => exact rhs_mm0_1 _ _)
  rw [el, er]

theorem lhs_mm1_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_mm1_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_mm1_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_mm1_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

theorem mm1_apply (a : FVec Ideal S512x1024 .bf16) (b : FVec Ideal S1024x512 .bf16) (p : Fin 512) (j : Fin 512) :
    matmul (F := Ideal) dot_S512x1024_S1024x512_S512x512_1_0_0_1_n_n none a b (constant (F := Ideal) S512x512 .f32 0x00000000#32) (ix2 p j)
      = ∑ k : Fin 1024, a (ix2 p k) * b (ix2 k j) := by
  simp only [matmul]
  rw [Ideal.matmul_constant_zero_apply, ← Equiv.sum_comp (ValueIdx.contrEquiv1 dot_S512x1024_S1024x512_S512x512_1_0_0_1_n_n 1024 rfl rfl).symm]
  refine Finset.sum_congr rfl fun k _ => ?_
  have hk := ValueIdx.contrEquiv1_symm_val dot_S512x1024_S1024x512_S512x512_1_0_0_1_n_n 1024 rfl rfl k
  have el : dot_S512x1024_S1024x512_S512x512_1_0_0_1_n_n.lhsIdx (ix2 p j) ((ValueIdx.contrEquiv1 dot_S512x1024_S1024x512_S512x512_1_0_0_1_n_n 1024 rfl rfl).symm k) = ix2 p k := funext fun a => Fin.ext (by
    match a with
    | ⟨0, _⟩ => exact lhs_mm1_0 _ _
    | ⟨1, _⟩ => exact (lhs_mm1_1 _ _).trans hk)
  have er : dot_S512x1024_S1024x512_S512x512_1_0_0_1_n_n.rhsIdx (ix2 p j) ((ValueIdx.contrEquiv1 dot_S512x1024_S1024x512_S512x512_1_0_0_1_n_n 1024 rfl rfl).symm k) = ix2 k j := funext fun a => Fin.ext (by
    match a with
    | ⟨0, _⟩ => exact (rhs_mm1_0 _ _).trans hk
    | ⟨1, _⟩ => exact rhs_mm1_1 _ _)
  rw [el, er]

def hid (x : Vec Ideal S512x2048 .f32) (w0 : Vec Ideal S2048x1024 .bf16) (b0 : Vec Ideal S1x1024 .f32)
    (p : Fin 512) (k : Fin 1024) : EReal :=
  max ((∑ k' : Fin 2048, x (ix2 p k') * w0 (ix2 k' k)) + b0 (ix2 0 k)) Spec.zeroW

def blkAct (x : Vec Ideal S512x2048 .f32) (w0 : Vec Ideal S2048x1024 .bf16) (b0 : Vec Ideal S1x1024 .f32)
    (w1 : Vec Ideal S1024x512 .bf16) (b1 : Vec Ideal S1x512 .f32) (p : Fin 512) (j : Fin 512) : EReal :=
  max ((∑ k : Fin 1024, hid x w0 b0 p k * w1 (ix2 k j)) + b1 (ix2 0 j)) Spec.zeroW

theorem pay5_apply (x : Vec Ideal S512x2048 .f32) (w0 : Vec Ideal S2048x1024 .bf16) (b0 : Vec Ideal S1x1024 .f32)
    (w1 : Vec Ideal S1024x512 .bf16) (b1 : Vec Ideal S1x512 .f32) (p : Fin 512) (j : Fin 512) :
    (k0_pay5 (F := Ideal) x w0 b0 w1 b1 (ix2 p j) : EReal) = blkAct x w0 b0 w1 b1 p j := by
  unfold k0_pay5 blkAct
  rw [maximumf_apply, addf_apply, mm1_apply, broadcastTo_1b_ab_apply, broadcast_apply]
  simp only [shapeCast_self]
  refine congrArg₂ max (congrArg₂ (· + ·) (Finset.sum_congr rfl fun k _ => congrArg (· * w1 (ix2 k j)) ?_) rfl) rfl
  rw [truncf_apply, maximumf_apply, addf_apply, mm0_apply, broadcastTo_1b_ab_apply, broadcast_apply]
  unfold hid
  simp only [truncf_apply]
  rfl

theorem pay6_apply (x : Vec Ideal S512x2048 .f32) (w0 : Vec Ideal S2048x1024 .bf16) (b0 : Vec Ideal S1x1024 .f32)
    (w1 : Vec Ideal S1024x512 .bf16) (b1 : Vec Ideal S1x512 .f32) (p : Fin 512) (j : Fin 512) :
    (k0_pay6 (F := Ideal) x w0 b0 w1 b1 (ix2 p j) : EReal) = blkAct x w0 b0 w1 b1 p j := by
  unfold k0_pay6
  rw [truncf_apply]
  exact pay5_apply x w0 b0 w1 b1 p j

theorem rowsum_apply (src : FVec Ideal S512x512 .f32) (j : Fin 512) :
    multiReduction (F := Ideal) .add [0] S512 src 0x00000000#32 reduces_S512x512_S512 (.inl rfl) rfl (ix1 j)
      = ∑ p : Fin 512, src (ix2 p j) := by
  refine (Ideal.multiReduction_add_single src 0x00000000#32 reduces_S512x512_S512 (.inl rfl) rfl (ix1 j)).trans ?_
  refine Finset.sum_congr rfl fun p _ => congrArg src (funext fun a => Fin.ext ?_)
  match a with
  | ⟨0, _⟩ => rfl
  | ⟨1, _⟩ => rfl

theorem pay9_apply (x : Vec Ideal S512x2048 .f32) (w0 : Vec Ideal S2048x1024 .bf16) (b0 : Vec Ideal S1x1024 .f32)
    (w1 : Vec Ideal S1024x512 .bf16) (b1 : Vec Ideal S1x512 .f32) (u : Fin 1) (j : Fin 512) :
    (k0_pay9 (F := Ideal) x w0 b0 w1 b1 (ix2 u j) : EReal) = ∑ p : Fin 512, blkAct x w0 b0 w1 b1 p j := by
  unfold k0_pay9
  rw [shapeCast_self]
  refine (shapeCast_a_1a_apply _ _ u j).trans ?_
  refine (rowsum_apply _ j).trans ?_
  exact Finset.sum_congr rfl fun p _ => pay5_apply x w0 b0 w1 b1 p j

theorem pay7_apply (x : Vec Ideal S512x2048 .f32) (w0 : Vec Ideal S2048x1024 .bf16) (b0 : Vec Ideal S1x1024 .f32)
    (w1 : Vec Ideal S1024x512 .bf16) (b1 : Vec Ideal S1x512 .f32) (u : Fin 1) (j : Fin 512) :
    (k0_pay7 (F := Ideal) x w0 b0 w1 b1 (ix2 u j) : EReal)
      = ∑ p : Fin 512, blkAct x w0 b0 w1 b1 p j * blkAct x w0 b0 w1 b1 p j := by
  unfold k0_pay7
  refine (shapeCast_a_1a_apply _ _ u j).trans ?_
  refine (rowsum_apply _ j).trans ?_
  refine Finset.sum_congr rfl fun p _ => ?_
  rw [mulf_apply, pay5_apply]

theorem pay1_apply (acc : FVec Ideal S8x512 .f32) (row : FVec Ideal S1x512 .f32) (r : Fin 8) (j : Fin 512) :
    (k0_pay1 (F := Ideal) acc row (ix2 r j) : EReal) = acc (ix2 r j) + row (ix2 0 j) := by
  unfold k0_pay1
  rw [addf_apply, broadcastTo_1b_ab_apply]

theorem pay2_apply (row : FVec Ideal S1x512 .f32) (acc : Vec Ideal S8x512 .f32) (r : Fin 8) (j : Fin 512) :
    (k0_pay2 (F := Ideal) row acc (ix2 r j) : EReal) = acc (ix2 r j) + row (ix2 0 j) := by
  unfold k0_pay2
  rw [addf_apply, broadcastTo_1b_ab_apply]
  simp only [shapeCast_self]

theorem pay3_apply (i : S8x512.Idx) : (k0_pay3 (F := Ideal) i : EReal) = Spec.zeroW := rfl
theorem pay4_apply (i : S8x512.Idx) : (k0_pay4 (F := Ideal) i : EReal) = Spec.zeroW := rfl

theorem pay8_eq {F : FTy → Type} [FloatOps F] (acc : Vec F S8x512 .f32) : k0_pay8 acc = acc := by
  unfold k0_pay8
  exact shapeCast_self _ _

end Cert.KernelIdeal.Region0Pay

end
-- ==== Proof.Region0Piece.lean ====
/- What one run of the first call's body leaves in its output blocks, as the body's arithmetic of the blocks it read. -/
import proofs.«426192_j71700184039604_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Region0Piece

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (a2 : Memref sig .tc .vmem S512x2048 .f32) (h2 : a2.IsWhole) (a3 : Memref sig .tc .vmem S2048x1024 .bf16) (h3 : a3.IsWhole) (a4 : Memref sig .tc .vmem S1x1024 .f32) (h4 : a4.IsWhole) (a5 : Memref sig .tc .vmem S1024x512 .bf16) (h5 : a5.IsWhole) (a6 : Memref sig .tc .vmem S1x512 .f32) (h6 : a6.IsWhole) (a7 : Memref sig .tc .vmem S512x512 .bf16) (h7 : a7.IsWhole) (a8 : Memref sig .tc .vmem S8x512 .f32) (h8 : a8.IsWhole) (a9 : Memref sig .tc .vmem S8x512 .f32) (h9 : a9.IsWhole)

section First
variable (hc : cond0_0 i) (x0 : Vec F S512x2048 .f32) (x1 : Vec F S2048x1024 .bf16) (x2 : Vec F S1x1024 .f32) (x3 : Vec F S1024x512 .bf16) (x4 : Vec F S1x512 .f32)

theorem out_A_5 :
    out0_A_5 c i a2 h2 a3 h3 a4 h4 a5 h5 a6 h6 a7 h7 a8 h8 a9 h9 hc x0 x1 x2 x3 x4 = k0_pay6 x0 x1 x2 x3 x4 := by
  unfold out0_A_5
  rw [View.read_writes_eq_canon _ _ _ (cover0_A_5 c i a2 h2 a3 h3 a4 h4 a5 h5 a6 h6 a7 h7 a8 h8 a9 h9 hc x0 x1 x2 x3 x4)]
  unfold kernelRun0_A
  dsimp only
  sl_unfold_words
  rw [View.canon_unit_zero hz]
  simp only [View.readAt_eq_ld, h2.read_unread, h3.read_unread, h4.read_unread, h5.read_unread, h6.read_unread, View.ld_unit_zero (S := S512x2048) hz, View.ld_unit_zero (S := S2048x1024) hz, View.ld_unit_zero (S := S1x1024) hz, View.ld_unit_zero (S := S1024x512) hz, View.ld_unit_zero (S := S1x512) hz, View.ld_unit_zero (S := S8x512) hz]

theorem out_A_6 :
    out0_A_6 c i a2 h2 a3 h3 a4 h4 a5 h5 a6 h6 a7 h7 a8 h8 a9 h9 hc x0 x1 x2 x3 x4 = k0_pay1 (k0_pay8 k0_pay3) (k0_pay9 x0 x1 x2 x3 x4) := by
  unfold out0_A_6
  rw [View.read_writes_eq_canon _ _ _ (cover0_A_6 c i a2 h2 a3 h3 a4 h4 a5 h5 a6 h6 a7 h7 a8 h8 a9 h9 hc x0 x1 x2 x3 x4)]
  unfold kernelRun0_A
  dsimp only
  sl_unfold_words
  rw [View.canon_cons_unit_zero (S := S8x512) hz, View.readCov_unit_zero (S := S8x512) _ hz]
  simp only [View.readAt_eq_ld, h2.read_unread, h3.read_unread, h4.read_unread, h5.read_unread, h6.read_unread, View.ld_unit_zero (S := S512x2048) hz, View.ld_unit_zero (S := S2048x1024) hz, View.ld_unit_zero (S := S1x1024) hz, View.ld_unit_zero (S := S1024x512) hz, View.ld_unit_zero (S := S1x512) hz, View.ld_unit_zero (S := S8x512) hz]

theorem out_A_7 :
    out0_A_7 c i a2 h2 a3 h3 a4 h4 a5 h5 a6 h6 a7 h7 a8 h8 a9 h9 hc x0 x1 x2 x3 x4 = k0_pay2 (k0_pay7 x0 x1 x2 x3 x4) k0_pay4 := by
  unfold out0_A_7
  rw [View.read_writes_eq_canon _ _ _ (cover0_A_7 c i a2 h2 a3 h3 a4 h4 a5 h5 a6 h6 a7 h7 a8 h8 a9 h9 hc x0 x1 x2 x3 x4)]
  unfold kernelRun0_A
  dsimp only
  sl_unfold_words
  rw [View.canon_cons_unit_zero (S := S8x512) hz, View.readCov_unit_zero (S := S8x512) _ hz]
  simp only [View.readAt_eq_ld, h2.read_unread, h3.read_unread, h4.read_unread, h5.read_unread, h6.read_unread, View.ld_unit_zero (S := S512x2048) hz, View.ld_unit_zero (S := S2048x1024) hz, View.ld_unit_zero (S := S1x1024) hz, View.ld_unit_zero (S := S1024x512) hz, View.ld_unit_zero (S := S1x512) hz, View.ld_unit_zero (S := S8x512) hz]

end First

section Other
variable (hc : ¬cond0_0 i) (x0 : Vec F S512x2048 .f32) (x1 : Vec F S2048x1024 .bf16) (x2 : Vec F S1x1024 .f32) (x3 : Vec F S1024x512 .bf16) (x4 : Vec F S1x512 .f32) (xo6 xo7 : Vec F S8x512 .f32)

theorem out_B_5 :
    out0_B_5 c i a2 h2 a3 h3 a4 h4 a5 h5 a6 h6 a7 h7 a8 h8 a9 h9 hc x0 x1 x2 x3 x4 xo6 xo7 = k0_pay6 x0 x1 x2 x3 x4 := by
  unfold out0_B_5
  rw [View.read_writes_eq_canon _ _ _ (cover0_B_5 c i a2 h2 a3 h3 a4 h4 a5 h5 a6 h6 a7 h7 a8 h8 a9 h9 hc x0 x1 x2 x3 x4 xo6 xo7)]
  unfold kernelRun0_B
  dsimp only
  sl_unfold_words
  rw [View.canon_unit_zero hz]
  simp only [View.readAt_eq_ld, h2.read_unread, h3.read_unread, h4.read_unread, h5.read_unread, h6.read_unread, h8.read_unread, h9.read_unread, View.ld_unit_zero (S := S512x2048) hz, View.ld_unit_zero (S := S2048x1024) hz, View.ld_unit_zero (S := S1x1024) hz, View.ld_unit_zero (S := S1024x512) hz, View.ld_unit_zero (S := S1x512) hz, View.ld_unit_zero (S := S8x512) hz]

theorem out_B_6 :
    out0_B_6 c i a2 h2 a3 h3 a4 h4 a5 h5 a6 h6 a7 h7 a8 h8 a9 h9 hc x0 x1 x2 x3 x4 xo6 xo7 = k0_pay1 (k0_pay8 xo6) (k0_pay9 x0 x1 x2 x3 x4) := by
  unfold out0_B_6
  rw [View.read_writes_eq_canon _ _ _ (cover0_B_6 c i a2 h2 a3 h3 a4 h4 a5 h5 a6 h6 a7 h7 a8 h8 a9 h9 hc x0 x1 x2 x3 x4 xo6 xo7)]
  unfold kernelRun0_B
  dsimp only
  sl_unfold_words
  rw [View.canon_unit_zero hz]
  simp only [View.readAt_eq_ld, h2.read_unread, h3.read_unread, h4.read_unread, h5.read_unread, h6.read_unread, h8.read_unread, h9.read_unread, View.ld_unit_zero (S := S512x2048) hz, View.ld_unit_zero (S := S2048x1024) hz, View.ld_unit_zero (S := S1x1024) hz, View.ld_unit_zero (S := S1024x512) hz, View.ld_unit_zero (S := S1x512) hz, View.ld_unit_zero (S := S8x512) hz]

theorem out_B_7 :
    out0_B_7 c i a2 h2 a3 h3 a4 h4 a5 h5 a6 h6 a7 h7 a8 h8 a9 h9 hc x0 x1 x2 x3 x4 xo6 xo7 = k0_pay2 (k0_pay7 x0 x1 x2 x3 x4) xo7 := by
  unfold out0_B_7
  rw [View.read_writes_eq_canon _ _ _ (cover0_B_7 c i a2 h2 a3 h3 a4 h4 a5 h5 a6 h6 a7 h7 a8 h8 a9 h9 hc x0 x1 x2 x3 x4 xo6 xo7)]
  unfold kernelRun0_B
  dsimp only
  sl_unfold_words
  rw [View.canon_unit_zero hz]
  simp only [View.readAt_eq_ld, h2.read_unread, h3.read_unread, h4.read_unread, h5.read_unread, h6.read_unread, h8.read_unread, h9.read_unread, View.ld_unit_zero (S := S512x2048) hz, View.ld_unit_zero (S := S2048x1024) hz, View.ld_unit_zero (S := S1x1024) hz, View.ld_unit_zero (S := S1024x512) hz, View.ld_unit_zero (S := S1x512) hz, View.ld_unit_zero (S := S8x512) hz]

end Other

end Cert.KernelIdeal.Region0Piece

end
-- ==== Proof.Region0Inv.lean ====
/- After each grid point of the first call: the block's activation, and the running column sums since the half's first point. -/
import proofs.«426192_j71700184039604_3_alg».proof.Proof.Region0Pay
import proofs.«426192_j71700184039604_3_alg».proof.Proof.Region0Piece
import Mathlib.Algebra.BigOperators.Intervals

set_option maxRecDepth 16384

noncomputable section

open scoped BigOperators
open Idealize.ShloMosaic Idealize.ShloMosaic.TcCoe Idealize.SL.Sem Idealize.ShloMosaic.ValueIdx

namespace Cert.KernelIdeal.Region0Inv

open Cert.KernelIdeal Cert.KernelIdeal.Gen Cert.KernelIdeal.Region0Pay Cert.KernelIdeal.Region0Piece

variable (V : (c : Dev nD) → (b : Ref sig .tc) → Buf (Elt Ideal) ((c : Thread nD τ).loc b))

abbrev xblk (c : Dev nD) (t : Fin cfg0.N) : Vec Ideal S512x2048 .f32 := iblk0 V c 0 t
abbrev w0blk (c : Dev nD) (t : Fin cfg0.N) : Vec Ideal S2048x1024 .bf16 := iblk0 V c 1 t
abbrev b0blk (c : Dev nD) (t : Fin cfg0.N) : Vec Ideal S1x1024 .f32 := iblk0 V c 2 t
abbrev w1blk (c : Dev nD) (t : Fin cfg0.N) : Vec Ideal S1024x512 .bf16 := iblk0 V c 3 t
abbrev b1blk (c : Dev nD) (t : Fin cfg0.N) : Vec Ideal S1x512 .f32 := iblk0 V c 4 t

abbrev prev6 (c : Dev nD) (t : Fin cfg0.N) : Vec Ideal S8x512 .f32 :=
  (outsAt0 V c (t.val - 1) (Nat.lt_of_le_of_lt (Nat.sub_le _ _) t.isLt)).2.1
abbrev prev7 (c : Dev nD) (t : Fin cfg0.N) : Vec Ideal S8x512 .f32 :=
  (outsAt0 V c (t.val - 1) (Nat.lt_of_le_of_lt (Nat.sub_le _ _) t.isLt)).2.2

theorem outs_A (c : Dev nD) (t : Fin cfg0.N) (h0 : t.val % 8 = 0) :
    outsAt0 V c t.val t.isLt
      = (k0_pay6 (xblk V c t) (w0blk V c t) (b0blk V c t) (w1blk V c t) (b1blk V c t),
         k0_pay1 (k0_pay8 (k0_pay3 (F := Ideal))) (k0_pay9 (xblk V c t) (w0blk V c t) (b0blk V c t) (w1blk V c t) (b1blk V c t)),
         k0_pay2 (k0_pay7 (xblk V c t) (w0blk V c t) (b0blk V c t) (w1blk V c t) (b1blk V c t)) (k0_pay4 (F := Ideal))) := by
  rw [outsAt0_A V c t h0]
  exact congrArg₂ Prod.mk (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
    (congrArg₂ Prod.mk (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))
      (out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)))

theorem outs_B (c : Dev nD) (t : Fin cfg0.N) (h0 : ¬t.val % 8 = 0) :
    outsAt0 V c t.val t.isLt
      = (k0_pay6 (xblk V c t) (w0blk V c t) (b0blk V c t) (w1blk V c t) (b1blk V c t),
         k0_pay1 (k0_pay8 (prev6 V c t)) (k0_pay9 (xblk V c t) (w0blk V c t) (b0blk V c t) (w1blk V c t) (b1blk V c t)),
         k0_pay2 (k0_pay7 (xblk V c t) (w0blk V c t) (b0blk V c t) (w1blk V c t) (b1blk V c t)) (prev7 V c t)) := by
  rw [outsAt0_B V c t h0]
  exact congrArg₂ Prod.mk (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)
    (congrArg₂ Prod.mk (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)
      (out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2))

def ptAct (c : Dev nD) (t : Fin cfg0.N) (p j : Fin 512) : EReal :=
  blkAct (xblk V c t) (w0blk V c t) (b0blk V c t) (w1blk V c t) (b1blk V c t) p j

def colS (c : Dev nD) (n : ℕ) (j : Fin 512) : EReal :=
  if h : n < cfg0.N then ∑ p : Fin 512, ptAct V c ⟨n, h⟩ p j else 0

def colQ (c : Dev nD) (n : ℕ) (j : Fin 512) : EReal :=
  if h : n < cfg0.N then ∑ p : Fin 512, ptAct V c ⟨n, h⟩ p j * ptAct V c ⟨n, h⟩ p j else 0

theorem zeroW_add (x : EReal) : Spec.zeroW + x = x := by
  show Ideal.ofBits .f32 0x00000000#32 + x = x
  rw [Ideal.ofBits_zero_f32, zero_add]

theorem inv5 (c : Dev nD) (n : ℕ) (h : n < cfg0.N) (p j : Fin 512) :
    ((outsAt0 V c n h).1 (ix2 p j) : EReal) = ptAct V c ⟨n, h⟩ p j := by
  by_cases h0 : n % 8 = 0
  · rw [outs_A V c ⟨n, h⟩ h0]
    exact pay6_apply _ _ _ _ _ p j
  · rw [outs_B V c ⟨n, h⟩ h0]
    exact pay6_apply _ _ _ _ _ p j

theorem inv6_A (c : Dev nD) (n : ℕ) (h : n < cfg0.N) (h0 : n % 8 = 0) (r : Fin 8) (j : Fin 512) :
    ((outsAt0 V c n h).2.1 (ix2 r j) : EReal) = colS V c n j := by
  rw [outs_A V c ⟨n, h⟩ h0]
  dsimp only
  rw [pay1_apply, pay8_eq, pay3_apply, pay9_apply, zeroW_add, colS, dif_pos h]
  rfl

theorem inv7_A (c : Dev nD) (n : ℕ) (h : n < cfg0.N) (h0 : n % 8 = 0) (r : Fin 8) (j : Fin 512) :
    ((outsAt0 V c n h).2.2 (ix2 r j) : EReal) = colQ V c n j := by
  rw [outs_A V c ⟨n, h⟩ h0]
  dsimp only
  rw [pay2_apply, pay4_apply, pay7_apply, zeroW_add, colQ, dif_pos h]
  rfl

theorem inv6 (c : Dev nD) : ∀ (n : ℕ) (h : n < cfg0.N) (r : Fin 8) (j : Fin 512),
    ((outsAt0 V c n h).2.1 (ix2 r j) : EReal) = ∑ s ∈ Finset.range (n % 8 + 1), colS V c (n - n % 8 + s) j
  | 0, h, r, j => by
    rw [inv6_A V c 0 h rfl r j]
    simp
  | n + 1, h, r, j => by
    by_cases h0 : (n + 1) % 8 = 0
    · rw [inv6_A V c (n + 1) h h0 r j, h0]
      simp
    · have ih := inv6 c n (Nat.lt_of_succ_lt h) r j
      rw [outs_B V c ⟨n + 1, h⟩ h0]
      dsimp only
      rw [pay1_apply, pay8_eq, pay9_apply]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3, colS, dif_pos h]
      exact congrArg₂ (· + ·) ih rfl

theorem inv7 (c : Dev nD) : ∀ (n : ℕ) (h : n < cfg0.N) (r : Fin 8) (j : Fin 512),
    ((outsAt0 V c n h).2.2 (ix2 r j) : EReal) = ∑ s ∈ Finset.range (n % 8 + 1), colQ V c (n - n % 8 + s) j
  | 0, h, r, j => by
    rw [inv7_A V c 0 h rfl r j]
    simp
  | n + 1, h, r, j => by
    by_cases h0 : (n + 1) % 8 = 0
    · rw [inv7_A V c (n + 1) h h0 r j, h0]
      simp
    · have ih := inv7 c n (Nat.lt_of_succ_lt h) r j
      rw [outs_B V c ⟨n + 1, h⟩ h0]
      dsimp only
      rw [pay2_apply, pay7_apply]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3, colQ, dif_pos h]
      exact congrArg₂ (· + ·) ih rfl

end Cert.KernelIdeal.Region0Inv

end
-- ==== Proof.Region0Arr.lean ====
/- From blocks to arrays for the first call: block t is rows 512·t … 512·t + 511, and a half's eight blocks add up to its 4096 rows. -/
import proofs.«426192_j71700184039604_3_alg».proof.Proof.Region0Inv
import Idealize.ShloMosaic.Lib.Pipeline.Value
import Mathlib.Algebra.BigOperators.Intervals

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0Arr

open Cert.KernelIdeal Cert.KernelIdeal.Gen Cert.KernelIdeal.Region0Pay Cert.KernelIdeal.Region0Inv

theorem sum_range_blocks {M : Type*} [AddCommMonoid M] (f : ℕ → M) (n : ℕ) :
    ∀ m : ℕ, ∑ i ∈ Finset.range (m * n), f i = ∑ s ∈ Finset.range m, ∑ p ∈ Finset.range n, f (n * s + p)
  | 0 => by simp
  | m + 1 => by
    rw [Nat.succ_mul, Finset.sum_range_add, Finset.sum_range_succ, sum_range_blocks f n m, Nat.mul_comm m n]

variable (V : (c : Dev nD) → (b : Ref sig .tc) → Buf (Elt Ideal) ((c : Thread nD τ).loc b))

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val / 8 ∧ win0_6.index t (1 : Fin 2) = 0
    ∧ win0_7.index t (0 : Fin 2) = t.val / 8 ∧ win0_7.index t (1 : Fin 2) = 0 :=
  (by decide +kernel : ∀ t : Fin grid0.N, _)

theorem xblk_apply (c : Dev nD) (t : Fin cfg0.N) (p : Fin 512) (k : Fin 2048) (hlt : 512 * t.val + p.val < 8192) :
    xblk V c t (ix2 p k) = (V c main_arg0 : Vec Ideal S8192x2048 .f32) (ix2 ⟨512 * t.val + p.val, hlt⟩ k) := by
  obtain ⟨e0, e1, -⟩ := idx0 t
  show iblk0 V c 0 t (ix2 p k) = _
  unfold iblk0
  rw [View.read_apply]
  show V c main_arg0 _ = V c main_arg0 _
  congr 1
  funext a
  apply Fin.ext
  match a with
  | ⟨0, _⟩ => show win0_0.index t 0 * 512 + 1 * p.val = 512 * t.val + p.val; rw [e0]; omega
  | ⟨1, _⟩ => show win0_0.index t 1 * 2048 + 1 * k.val = k.val; rw [e1]; omega

theorem w0blk_apply (c : Dev nD) (t : Fin cfg0.N) (k : Fin 2048) (j : Fin 1024) :
    w0blk V c t (ix2 k j) = (V c main_v2 : Vec Ideal S2048x1024 .bf16) (ix2 k j) := by
  obtain ⟨-, -, e0, e1, -⟩ := idx0 t
  show iblk0 V c 1 t (ix2 k j) = _
  unfold iblk0
  rw [View.read_apply]
  show V c main_v2 _ = V c main_v2 _
  congr 1
  funext a
  apply Fin.ext
  match a with
  | ⟨0, _⟩ => show win0_1.index t 0 * 2048 + 1 * k.val = k.val; rw [e0]; omega
  | ⟨1, _⟩ => show win0_1.index t 1 * 1024 + 1 * j.val = j.val; rw [e1]; omega

theorem b0blk_apply (c : Dev nD) (t : Fin cfg0.N) (u : Fin 1) (j : Fin 1024) :
    b0blk V c t (ix2 u j) = (V c main_v8 : Vec Ideal S1x1024 .f32) (ix2 u j) := by
  obtain ⟨-, -, -, -, e0, e1, -⟩ := idx0 t
  show iblk0 V c 2 t (ix2 u j) = _
  unfold iblk0
  rw [View.read_apply]
  show V c main_v8 _ = V c main_v8 _
  congr 1
  funext a
  apply Fin.ext
  match a with
  | ⟨0, _⟩ => show win0_2.index t 0 * 1 + 1 * u.val = u.val; rw [e0]; omega
  | ⟨1, _⟩ => show win0_2.index t 1 * 1024 + 1 * j.val = j.val; rw [e1]; omega

theorem w1blk_apply (c : Dev nD) (t : Fin cfg0.N) (k : Fin 1024) (j : Fin 512) :
    w1blk V c t (ix2 k j) = (V c main_v3 : Vec Ideal S1024x512 .bf16) (ix2 k j) := by
  obtain ⟨-, -, -, -, -, -, e0, e1, -⟩ := idx0 t
  show iblk0 V c 3 t (ix2 k j) = _
  unfold iblk0
  rw [View.read_apply]
  show V c main_v3 _ = V c main_v3 _
  congr 1
  funext a
  apply Fin.ext
  match a with
  | ⟨0, _⟩ => show win0_3.index t 0 * 1024 + 1 * k.val = k.val; rw [e0]; omega
  | ⟨1, _⟩ => show win0_3.index t 1 * 512 + 1 * j.val = j.val; rw [e1]; omega

theorem b1blk_apply (c : Dev nD) (t : Fin cfg0.N) (u : Fin 1) (j : Fin 512) :
    b1blk V c t (ix2 u j) = (V c main_v9 : Vec Ideal S1x512 .f32) (ix2 u j) := by
  obtain ⟨-, -, -, -, -, -, -, -, e0, e1, -⟩ := idx0 t
  show iblk0 V c 4 t (ix2 u j) = _
  unfold iblk0
  rw [View.read_apply]
  show V c main_v9 _ = V c main_v9 _
  congr 1
  funext a
  apply Fin.ext
  match a with
  | ⟨0, _⟩ => show win0_4.index t 0 * 1 + 1 * u.val = u.val; rw [e0]; omega
  | ⟨1, _⟩ => show win0_4.index t 1 * 512 + 1 * j.val = j.val; rw [e1]; omega

def actV (c : Dev nD) : Fin 8192 → Fin 512 → EReal :=
  Spec.relu (Spec.lin (Spec.relu (Spec.lin
    (fun i k => (V c main_arg0 : Vec Ideal S8192x2048 .f32) (ix2 i k))
    (fun k j => (V c main_v2 : Vec Ideal S2048x1024 .bf16) (ix2 k j))
    (fun j => (V c main_v8 : Vec Ideal S1x1024 .f32) (ix2 0 j))))
    (fun k j => (V c main_v3 : Vec Ideal S1024x512 .bf16) (ix2 k j))
    (fun j => (V c main_v9 : Vec Ideal S1x512 .f32) (ix2 0 j)))

theorem ptAct_eq (c : Dev nD) (t : Fin cfg0.N) (p j : Fin 512) (hlt : 512 * t.val + p.val < 8192) :
    ptAct V c t p j = actV V c ⟨512 * t.val + p.val, hlt⟩ j := by
  unfold ptAct blkAct actV Spec.relu Spec.lin
  refine congrArg₂ max (congrArg₂ (· + ·) (Finset.sum_congr rfl fun k _ => congrArg₂ (· * ·) ?_ (w1blk_apply V c t k j))
    (b1blk_apply V c t 0 j)) rfl
  unfold hid
  exact congrArg₂ max (congrArg₂ (· + ·) (Finset.sum_congr rfl fun k' _ =>
    congrArg₂ (· * ·) (xblk_apply V c t p k' hlt) (w0blk_apply V c t k' k)) (b0blk_apply V c t 0 k)) rfl

theorem halfsum (c : Dev nD) (h : ℕ) (hh : h < 2) (j : Fin 512) :
    ∑ s ∈ Finset.range 8, colS V c (8 * h + s) j = Spec.coreSum (actV V c) ⟨h, hh⟩ j := by
  have hN : cfg0.N = 16 := N_0
  let f : ℕ → EReal := fun i => if hi : i < 4096 then actV V c ⟨4096 * h + i, by omega⟩ j else 0
  have hcol : ∀ s ∈ Finset.range 8, colS V c (8 * h + s) j = ∑ p ∈ Finset.range 512, f (512 * s + p) := by
    intro s hs
    have hs8 : s < 8 := Finset.mem_range.mp hs
    have hlt : 8 * h + s < cfg0.N := by omega
    rw [colS, dif_pos hlt, Finset.sum_range]
    refine Finset.sum_congr rfl fun p _ => ?_
    have hp : p.val < 512 := p.isLt
    have h1 : 512 * (8 * h + s) + p.val < 8192 := by omega
    rw [ptAct_eq V c ⟨8 * h + s, hlt⟩ p j h1]
    show _ = (if hi : 512 * s + p.val < 4096 then actV V c ⟨4096 * h + (512 * s + p.val), by omega⟩ j else 0)
    rw [dif_pos (by omega)]
    congr 1
    apply Fin.ext
    show 512 * (8 * h + s) + p.val = 4096 * h + (512 * s + p.val)
    omega
  have hb := sum_range_blocks f 512 8
  rw [show 8 * 512 = 4096 from rfl] at hb
  rw [Finset.sum_congr rfl hcol, ← hb, Finset.sum_range]
  unfold Spec.coreSum
  refine Finset.sum_congr rfl fun i _ => ?_
  show (if hi : i.val < 4096 then actV V c ⟨4096 * h + i.val, by omega⟩ j else 0) = _
  rw [dif_pos i.isLt]
  rfl

theorem halfsumSq (c : Dev nD) (h : ℕ) (hh : h < 2) (j : Fin 512) :
    ∑ s ∈ Finset.range 8, colQ V c (8 * h + s) j = Spec.coreSumSq (actV V c) ⟨h, hh⟩ j := by
  have hN : cfg0.N = 16 := N_0
  let f : ℕ → EReal := fun i =>
    if hi : i < 4096 then actV V c ⟨4096 * h + i, by omega⟩ j * actV V c ⟨4096 * h + i, by omega⟩ j else 0
  have hcol : ∀ s ∈ Finset.range 8, colQ V c (8 * h + s) j = ∑ p ∈ Finset.range 512, f (512 * s + p) := by
    intro s hs
    have hs8 : s < 8 := Finset.mem_range.mp hs
    have hlt : 8 * h + s < cfg0.N := by omega
    rw [colQ, dif_pos hlt, Finset.sum_range]
    refine Finset.sum_congr rfl fun p _ => ?_
    have hp : p.val < 512 := p.isLt
    have h1 : 512 * (8 * h + s) + p.val < 8192 := by omega
    rw [ptAct_eq V c ⟨8 * h + s, hlt⟩ p j h1]
    show _ = (if hi : 512 * s + p.val < 4096 then
      actV V c ⟨4096 * h + (512 * s + p.val), by omega⟩ j * actV V c ⟨4096 * h + (512 * s + p.val), by omega⟩ j else 0)
    rw [dif_pos (by omega)]
    have e : (⟨512 * (8 * h + s) + p.val, h1⟩ : Fin 8192) = ⟨4096 * h + (512 * s + p.val), by omega⟩ :=
      Fin.ext (by show 512 * (8 * h + s) + p.val = 4096 * h + (512 * s + p.val); omega)
    rw [e]
  have hb := sum_range_blocks f 512 8
  rw [show 8 * 512 = 4096 from rfl] at hb
  rw [Finset.sum_congr rfl hcol, ← hb, Finset.sum_range]
  unfold Spec.coreSumSq
  refine Finset.sum_congr rfl fun i _ => ?_
  show (if hi : i.val < 4096 then
    actV V c ⟨4096 * h + i.val, by omega⟩ j * actV V c ⟨4096 * h + i.val, by omega⟩ j else 0) = _
  rw [dif_pos i.isLt]
  rfl

abbrev G5 (c : Dev nD) : Vec Ideal S8192x512 .bf16 := fun i => actV V c (i 0) (i 1)
abbrev G6 (c : Dev nD) : Vec Ideal S16x512 .f32 := fun i =>
  Spec.coreSum (actV V c) ⟨(i 0).val / 8, by have h : (i 0).val < 16 := (i 0).isLt; omega⟩ (i 1)
abbrev G7 (c : Dev nD) : Vec Ideal S16x512 .f32 := fun i =>
  Spec.coreSumSq (actV V c) ⟨(i 0).val / 8, by have h : (i 0).val < 16 := (i 0).isLt; omega⟩ (i 1)

theorem flushed5_eq (c : Dev nD) (t : Fin cfg0.N) :
    (dat0 V c).flushed 5 t = ((cfg0.win 5).blk t).view.read (Elt Ideal) (G5 V c) := by
  have hN : cfg0.N = 16 := N_0
  obtain ⟨-, -, -, -, -, -, -, -, -, -, e0, e1, -⟩ := idx0 t
  show (cfg0.win 5).cut (grid0.coords t) ((dat0 V c).after 5 t) = _
  rw [after0_5]
  funext y
  obtain ⟨p, j, rfl⟩ : ∃ (p : Fin 512) (j : Fin 512), y = ix2 p j := ⟨y 0, y 1, eq_ix2 y⟩
  have hlt : 512 * t.val + p.val < 8192 := by have := t.isLt; have := p.isLt; omega
  show ((outsAt0 V c t.val t.isLt).1 (ix2 p j) : EReal) = G5 V c (((cfg0.win 5).blk t).view.emb (ix2 p j))
  rw [inv5 V c t.val t.isLt p j, ptAct_eq V c ⟨t.val, t.isLt⟩ p j hlt]
  show actV V c ⟨512 * t.val + p.val, hlt⟩ j
    = actV V c ((((cfg0.win 5).blk t).view.emb (ix2 p j)) 0) ((((cfg0.win 5).blk t).view.emb (ix2 p j)) 1)
  congr 1
  · apply Fin.ext
    show 512 * t.val + p.val = win0_5.index t 0 * 512 + 1 * p.val
    rw [e0]; omega
  · apply Fin.ext
    show j.val = win0_5.index t 1 * 512 + 1 * j.val
    rw [e1]; omega

theorem flushed6_eq (c : Dev nD) (t : Fin cfg0.N) (hf : (cfg0.win 6).flush t = true) :
    (dat0 V c).flushed 6 t = ((cfg0.win 6).blk t).view.read (Elt Ideal) (G6 V c) := by
  have hN : cfg0.N = 16 := N_0
  have h7 : t.val % 8 = 7 := (flush0_6 t).mp hf
  have ht := t.isLt
  obtain ⟨-, -, -, -, -, -, -, -, -, -, -, -, e0, e1, -⟩ := idx0 t
  show (cfg0.win 6).cut (grid0.coords t) ((dat0 V c).after 6 t) = _
  rw [after0_6]
  funext y
  obtain ⟨r, j, rfl⟩ : ∃ (r : Fin 8) (j : Fin 512), y = ix2 r j := ⟨y 0, y 1, eq_ix2 y⟩
  have hr := r.isLt
  show ((outsAt0 V c t.val t.isLt).2.1 (ix2 r j) : EReal) = G6 V c (((cfg0.win 6).blk t).view.emb (ix2 r j))
  rw [inv6 V c t.val t.isLt r j, h7, show t.val - 7 = 8 * (t.val / 8) by omega, halfsum V c (t.val / 8) (by omega) j]
  show Spec.coreSum (actV V c) ⟨t.val / 8, _⟩ j
    = Spec.coreSum (actV V c) ⟨((((cfg0.win 6).blk t).view.emb (ix2 r j)) 0).val / 8, _⟩ ((((cfg0.win 6).blk t).view.emb (ix2 r j)) 1)
  congr 1
  · apply Fin.ext
    show t.val / 8 = (win0_6.index t 0 * 8 + 1 * r.val) / 8
    rw [e0]; omega
  · apply Fin.ext
    show j.val = win0_6.index t 1 * 512 + 1 * j.val
    rw [e1]; omega

theorem flushed7_eq (c : Dev nD) (t : Fin cfg0.N) (hf : (cfg0.win 7).flush t = true) :
    (dat0 V c).flushed 7 t = ((cfg0.win 7).blk t).view.read (Elt Ideal) (G7 V c) := by
  have hN : cfg0.N = 16 := N_0
  have h7 : t.val % 8 = 7 := (flush0_7 t).mp hf
  have ht := t.isLt
  obtain ⟨-, -, -, -, -, -, -, -, -, -, -, -, -, -, e0, e1⟩ := idx0 t
  show (cfg0.win 7).cut (grid0.coords t) ((dat0 V c).after 7 t) = _
  rw [after0_7]
  funext y
  obtain ⟨r, j, rfl⟩ : ∃ (r : Fin 8) (j : Fin 512), y = ix2 r j := ⟨y 0, y 1, eq_ix2 y⟩
  have hr := r.isLt
  show ((outsAt0 V c t.val t.isLt).2.2 (ix2 r j) : EReal) = G7 V c (((cfg0.win 7).blk t).view.emb (ix2 r j))
  rw [inv7 V c t.val t.isLt r j, h7, show t.val - 7 = 8 * (t.val / 8) by omega, halfsumSq V c (t.val / 8) (by omega) j]
  show Spec.coreSumSq (actV V c) ⟨t.val / 8, _⟩ j
    = Spec.coreSumSq (actV V c) ⟨((((cfg0.win 7).blk t).view.emb (ix2 r j)) 0).val / 8, _⟩ ((((cfg0.win 7).blk t).view.emb (ix2 r j)) 1)
  congr 1
  · apply Fin.ext
    show t.val / 8 = (win0_7.index t 0 * 8 + 1 * r.val) / 8
    rw [e0]; omega
  · apply Fin.ext
    show j.val = win0_7.index t 1 * 512 + 1 * j.val
    rw [e1]; omega

theorem mem_blk5 (t : Fin cfg0.N) (i : S8192x512.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v10_0).slice (win0_5.rect t)).set ↔ _
  rw [View.set_slice_whole, Rect.mem_set_unit]
  exact Iff.rfl

theorem mem_blk6 (t : Fin cfg0.N) (i : S16x512.Idx) :
    i ∈ ((cfg0.win 6).blk t).view.set ↔ ∀ a : Fin 2, win0_6.index t a * S8x512.size a ≤ (i a).val ∧ (i a).val < win0_6.index t a * S8x512.size a + S8x512.size a := by
  show i ∈ ((View.whole main_v10_1).slice (win0_6.rect t)).set ↔ _
  rw [View.set_slice_whole, Rect.mem_set_unit]
  exact Iff.rfl

theorem cover5 (i : S8192x512.Idx) : ∃ t : Fin cfg0.N, (cfg0.win 5).flush t = true ∧ i ∈ ((cfg0.win 5).blk t).view.set := by
  have hN : cfg0.N = 16 := N_0
  have hi0 : (i 0).val < 8192 := (i 0).isLt
  have hi1 : (i 1).val < 512 := (i 1).isLt
  refine ⟨⟨(i 0).val / 512, by omega⟩, flush0_5 _, ?_⟩
  rw [mem_blk5]
  obtain ⟨-, -, -, -, -, -, -, -, -, -, e0, e1, -⟩ := idx0 ⟨(i 0).val / 512, by omega⟩
  intro a
  match a with
  | ⟨0, _⟩ => show win0_5.index _ (0 : Fin 2) * 512 ≤ (i 0).val ∧ (i 0).val < win0_5.index _ (0 : Fin 2) * 512 + 512; rw [e0]; dsimp only; omega
  | ⟨1, _⟩ => show win0_5.index _ (1 : Fin 2) * 512 ≤ (i 1).val ∧ (i 1).val < win0_5.index _ (1 : Fin 2) * 512 + 512; rw [e1]; omega

theorem cover6 (i : S16x512.Idx) : ∃ t : Fin cfg0.N, (cfg0.win 6).flush t = true ∧ i ∈ ((cfg0.win 6).blk t).view.set := by
  have hN : cfg0.N = 16 := N_0
  have hi0 : (i 0).val < 16 := (i 0).isLt
  have hi1 : (i 1).val < 512 := (i 1).isLt
  refine ⟨⟨8 * ((i 0).val / 8) + 7, by omega⟩, (flush0_6 _).mpr (by dsimp only; omega), ?_⟩
  rw [mem_blk6]
  obtain ⟨-, -, -, -, -, -, -, -, -, -, -, -, e0, e1, -⟩ := idx0 ⟨8 * ((i 0).val / 8) + 7, by omega⟩
  intro a
  match a with
  | ⟨0, _⟩ => show win0_6.index _ (0 : Fin 2) * 8 ≤ (i 0).val ∧ (i 0).val < win0_6.index _ (0 : Fin 2) * 8 + 8; rw [e0]; dsimp only; omega
  | ⟨1, _⟩ => show win0_6.index _ (1 : Fin 2) * 512 ≤ (i 1).val ∧ (i 1).val < win0_6.index _ (1 : Fin 2) * 512 + 512; rw [e1]; omega

theorem final5 (c : Dev nD) : (dat0 V c).arrAt 5 cfg0.N = G5 V c :=
  (dat0 V c).arrAt_eq_of_cover 5 (G5 V c) (fun t _ => flushed5_eq V c t) cover5

theorem final6 (c : Dev nD) : (dat0 V c).arrAt 6 cfg0.N = G6 V c :=
  (dat0 V c).arrAt_eq_of_cover 6 (G6 V c) (fun t hf => flushed6_eq V c t hf) cover6

theorem final7 (c : Dev nD) : (dat0 V c).arrAt 7 cfg0.N = G7 V c :=
  (dat0 V c).arrAt_eq_of_cover 7 (G7 V c) (fun t hf => flushed7_eq V c t hf) cover6

end Cert.KernelIdeal.Region0Arr

end
-- ==== Proof.Region0.lean ====
/- The first call's outputs as values: the activation after two dense layers, and its column sums and sums of squares over each half of the rows. -/
import proofs.«426192_j71700184039604_3_alg».proof.Proof.Gen.KernelIdeal.Frame
import proofs.«426192_j71700184039604_3_alg».proof.Proof.Spec
import proofs.«426192_j71700184039604_3_alg».proof.Proof.Region0Arr
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

abbrev xArr (c : Dev nD) : Vec Ideal S8192x2048 .f32 := V c main_arg0
abbrev w0Arr (c : Dev nD) : Vec Ideal S2048x1024 .bf16 := V c main_v2
abbrev b0Arr (c : Dev nD) : Vec Ideal S1x1024 .f32 := V c main_v8
abbrev w1Arr (c : Dev nD) : Vec Ideal S1024x512 .bf16 := V c main_v3
abbrev b1Arr (c : Dev nD) : Vec Ideal S1x512 .f32 := V c main_v9

def xIn (c : Dev nD) : Fin 8192 → Fin 2048 → EReal := fun i k => xArr V c (ix2 i k)
def w0In (c : Dev nD) : Fin 2048 → Fin 1024 → EReal := fun k j => w0Arr V c (ix2 k j)
def b0In (c : Dev nD) : Fin 1024 → EReal := fun j => b0Arr V c (ix2 0 j)
def w1In (c : Dev nD) : Fin 1024 → Fin 512 → EReal := fun k j => w1Arr V c (ix2 k j)
def b1In (c : Dev nD) : Fin 512 → EReal := fun j => b1Arr V c (ix2 0 j)

def act (c : Dev nD) : Fin 8192 → Fin 512 → EReal :=
  Spec.relu (Spec.lin (Spec.relu (Spec.lin (xIn V c) (w0In V c) (b0In V c))) (w1In V c) (b1In V c))

abbrev out5 (c : Dev nD) : Vec Ideal S8192x512 .bf16 := (dat0 V c).arrAt 5 cfg0.N
abbrev out6 (c : Dev nD) : Vec Ideal S16x512 .f32 := (dat0 V c).arrAt 6 cfg0.N
abbrev out7 (c : Dev nD) : Vec Ideal S16x512 .f32 := (dat0 V c).arrAt 7 cfg0.N

theorem act_eq (c : Dev nD) : act V c = Region0Arr.actV V c := rfl

theorem out5_eq (c : Dev nD) (i : Fin 8192) (j : Fin 512) : (out5 V c (ix2 i j) : EReal) = act V c i j := by
  rw [act_eq]
  exact congrFun (Region0Arr.final5 V c) (ix2 i j)

theorem out6_eq (c : Dev nD) (r : Fin 16) (j : Fin 512) :
    (out6 V c (ix2 r j) : EReal) = Spec.coreSum (act V c) ⟨r.val / 8, by have := r.isLt; omega⟩ j := by
  rw [act_eq]
  exact congrFun (Region0Arr.final6 V c) (ix2 r j)

theorem out7_eq (c : Dev nD) (r : Fin 16) (j : Fin 512) :
    (out7 V c (ix2 r j) : EReal) = Spec.coreSumSq (act V c) ⟨r.val / 8, by have := r.isLt; omega⟩ j := by
  rw [act_eq]
  exact congrFun (Region0Arr.final7 V c) (ix2 r j)

end Cert.KernelIdeal.Region0

end
-- ==== Proof.Region1Sum.lean ====
/- A block reset at every eighth point and added to at each point holds, after a group's last point, the sum of the group's eight terms: 4096 consecutive rows. -/
import proofs.«426192_j71700184039604_3_alg».proof.Proof.Spec
import Mathlib.Algebra.BigOperators.Intervals
import Mathlib.Algebra.BigOperators.Fin

noncomputable section

open scoped BigOperators

namespace Cert.KernelIdeal.Stats

def chain (f : ℕ → EReal) : ℕ → EReal
  | 0 => Spec.zeroW + f 0
  | n + 1 => if (n + 1) % 8 = 0 then Spec.zeroW + f (n + 1) else chain f n + f (n + 1)

theorem chain_zero (f : ℕ → EReal) : chain f 0 = Spec.zeroW + f 0 := rfl

theorem chain_reset (f : ℕ → EReal) (n : ℕ) (h : (n + 1) % 8 = 0) : chain f (n + 1) = Spec.zeroW + f (n + 1) := if_pos h

theorem chain_step (f : ℕ → EReal) (n : ℕ) (h : ¬(n + 1) % 8 = 0) : chain f (n + 1) = chain f n + f (n + 1) := if_neg h

theorem chain_eq (f : ℕ → EReal) : ∀ n : ℕ, chain f n = Spec.zeroW + ∑ s ∈ Finset.range (n % 8 + 1), f (8 * (n / 8) + s)
  | 0 => by
    rw [chain_zero]
    simp
  | n + 1 => by
    by_cases h : (n + 1) % 8 = 0
    · rw [chain_reset f n h, h, Finset.sum_range_one]
      have e : 8 * ((n + 1) / 8) + 0 = n + 1 := by omega
      rw [e]
    · rw [chain_step f n h, chain_eq f n]
      have e1 : (n + 1) % 8 + 1 = (n % 8 + 1) + 1 := by omega
      have e2 : (n + 1) / 8 = n / 8 := by omega
      have e3 : 8 * (n / 8) + (n % 8 + 1) = n + 1 := by omega
      rw [e1, e2, Finset.sum_range_succ _ (n % 8 + 1), e3, add_assoc]

theorem chain_last (f : ℕ → EReal) (n : ℕ) (h : n % 8 = 7) :
    chain f n = Spec.zeroW + ∑ s ∈ Finset.range 8, f (8 * (n / 8) + s) := by
  rw [chain_eq, h]

def blockSum (g : ℕ → EReal) (t : ℕ) : EReal := ∑ p ∈ Finset.range 512, g (512 * t + p)

theorem sum_blocks (g : ℕ → EReal) : ∀ k : ℕ, ∑ s ∈ Finset.range k, ∑ p ∈ Finset.range 512, g (512 * s + p) = ∑ i ∈ Finset.range (512 * k), g i
  | 0 => by simp
  | k + 1 => by
    rw [Finset.sum_range_succ, sum_blocks g k, show 512 * (k + 1) = 512 * k + 512 by ring, Finset.sum_range_add]

theorem sum_group (g : ℕ → EReal) (c : ℕ) :
    ∑ s ∈ Finset.range 8, blockSum g (8 * c + s) = ∑ i ∈ Finset.range 4096, g (4096 * c + i) := by
  have h := sum_blocks (fun i => g (4096 * c + i)) 8
  rw [show 512 * 8 = 4096 by norm_num] at h
  rw [← h]
  refine Finset.sum_congr rfl fun s _ => Finset.sum_congr rfl fun p _ => congrArg g ?_
  ring

theorem zeroW_eq : Spec.zeroW = 0 := Idealize.ShloMosaic.Ideal.ofBits_zero_f32

end Cert.KernelIdeal.Stats

end
-- ==== Proof.Region1Piece.lean ====
/- What one run of the second call's body leaves in its output blocks, as the body's arithmetic of the blocks it read. -/
import proofs.«426192_j71700184039604_3_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable {F : FTy → Type} [FloatOps F]

theorem hz2 : (![0, 0] : Fin 2 → Nat) = fun _ => 0 := funext fun a => by fin_cases a <;> rfl

variable (c : Dev nD) (i : grid1.Coords) (a2 : Memref sig .tc .vmem S512x512 .bf16) (h2 : a2.IsWhole) (a3 : Memref sig .tc .vmem S1x512 .f32) (h3 : a3.IsWhole) (a4 : Memref sig .tc .vmem S1x512 .f32) (h4 : a4.IsWhole) (a5 : Memref sig .tc .vmem S512x256 .bf16) (h5 : a5.IsWhole) (a6 : Memref sig .tc .vmem S1x256 .f32) (h6 : a6.IsWhole) (a7 : Memref sig .tc .vmem S512x256 .bf16) (h7 : a7.IsWhole) (a8 : Memref sig .tc .vmem S8x256 .f32) (h8 : a8.IsWhole) (a9 : Memref sig .tc .vmem S8x256 .f32) (h9 : a9.IsWhole)

section First
variable (hc : cond1_0 i) (x0 : Vec F S512x512 .bf16) (x1 : Vec F S1x512 .f32) (x2 : Vec F S1x512 .f32) (x3 : Vec F S512x256 .bf16) (x4 : Vec F S1x256 .f32)

theorem piece_A_5 :
    out1_A_5 c i a2 h2 a3 h3 a4 h4 a5 h5 a6 h6 a7 h7 a8 h8 a9 h9 hc x0 x1 x2 x3 x4 = k1_pay5 x0 x1 x2 x3 x4 := by
  unfold out1_A_5
  rw [View.read_writes_eq_canon _ _ _ (cover1_A_5 c i a2 h2 a3 h3 a4 h4 a5 h5 a6 h6 a7 h7 a8 h8 a9 h9 hc x0 x1 x2 x3 x4)]
  unfold kernelRun1_A
  dsimp only
  sl_unfold_words
  rw [View.canon_unit_zero hz2]
  simp only [View.readAt_eq_ld, h2.read_unread, h3.read_unread, h4.read_unread, h5.read_unread, h6.read_unread,
    View.ld_unit_zero (S := S512x512) hz2, View.ld_unit_zero (S := S1x512) hz2, View.ld_unit_zero (S := S512x256) hz2,
    View.ld_unit_zero (S := S1x256) hz2]

theorem piece_A_6 :
    out1_A_6 c i a2 h2 a3 h3 a4 h4 a5 h5 a6 h6 a7 h7 a8 h8 a9 h9 hc x0 x1 x2 x3 x4 = k1_pay7 x0 x1 x2 x3 x4 k1_pay2 := by
  unfold out1_A_6
  rw [View.read_writes_eq_canon _ _ _ (cover1_A_6 c i a2 h2 a3 h3 a4 h4 a5 h5 a6 h6 a7 h7 a8 h8 a9 h9 hc x0 x1 x2 x3 x4)]
  unfold kernelRun1_A
  dsimp only
  sl_unfold_words
  rw [View.canon_cons_unit_zero (S := S8x256) hz2, View.readCov_unit_zero (S := S8x256) _ hz2]
  simp only [View.readAt_eq_ld, h2.read_unread, h3.read_unread, h4.read_unread, h5.read_unread, h6.read_unread,
    View.ld_unit_zero (S := S512x512) hz2, View.ld_unit_zero (S := S1x512) hz2, View.ld_unit_zero (S := S512x256) hz2,
    View.ld_unit_zero (S := S1x256) hz2]

theorem piece_A_7 :
    out1_A_7 c i a2 h2 a3 h3 a4 h4 a5 h5 a6 h6 a7 h7 a8 h8 a9 h9 hc x0 x1 x2 x3 x4 = k1_pay1 (k1_pay6 x0 x1 x2 x3 x4) k1_pay3 := by
  unfold out1_A_7
  rw [View.read_writes_eq_canon _ _ _ (cover1_A_7 c i a2 h2 a3 h3 a4 h4 a5 h5 a6 h6 a7 h7 a8 h8 a9 h9 hc x0 x1 x2 x3 x4)]
  unfold kernelRun1_A
  dsimp only
  sl_unfold_words
  rw [View.canon_cons_unit_zero (S := S8x256) hz2, View.readCov_unit_zero (S := S8x256) _ hz2]
  simp only [View.readAt_eq_ld, h2.read_unread, h3.read_unread, h4.read_unread, h5.read_unread, h6.read_unread,
    View.ld_unit_zero (S := S512x512) hz2, View.ld_unit_zero (S := S1x512) hz2, View.ld_unit_zero (S := S512x256) hz2,
    View.ld_unit_zero (S := S1x256) hz2]

end First

section Other
variable (hc : ¬cond1_0 i) (x0 : Vec F S512x512 .bf16) (x1 : Vec F S1x512 .f32) (x2 : Vec F S1x512 .f32) (x3 : Vec F S512x256 .bf16) (x4 : Vec F S1x256 .f32) (xo6 xo7 : Vec F S8x256 .f32)

theorem piece_B_5 :
    out1_B_5 c i a2 h2 a3 h3 a4 h4 a5 h5 a6 h6 a7 h7 a8 h8 a9 h9 hc x0 x1 x2 x3 x4 xo6 xo7 = k1_pay5 x0 x1 x2 x3 x4 := by
  unfold out1_B_5
  rw [View.read_writes_eq_canon _ _ _ (cover1_B_5 c i a2 h2 a3 h3 a4 h4 a5 h5 a6 h6 a7 h7 a8 h8 a9 h9 hc x0 x1 x2 x3 x4 xo6 xo7)]
  unfold kernelRun1_B
  dsimp only
  sl_unfold_words
  rw [View.canon_unit_zero hz2]
  simp only [View.readAt_eq_ld, h2.read_unread, h3.read_unread, h4.read_unread, h5.read_unread, h6.read_unread,
    View.ld_unit_zero (S := S512x512) hz2, View.ld_unit_zero (S := S1x512) hz2, View.ld_unit_zero (S := S512x256) hz2,
    View.ld_unit_zero (S := S1x256) hz2]

theorem piece_B_6 :
    out1_B_6 c i a2 h2 a3 h3 a4 h4 a5 h5 a6 h6 a7 h7 a8 h8 a9 h9 hc x0 x1 x2 x3 x4 xo6 xo7 = k1_pay7 x0 x1 x2 x3 x4 xo6 := by
  unfold out1_B_6
  rw [View.read_writes_eq_canon _ _ _ (cover1_B_6 c i a2 h2 a3 h3 a4 h4 a5 h5 a6 h6 a7 h7 a8 h8 a9 h9 hc x0 x1 x2 x3 x4 xo6 xo7)]
  unfold kernelRun1_B
  dsimp only
  sl_unfold_words
  rw [View.canon_unit_zero hz2]
  simp only [View.readAt_eq_ld, h2.read_unread, h3.read_unread, h4.read_unread, h5.read_unread, h6.read_unread,
    View.ld_unit_zero (S := S512x512) hz2, View.ld_unit_zero (S := S1x512) hz2, View.ld_unit_zero (S := S512x256) hz2,
    View.ld_unit_zero (S := S1x256) hz2, h8.read_unread, View.ld_unit_zero (S := S8x256) hz2]

theorem piece_B_7 :
    out1_B_7 c i a2 h2 a3 h3 a4 h4 a5 h5 a6 h6 a7 h7 a8 h8 a9 h9 hc x0 x1 x2 x3 x4 xo6 xo7 = k1_pay1 (k1_pay6 x0 x1 x2 x3 x4) xo7 := by
  unfold out1_B_7
  rw [View.read_writes_eq_canon _ _ _ (cover1_B_7 c i a2 h2 a3 h3 a4 h4 a5 h5 a6 h6 a7 h7 a8 h8 a9 h9 hc x0 x1 x2 x3 x4 xo6 xo7)]
  unfold kernelRun1_B
  dsimp only
  sl_unfold_words
  rw [View.canon_unit_zero hz2]
  simp only [View.readAt_eq_ld, h2.read_unread, h3.read_unread, h4.read_unread, h5.read_unread, h6.read_unread,
    View.ld_unit_zero (S := S512x512) hz2, View.ld_unit_zero (S := S1x512) hz2, View.ld_unit_zero (S := S512x256) hz2,
    View.ld_unit_zero (S := S1x256) hz2, h9.read_unread, View.ld_unit_zero (S := S8x256) hz2]

end Other

end Cert.KernelIdeal.Region1

end
-- ==== Proof.Region1Pay.lean ====
/- The second call's body at an index: scale and shift by column, a dense layer with relu, and the row sums added to the running blocks. -/
import proofs.«426192_j71700184039604_3_alg».proof.Proof.Gen.KernelIdeal.Frame
import proofs.«426192_j71700184039604_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

theorem lhs_mm_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_mm_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_mm_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_mm_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

theorem matmul_at (l : FVec Ideal S512x512 .bf16) (r : FVec Ideal S512x256 .bf16) (p : Fin 512) (q : Fin 256) :
    matmul dot_S512x512_S512x256_S512x256_1_0_0_1_n_n none l r (constant (F := Ideal) S512x256 .f32 0x00000000#32) (ix2 p q)
      = ∑ k : Fin 512, l (ix2 p k) * r (ix2 k q) := by
  refine (Ideal.matmul_constant_zero_apply dot_S512x512_S512x256_S512x256_1_0_0_1_n_n none l r (ix2 p q)).trans ?_
  rw [← Equiv.sum_comp (contrEquiv1 dot_S512x512_S512x256_S512x256_1_0_0_1_n_n 512 rfl rfl).symm]
  refine Finset.sum_congr rfl fun k _ => ?_
  have hk := contrEquiv1_symm_val dot_S512x512_S512x256_S512x256_1_0_0_1_n_n 512 rfl rfl k
  have el : dot_S512x512_S512x256_S512x256_1_0_0_1_n_n.lhsIdx (ix2 p q) ((contrEquiv1 dot_S512x512_S512x256_S512x256_1_0_0_1_n_n 512 rfl rfl).symm k) = ix2 p k := funext fun a => Fin.ext (by
    match a with
    | ⟨0, _⟩ => exact lhs_mm_0 _ _
    | ⟨1, _⟩ => exact (lhs_mm_1 _ _).trans hk)
  have er : dot_S512x512_S512x256_S512x256_1_0_0_1_n_n.rhsIdx (ix2 p q) ((contrEquiv1 dot_S512x512_S512x256_S512x256_1_0_0_1_n_n 512 rfl rfl).symm k) = ix2 k q := funext fun a => Fin.ext (by
    match a with
    | ⟨0, _⟩ => exact (rhs_mm_0 _ _).trans hk
    | ⟨1, _⟩ => exact rhs_mm_1 _ _)
  rw [el, er]

theorem colsum_at (v : FVec Ideal S512x256 .f32) (hf : FKind.Formats .f32) (hacc : (0x00000000#32 : BitVec 32) = 0x00000000#32)
    (q : Fin 256) :
    multiReduction (F := Ideal) .add [0] S256 v 0x00000000#32 reduces_S512x256_S256 hf hacc (ix1 q)
      = ∑ r : Fin 512, v (ix2 r q) := by
  refine (Ideal.multiReduction_add_single v 0x00000000#32 reduces_S512x256_S256 hf hacc (ix1 q)).trans ?_
  refine Finset.sum_congr rfl fun k _ => congrArg v ?_
  funext a
  match a with
  | ⟨0, _⟩ => rfl
  | ⟨1, _⟩ => rfl

section Pay

variable (x0 : FVec Ideal S512x512 .bf16) (x1 x2 : FVec Ideal S1x512 .f32) (x3 : FVec Ideal S512x256 .bf16)
  (x4 : FVec Ideal S1x256 .f32)

def blkAct : Fin 512 → Fin 256 → EReal := fun p q =>
  max ((∑ k : Fin 512, (x0 (ix2 p k) * x1 (ix2 0 k) + x2 (ix2 0 k)) * x3 (ix2 k q)) + x4 (ix2 0 q)) Spec.zeroW

theorem pay4_at (p : Fin 512) (q : Fin 256) :
    k1_pay4 (F := Ideal) x0 x1 x2 x3 x4 (ix2 p q) = blkAct x0 x1 x2 x3 x4 p q := by
  unfold k1_pay4 blkAct
  simp only [shapeCast_self, maximumf_apply, addf_apply, broadcast_apply, matmul_at, truncf_apply, mulf_apply, extf_apply,
    broadcastTo_1b_ab_apply]
  rfl

theorem pay5_at (p : Fin 512) (q : Fin 256) :
    k1_pay5 (F := Ideal) x0 x1 x2 x3 x4 (ix2 p q) = blkAct x0 x1 x2 x3 x4 p q :=
  pay4_at x0 x1 x2 x3 x4 p q

theorem pay7_at (xo : FVec Ideal S8x256 .f32) (r : Fin 8) (q : Fin 256) :
    k1_pay7 (F := Ideal) x0 x1 x2 x3 x4 xo (ix2 r q) = xo (ix2 r q) + ∑ p : Fin 512, blkAct x0 x1 x2 x3 x4 p q := by
  unfold k1_pay7
  simp only [shapeCast_self, addf_apply, broadcastTo_1b_ab_apply, shapeCast_a_1a_apply]
  exact congrArg (xo (ix2 r q) + ·) ((colsum_at _ _ _ q).trans (Finset.sum_congr rfl fun p _ => pay4_at x0 x1 x2 x3 x4 p q))

theorem pay1_at (xo : FVec Ideal S8x256 .f32) (r : Fin 8) (q : Fin 256) :
    k1_pay1 (F := Ideal) (k1_pay6 x0 x1 x2 x3 x4) xo (ix2 r q)
      = xo (ix2 r q) + ∑ p : Fin 512, blkAct x0 x1 x2 x3 x4 p q * blkAct x0 x1 x2 x3 x4 p q := by
  unfold k1_pay1 k1_pay6
  simp only [shapeCast_self, addf_apply, broadcastTo_1b_ab_apply, shapeCast_a_1a_apply]
  refine congrArg (xo (ix2 r q) + ·) ((colsum_at _ _ _ q).trans (Finset.sum_congr rfl fun p _ => ?_))
  show k1_pay4 (F := Ideal) x0 x1 x2 x3 x4 (ix2 p q) * k1_pay4 (F := Ideal) x0 x1 x2 x3 x4 (ix2 p q) = _
  rw [pay4_at]

end Pay

theorem pay2_at (r : Fin 8) (q : Fin 256) : k1_pay2 (F := Ideal) (ix2 r q) = Spec.zeroW := rfl
theorem pay3_at (r : Fin 8) (q : Fin 256) : k1_pay3 (F := Ideal) (ix2 r q) = Spec.zeroW := rfl

end Cert.KernelIdeal.Region1

end
-- ==== Proof.Region1Inv.lean ====
/- After each grid point of the second call: the block's activation, and the reset-and-add chain of column sums over the half. -/
import proofs.«426192_j71700184039604_3_alg».proof.Proof.Gen.KernelIdeal.Frame
import proofs.«426192_j71700184039604_3_alg».proof.Proof.Spec
import proofs.«426192_j71700184039604_3_alg».proof.Proof.Region1Sum
import proofs.«426192_j71700184039604_3_alg».proof.Proof.Region1Piece
import proofs.«426192_j71700184039604_3_alg».proof.Proof.Region1Pay
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

abbrev arrA (c : Dev nD) : Vec Ideal S8192x512 .bf16 := V c main_v10_0
abbrev arrSc (c : Dev nD) : Vec Ideal S1x512 .f32 := V c main_v33
abbrev arrSh (c : Dev nD) : Vec Ideal S1x512 .f32 := V c main_v34
abbrev arrW (c : Dev nD) : Vec Ideal S512x256 .bf16 := V c main_v4
abbrev arrB (c : Dev nD) : Vec Ideal S1x256 .f32 := V c main_v35

abbrev blk0 (c : Dev nD) (t : Fin cfg1.N) : Vec Ideal S512x512 .bf16 := iblk1 V c 0 t
abbrev blk1 (c : Dev nD) (t : Fin cfg1.N) : Vec Ideal S1x512 .f32 := iblk1 V c 1 t
abbrev blk2 (c : Dev nD) (t : Fin cfg1.N) : Vec Ideal S1x512 .f32 := iblk1 V c 2 t
abbrev blk3 (c : Dev nD) (t : Fin cfg1.N) : Vec Ideal S512x256 .bf16 := iblk1 V c 3 t
abbrev blk4 (c : Dev nD) (t : Fin cfg1.N) : Vec Ideal S1x256 .f32 := iblk1 V c 4 t

def actAll (c : Dev nD) : Fin 8192 → Fin 256 → EReal :=
  Spec.relu (Spec.lin (Spec.affine (fun i k => arrA V c (ix2 i k)) (fun k => arrSc V c (ix2 0 k)) (fun k => arrSh V c (ix2 0 k)))
    (fun k j => arrW V c (ix2 k j)) (fun j => arrB V c (ix2 0 j)))

theorem idx_in : ∀ t : Fin cfg1.N, (win1_0.index t 0 = t.val ∧ win1_0.index t 1 = 0)
    ∧ (win1_1.index t 0 = 0 ∧ win1_1.index t 1 = 0) ∧ (win1_2.index t 0 = 0 ∧ win1_2.index t 1 = 0)
    ∧ (win1_3.index t 0 = 0 ∧ win1_3.index t 1 = 0) ∧ (win1_4.index t 0 = 0 ∧ win1_4.index t 1 = 0) :=
  (by decide +kernel : ∀ t : Fin grid1.N, _)

theorem blk0_at (c : Dev nD) (t : Fin cfg1.N) (p : Fin 512) (k : Fin 512) (h : 512 * t.val + p.val < 8192) :
    blk0 V c t (ix2 p k) = arrA V c (ix2 ⟨512 * t.val + p.val, h⟩ k) := by
  have hi := (idx_in t).1
  show iblk1 V c 0 t (ix2 p k) = _
  unfold iblk1
  rw [View.read_apply]
  show V c main_v10_0 _ = V c main_v10_0 _
  congr 1
  funext a
  apply Fin.ext
  match a with
  | ⟨0, _⟩ => show win1_0.index t 0 * 512 + 1 * p.val = 512 * t.val + p.val; rw [hi.1]; omega
  | ⟨1, _⟩ => show win1_0.index t 1 * 512 + 1 * k.val = k.val; rw [hi.2]; omega

theorem blk1_at (c : Dev nD) (t : Fin cfg1.N) (k : Fin 512) : blk1 V c t (ix2 0 k) = arrSc V c (ix2 0 k) := by
  have hi := (idx_in t).2.1
  show iblk1 V c 1 t (ix2 0 k) = _
  unfold iblk1
  rw [View.read_apply]
  show V c main_v33 _ = V c main_v33 _
  congr 1
  funext a
  apply Fin.ext
  match a with
  | ⟨0, _⟩ => show win1_1.index t 0 * 1 + 1 * 0 = 0; rw [hi.1]
  | ⟨1, _⟩ => show win1_1.index t 1 * 512 + 1 * k.val = k.val; rw [hi.2]; omega

theorem blk2_at (c : Dev nD) (t : Fin cfg1.N) (k : Fin 512) : blk2 V c t (ix2 0 k) = arrSh V c (ix2 0 k) := by
  have hi := (idx_in t).2.2.1
  show iblk1 V c 2 t (ix2 0 k) = _
  unfold iblk1
  rw [View.read_apply]
  show V c main_v34 _ = V c main_v34 _
  congr 1
  funext a
  apply Fin.ext
  match a with
  | ⟨0, _⟩ => show win1_2.index t 0 * 1 + 1 * 0 = 0; rw [hi.1]
  | ⟨1, _⟩ => show win1_2.index t 1 * 512 + 1 * k.val = k.val; rw [hi.2]; omega

theorem blk3_at (c : Dev nD) (t : Fin cfg1.N) (k : Fin 512) (q : Fin 256) : blk3 V c t (ix2 k q) = arrW V c (ix2 k q) := by
  have hi := (idx_in t).2.2.2.1
  show iblk1 V c 3 t (ix2 k q) = _
  unfold iblk1
  rw [View.read_apply]
  show V c main_v4 _ = V c main_v4 _
  congr 1
  funext a
  apply Fin.ext
  match a with
  | ⟨0, _⟩ => show win1_3.index t 0 * 512 + 1 * k.val = k.val; rw [hi.1]; omega
  | ⟨1, _⟩ => show win1_3.index t 1 * 256 + 1 * q.val = q.val; rw [hi.2]; omega

theorem blk4_at (c : Dev nD) (t : Fin cfg1.N) (q : Fin 256) : blk4 V c t (ix2 0 q) = arrB V c (ix2 0 q) := by
  have hi := (idx_in t).2.2.2.2
  show iblk1 V c 4 t (ix2 0 q) = _
  unfold iblk1
  rw [View.read_apply]
  show V c main_v35 _ = V c main_v35 _
  congr 1
  funext a
  apply Fin.ext
  match a with
  | ⟨0, _⟩ => show win1_4.index t 0 * 1 + 1 * 0 = 0; rw [hi.1]
  | ⟨1, _⟩ => show win1_4.index t 1 * 256 + 1 * q.val = q.val; rw [hi.2]; omega

theorem blkAct_eq (c : Dev nD) (t : Fin cfg1.N) (p : Fin 512) (q : Fin 256) (h : 512 * t.val + p.val < 8192) :
    blkAct (blk0 V c t) (blk1 V c t) (blk2 V c t) (blk3 V c t) (blk4 V c t) p q = actAll V c ⟨512 * t.val + p.val, h⟩ q := by
  unfold blkAct actAll Spec.relu Spec.lin Spec.affine
  simp only [blk0_at V c t p _ h, blk1_at V c t, blk2_at V c t, blk3_at V c t, blk4_at V c t]

theorem at_5 (c : Dev nD) (t : Fin cfg1.N) :
    (outsAt1 V c t.val t.isLt).1 = k1_pay5 (F := Ideal) (blk0 V c t) (blk1 V c t) (blk2 V c t) (blk3 V c t) (blk4 V c t) := by
  by_cases h0 : t.val % 8 = 0
  · rw [outsAt1_A V c t h0]
    dsimp only
    exact piece_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (blk0 V c t) (blk1 V c t) (blk2 V c t) (blk3 V c t) (blk4 V c t)
  · rw [outsAt1_B V c t h0]
    dsimp only
    exact piece_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (blk0 V c t) (blk1 V c t) (blk2 V c t) (blk3 V c t) (blk4 V c t) (outsAt1 V c (t.val - 1) (Nat.lt_of_le_of_lt (Nat.sub_le _ _) t.isLt)).2.1 (outsAt1 V c (t.val - 1) (Nat.lt_of_le_of_lt (Nat.sub_le _ _) t.isLt)).2.2

theorem at_A (c : Dev nD) (t : Fin cfg1.N) (h0 : t.val % 8 = 0) (r : Fin 8) (q : Fin 256) :
    (outsAt1 V c t.val t.isLt).2.1 (ix2 r q) = Spec.zeroW + ∑ p : Fin 512, blkAct (blk0 V c t) (blk1 V c t) (blk2 V c t) (blk3 V c t) (blk4 V c t) p q
    ∧ (outsAt1 V c t.val t.isLt).2.2 (ix2 r q)
        = Spec.zeroW + ∑ p : Fin 512, blkAct (blk0 V c t) (blk1 V c t) (blk2 V c t) (blk3 V c t) (blk4 V c t) p q * blkAct (blk0 V c t) (blk1 V c t) (blk2 V c t) (blk3 V c t) (blk4 V c t) p q := by
  rw [outsAt1_A V c t h0]
  dsimp only
  constructor
  · refine (congrFun (piece_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (blk0 V c t) (blk1 V c t) (blk2 V c t) (blk3 V c t) (blk4 V c t)) (ix2 r q)).trans ?_
    exact pay7_at (blk0 V c t) (blk1 V c t) (blk2 V c t) (blk3 V c t) (blk4 V c t) (k1_pay2 (F := Ideal)) r q
  · refine (congrFun (piece_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (blk0 V c t) (blk1 V c t) (blk2 V c t) (blk3 V c t) (blk4 V c t)) (ix2 r q)).trans ?_
    exact pay1_at (blk0 V c t) (blk1 V c t) (blk2 V c t) (blk3 V c t) (blk4 V c t) (k1_pay3 (F := Ideal)) r q

theorem at_B (c : Dev nD) (t : Fin cfg1.N) (h0 : ¬t.val % 8 = 0) (r : Fin 8) (q : Fin 256) :
    (outsAt1 V c t.val t.isLt).2.1 (ix2 r q) = (outsAt1 V c (t.val - 1) (Nat.lt_of_le_of_lt (Nat.sub_le _ _) t.isLt)).2.1 (ix2 r q) + ∑ p : Fin 512, blkAct (blk0 V c t) (blk1 V c t) (blk2 V c t) (blk3 V c t) (blk4 V c t) p q
    ∧ (outsAt1 V c t.val t.isLt).2.2 (ix2 r q)
        = (outsAt1 V c (t.val - 1) (Nat.lt_of_le_of_lt (Nat.sub_le _ _) t.isLt)).2.2 (ix2 r q) + ∑ p : Fin 512, blkAct (blk0 V c t) (blk1 V c t) (blk2 V c t) (blk3 V c t) (blk4 V c t) p q * blkAct (blk0 V c t) (blk1 V c t) (blk2 V c t) (blk3 V c t) (blk4 V c t) p q := by
  rw [outsAt1_B V c t h0]
  dsimp only
  constructor
  · refine (congrFun (piece_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (blk0 V c t) (blk1 V c t) (blk2 V c t) (blk3 V c t) (blk4 V c t) (outsAt1 V c (t.val - 1) (Nat.lt_of_le_of_lt (Nat.sub_le _ _) t.isLt)).2.1 (outsAt1 V c (t.val - 1) (Nat.lt_of_le_of_lt (Nat.sub_le _ _) t.isLt)).2.2) (ix2 r q)).trans ?_
    exact pay7_at (blk0 V c t) (blk1 V c t) (blk2 V c t) (blk3 V c t) (blk4 V c t) (outsAt1 V c (t.val - 1) (Nat.lt_of_le_of_lt (Nat.sub_le _ _) t.isLt)).2.1 r q
  · refine (congrFun (piece_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (blk0 V c t) (blk1 V c t) (blk2 V c t) (blk3 V c t) (blk4 V c t) (outsAt1 V c (t.val - 1) (Nat.lt_of_le_of_lt (Nat.sub_le _ _) t.isLt)).2.1 (outsAt1 V c (t.val - 1) (Nat.lt_of_le_of_lt (Nat.sub_le _ _) t.isLt)).2.2) (ix2 r q)).trans ?_
    exact pay1_at (blk0 V c t) (blk1 V c t) (blk2 V c t) (blk3 V c t) (blk4 V c t) (outsAt1 V c (t.val - 1) (Nat.lt_of_le_of_lt (Nat.sub_le _ _) t.isLt)).2.2 r q

def actN (c : Dev nD) (i : ℕ) (q : Fin 256) : EReal := if h : i < 8192 then actAll V c ⟨i, h⟩ q else 0

theorem actN_of_lt (c : Dev nD) (i : ℕ) (q : Fin 256) (h : i < 8192) : actN V c i q = actAll V c ⟨i, h⟩ q := dif_pos h

theorem blkSum_eq (c : Dev nD) (t : Fin cfg1.N) (q : Fin 256) :
    ∑ p : Fin 512, blkAct (blk0 V c t) (blk1 V c t) (blk2 V c t) (blk3 V c t) (blk4 V c t) p q = Stats.blockSum (fun i => actN V c i q) t.val := by
  have hN : cfg1.N = 16 := N_1
  have ht := t.isLt
  unfold Stats.blockSum
  rw [Finset.sum_range]
  refine Finset.sum_congr rfl fun p _ => ?_
  have h : 512 * t.val + p.val < 8192 := by omega
  rw [blkAct_eq V c t p q h]
  exact (actN_of_lt V c _ q h).symm

theorem blkSqSum_eq (c : Dev nD) (t : Fin cfg1.N) (q : Fin 256) :
    ∑ p : Fin 512, blkAct (blk0 V c t) (blk1 V c t) (blk2 V c t) (blk3 V c t) (blk4 V c t) p q * blkAct (blk0 V c t) (blk1 V c t) (blk2 V c t) (blk3 V c t) (blk4 V c t) p q
      = Stats.blockSum (fun i => actN V c i q * actN V c i q) t.val := by
  have hN : cfg1.N = 16 := N_1
  have ht := t.isLt
  unfold Stats.blockSum
  rw [Finset.sum_range]
  refine Finset.sum_congr rfl fun p _ => ?_
  have h : 512 * t.val + p.val < 8192 := by omega
  rw [blkAct_eq V c t p q h]
  show _ = actN V c (512 * t.val + p.val) q * actN V c (512 * t.val + p.val) q
  rw [actN_of_lt V c _ q h]

theorem stats_inv (c : Dev nD) (q : Fin 256) : ∀ (n : ℕ) (hn : n < cfg1.N) (r : Fin 8),
    (outsAt1 V c n hn).2.1 (ix2 r q) = Stats.chain (Stats.blockSum fun i => actN V c i q) n
    ∧ (outsAt1 V c n hn).2.2 (ix2 r q) = Stats.chain (Stats.blockSum fun i => actN V c i q * actN V c i q) n
  | 0, hn, r => by
    obtain ⟨e1, e2⟩ := at_A V c ⟨0, hn⟩ rfl r q
    rw [blkSum_eq] at e1
    rw [blkSqSum_eq] at e2
    exact ⟨e1, e2⟩
  | n + 1, hn, r => by
    by_cases h0 : (n + 1) % 8 = 0
    · obtain ⟨e1, e2⟩ := at_A V c ⟨n + 1, hn⟩ h0 r q
      rw [blkSum_eq] at e1
      rw [blkSqSum_eq] at e2
      rw [Stats.chain_reset _ n h0, Stats.chain_reset _ n h0]
      exact ⟨e1, e2⟩
    · obtain ⟨e1, e2⟩ := at_B V c ⟨n + 1, hn⟩ h0 r q
      obtain ⟨i1, i2⟩ := stats_inv c q n (Nat.lt_of_succ_lt hn) r
      rw [blkSum_eq] at e1
      rw [blkSqSum_eq] at e2
      rw [Stats.chain_step _ n h0, Stats.chain_step _ n h0, ← i1, ← i2]
      exact ⟨e1, e2⟩

theorem stats_last (c : Dev nD) (t : Fin cfg1.N) (h7 : t.val % 8 = 7) (hg : t.val / 8 < 2) (r : Fin 8) (q : Fin 256) :
    (outsAt1 V c t.val t.isLt).2.1 (ix2 r q) = Spec.coreSum (actAll V c) ⟨t.val / 8, hg⟩ q
    ∧ (outsAt1 V c t.val t.isLt).2.2 (ix2 r q) = Spec.coreSumSq (actAll V c) ⟨t.val / 8, hg⟩ q := by
  obtain ⟨e1, e2⟩ := stats_inv V c q t.val t.isLt r
  rw [e1, e2, Stats.chain_last _ _ h7, Stats.chain_last _ _ h7, Stats.sum_group, Stats.sum_group, Stats.zeroW_eq, zero_add,
    zero_add, Finset.sum_range, Finset.sum_range]
  unfold Spec.coreSum Spec.coreSumSq Spec.coreRow
  constructor
  · refine Finset.sum_congr rfl fun i _ => ?_
    rw [actN_of_lt V c _ q (by have := i.isLt; omega)]
  · refine Finset.sum_congr rfl fun i _ => ?_
    rw [actN_of_lt V c _ q (by have := i.isLt; omega)]

end Cert.KernelIdeal.Region1

end
-- ==== Proof.Region1.lean ====
/- The second call's outputs as values: the next layer's activation of the normalised input, and its column sums and sums of squares over each half. -/
import proofs.«426192_j71700184039604_3_alg».proof.Proof.Gen.KernelIdeal.Frame
import proofs.«426192_j71700184039604_3_alg».proof.Proof.Spec
import proofs.«426192_j71700184039604_3_alg».proof.Proof.Region1Sum
import proofs.«426192_j71700184039604_3_alg».proof.Proof.Region1Piece
import proofs.«426192_j71700184039604_3_alg».proof.Proof.Region1Pay
import proofs.«426192_j71700184039604_3_alg».proof.Proof.Region1Inv
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

variable (V : (c : Dev nD) → (b : Ref sig .tc) → Buf (Elt Ideal) ((c : Thread nD τ).loc b))

abbrev aArr (c : Dev nD) : Vec Ideal S8192x512 .bf16 := V c main_v10_0
abbrev scArr (c : Dev nD) : Vec Ideal S1x512 .f32 := V c main_v33
abbrev shArr (c : Dev nD) : Vec Ideal S1x512 .f32 := V c main_v34
abbrev wArr (c : Dev nD) : Vec Ideal S512x256 .bf16 := V c main_v4
abbrev bArr (c : Dev nD) : Vec Ideal S1x256 .f32 := V c main_v35

def aIn (c : Dev nD) : Fin 8192 → Fin 512 → EReal := fun i k => aArr V c (ix2 i k)
def scIn (c : Dev nD) : Fin 512 → EReal := fun k => scArr V c (ix2 0 k)
def shIn (c : Dev nD) : Fin 512 → EReal := fun k => shArr V c (ix2 0 k)
def wIn (c : Dev nD) : Fin 512 → Fin 256 → EReal := fun k j => wArr V c (ix2 k j)
def bIn (c : Dev nD) : Fin 256 → EReal := fun j => bArr V c (ix2 0 j)

def act (c : Dev nD) : Fin 8192 → Fin 256 → EReal :=
  Spec.relu (Spec.lin (Spec.affine (aIn V c) (scIn V c) (shIn V c)) (wIn V c) (bIn V c))

abbrev out5 (c : Dev nD) : Vec Ideal S8192x256 .bf16 := (dat1 V c).arrAt 5 cfg1.N
abbrev out6 (c : Dev nD) : Vec Ideal S16x256 .f32 := (dat1 V c).arrAt 6 cfg1.N
abbrev out7 (c : Dev nD) : Vec Ideal S16x256 .f32 := (dat1 V c).arrAt 7 cfg1.N

theorem act_eq (c : Dev nD) : act V c = actAll V c := rfl

theorem idx_out : ∀ t : Fin cfg1.N, (win1_5.index t 0 = t.val ∧ win1_5.index t 1 = 0)
    ∧ (win1_6.index t 0 = t.val / 8 ∧ win1_6.index t 1 = 0) ∧ (win1_7.index t 0 = t.val / 8 ∧ win1_7.index t 1 = 0) :=
  (by decide +kernel : ∀ t : Fin grid1.N, _)

def G5 (c : Dev nD) : Vec Ideal S8192x256 .bf16 := fun i => actAll V c ⟨(i 0).val, idx2_lt0 i⟩ ⟨(i 1).val, idx2_lt1 i⟩
def G6 (c : Dev nD) : Vec Ideal S16x256 .f32 := fun i =>
  Spec.coreSum (actAll V c) ⟨(i 0).val / 8, by have := idx2_lt0 i; omega⟩ ⟨(i 1).val, idx2_lt1 i⟩
def G7 (c : Dev nD) : Vec Ideal S16x256 .f32 := fun i =>
  Spec.coreSumSq (actAll V c) ⟨(i 0).val / 8, by have := idx2_lt0 i; omega⟩ ⟨(i 1).val, idx2_lt1 i⟩

theorem flushed5_eq (c : Dev nD) (t : Fin cfg1.N) :
    (dat1 V c).flushed 5 t = ((cfg1.win 5).blk t).view.read (Elt Ideal) (G5 V c) := by
  have hN : cfg1.N = 16 := N_1
  have ht := t.isLt
  have hi := (idx_out t).1
  show (cfg1.win 5).cut (grid1.coords t) ((dat1 V c).after 5 t) = _
  rw [after1_5, at_5 V c t]
  funext j
  obtain ⟨p, q, rfl⟩ : ∃ (p : Fin 512) (q : Fin 256), j = ix2 p q := ⟨j 0, j 1, eq_ix2 j⟩
  have h : 512 * t.val + p.val < 8192 := by omega
  show k1_pay5 (F := Ideal) (blk0 V c t) (blk1 V c t) (blk2 V c t) (blk3 V c t) (blk4 V c t) (ix2 p q)
    = G5 V c (((cfg1.win 5).blk t).view.emb (ix2 p q))
  rw [pay5_at, blkAct_eq V c t p q h]
  unfold G5
  congr 1
  · apply Fin.ext
    show 512 * t.val + p.val = win1_5.index t 0 * 512 + 1 * p.val
    rw [hi.1]; omega
  · apply Fin.ext
    show q.val = win1_5.index t 1 * 256 + 1 * q.val
    rw [hi.2]; omega

theorem flushed6_eq (c : Dev nD) (t : Fin cfg1.N) (hf : (cfg1.win 6).flush t = true) :
    (dat1 V c).flushed 6 t = ((cfg1.win 6).blk t).view.read (Elt Ideal) (G6 V c) := by
  have hN : cfg1.N = 16 := N_1
  have ht := t.isLt
  have h7 : t.val % 8 = 7 := (flush1_6 t).mp hf
  have hg : t.val / 8 < 2 := by omega
  have hi := (idx_out t).2.1
  show (cfg1.win 6).cut (grid1.coords t) ((dat1 V c).after 6 t) = _
  rw [after1_6]
  funext j
  obtain ⟨r, q, rfl⟩ : ∃ (r : Fin 8) (q : Fin 256), j = ix2 r q := ⟨j 0, j 1, eq_ix2 j⟩
  show (outsAt1 V c t.val t.isLt).2.1 (ix2 r q) = G6 V c (((cfg1.win 6).blk t).view.emb (ix2 r q))
  rw [(stats_last V c t h7 hg r q).1]
  unfold G6
  congr 1
  · apply Fin.ext
    show t.val / 8 = (win1_6.index t 0 * 8 + 1 * r.val) / 8
    rw [hi.1]; omega
  · apply Fin.ext
    show q.val = win1_6.index t 1 * 256 + 1 * q.val
    rw [hi.2]; omega

theorem flushed7_eq (c : Dev nD) (t : Fin cfg1.N) (hf : (cfg1.win 7).flush t = true) :
    (dat1 V c).flushed 7 t = ((cfg1.win 7).blk t).view.read (Elt Ideal) (G7 V c) := by
  have hN : cfg1.N = 16 := N_1
  have ht := t.isLt
  have h7 : t.val % 8 = 7 := (flush1_7 t).mp hf
  have hg : t.val / 8 < 2 := by omega
  have hi := (idx_out t).2.2
  show (cfg1.win 7).cut (grid1.coords t) ((dat1 V c).after 7 t) = _
  rw [after1_7]
  funext j
  obtain ⟨r, q, rfl⟩ : ∃ (r : Fin 8) (q : Fin 256), j = ix2 r q := ⟨j 0, j 1, eq_ix2 j⟩
  show (outsAt1 V c t.val t.isLt).2.2 (ix2 r q) = G7 V c (((cfg1.win 7).blk t).view.emb (ix2 r q))
  rw [(stats_last V c t h7 hg r q).2]
  unfold G7
  congr 1
  · apply Fin.ext
    show t.val / 8 = (win1_7.index t 0 * 8 + 1 * r.val) / 8
    rw [hi.1]; omega
  · apply Fin.ext
    show q.val = win1_7.index t 1 * 256 + 1 * q.val
    rw [hi.2]; omega

theorem cover5 (i : S8192x256.Idx) : ∃ t : Fin cfg1.N, (cfg1.win 5).flush t = true ∧ i ∈ ((cfg1.win 5).blk t).view.set := by
  have hN : cfg1.N = 16 := N_1
  have h0 : (i 0).val < 8192 := idx2_lt0 i
  have h1 : (i 1).val < 256 := idx2_lt1 i
  have ht : (i 0).val / 512 < cfg1.N := by omega
  refine ⟨⟨(i 0).val / 512, ht⟩, flush1_5 _, ?_⟩
  have hi := (idx_out ⟨(i 0).val / 512, ht⟩).1
  show i ∈ ((View.whole main_v36_0).slice (win1_5.rect ⟨(i 0).val / 512, ht⟩)).set
  rw [View.set_slice_whole, Rect.mem_set_unit]
  intro a
  match a with
  | ⟨0, _⟩ =>
    show win1_5.index ⟨(i 0).val / 512, ht⟩ 0 * 512 ≤ (i 0).val ∧ (i 0).val < win1_5.index ⟨(i 0).val / 512, ht⟩ 0 * 512 + 512
    rw [hi.1]; dsimp only; omega
  | ⟨1, _⟩ =>
    show win1_5.index ⟨(i 0).val / 512, ht⟩ 1 * 256 ≤ (i 1).val ∧ (i 1).val < win1_5.index ⟨(i 0).val / 512, ht⟩ 1 * 256 + 256
    rw [hi.2]; omega

theorem cover6 (i : S16x256.Idx) : ∃ t : Fin cfg1.N, (cfg1.win 6).flush t = true ∧ i ∈ ((cfg1.win 6).blk t).view.set := by
  have hN : cfg1.N = 16 := N_1
  have h0 : (i 0).val < 16 := idx2_lt0 i
  have h1 : (i 1).val < 256 := idx2_lt1 i
  have ht : 8 * ((i 0).val / 8) + 7 < cfg1.N := by omega
  refine ⟨⟨8 * ((i 0).val / 8) + 7, ht⟩, (flush1_6 _).mpr (by show (8 * ((i 0).val / 8) + 7) % 8 = 7; omega), ?_⟩
  have hi := (idx_out ⟨8 * ((i 0).val / 8) + 7, ht⟩).2.1
  show i ∈ ((View.whole main_v36_1).slice (win1_6.rect ⟨8 * ((i 0).val / 8) + 7, ht⟩)).set
  rw [View.set_slice_whole, Rect.mem_set_unit]
  intro a
  match a with
  | ⟨0, _⟩ =>
    show win1_6.index ⟨8 * ((i 0).val / 8) + 7, ht⟩ 0 * 8 ≤ (i 0).val ∧ (i 0).val < win1_6.index ⟨8 * ((i 0).val / 8) + 7, ht⟩ 0 * 8 + 8
    rw [hi.1]; dsimp only; omega
  | ⟨1, _⟩ =>
    show win1_6.index ⟨8 * ((i 0).val / 8) + 7, ht⟩ 1 * 256 ≤ (i 1).val ∧ (i 1).val < win1_6.index ⟨8 * ((i 0).val / 8) + 7, ht⟩ 1 * 256 + 256
    rw [hi.2]; omega

theorem final5 (c : Dev nD) : out5 V c = G5 V c :=
  (dat1 V c).arrAt_eq_of_cover 5 (G5 V c) (fun t _ => flushed5_eq V c t) cover5

theorem final6 (c : Dev nD) : out6 V c = G6 V c :=
  (dat1 V c).arrAt_eq_of_cover 6 (G6 V c) (fun t hf => flushed6_eq V c t hf) cover6

theorem final7 (c : Dev nD) : out7 V c = G7 V c :=
  (dat1 V c).arrAt_eq_of_cover 7 (G7 V c) (fun t hf => flushed7_eq V c t hf) cover6

theorem out5_eq (c : Dev nD) (i : Fin 8192) (j : Fin 256) : (out5 V c (ix2 i j) : EReal) = act V c i j := by
  rw [final5 V c, act_eq V c]
  rfl

theorem out6_eq (c : Dev nD) (r : Fin 16) (j : Fin 256) :
    (out6 V c (ix2 r j) : EReal) = Spec.coreSum (act V c) ⟨r.val / 8, by have := r.isLt; omega⟩ j := by
  rw [final6 V c, act_eq V c]
  rfl

theorem out7_eq (c : Dev nD) (r : Fin 16) (j : Fin 256) :
    (out7 V c (ix2 r j) : EReal) = Spec.coreSumSq (act V c) ⟨r.val / 8, by have := r.isLt; omega⟩ j := by
  rw [final7 V c, act_eq V c]
  rfl

end Cert.KernelIdeal.Region1

end
-- ==== Proof.Region2Pay.lean ====
/- The third call's body at an index: scale and shift by column, a dense layer with relu, and the row sums added to the running blocks. -/
import proofs.«426192_j71700184039604_3_alg».proof.Proof.Gen.KernelIdeal.Skeleton
import proofs.«426192_j71700184039604_3_alg».proof.Proof.Spec
import proofs.«426192_j71700184039604_3_alg».proof.Proof.Region0Pay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.Region2Pay

open Cert.KernelIdeal Cert.KernelIdeal.Gen

theorem lhs_mm2_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhs_mm2_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhs_mm2_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhs_mm2_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

theorem mm2_apply (a : FVec Ideal S512x256 .bf16) (b : FVec Ideal S256x512 .bf16) (p : Fin 512) (j : Fin 512) :
    matmul (F := Ideal) dot_S512x256_S256x512_S512x512_1_0_0_1_n_n none a b (constant (F := Ideal) S512x512 .f32 0x00000000#32) (ix2 p j)
      = ∑ k : Fin 256, a (ix2 p k) * b (ix2 k j) := by
  simp only [matmul]
  rw [Ideal.matmul_constant_zero_apply, ← Equiv.sum_comp (ValueIdx.contrEquiv1 dot_S512x256_S256x512_S512x512_1_0_0_1_n_n 256 rfl rfl).symm]
  refine Finset.sum_congr rfl fun k _ => ?_
  have hk := ValueIdx.contrEquiv1_symm_val dot_S512x256_S256x512_S512x512_1_0_0_1_n_n 256 rfl rfl k
  have el : dot_S512x256_S256x512_S512x512_1_0_0_1_n_n.lhsIdx (ix2 p j) ((ValueIdx.contrEquiv1 dot_S512x256_S256x512_S512x512_1_0_0_1_n_n 256 rfl rfl).symm k) = ix2 p k := funext fun a => Fin.ext (by
    match a with
    | ⟨0, _⟩ => exact lhs_mm2_0 _ _
    | ⟨1, _⟩ => exact (lhs_mm2_1 _ _).trans hk)
  have er : dot_S512x256_S256x512_S512x512_1_0_0_1_n_n.rhsIdx (ix2 p j) ((ValueIdx.contrEquiv1 dot_S512x256_S256x512_S512x512_1_0_0_1_n_n 256 rfl rfl).symm k) = ix2 k j := funext fun a => Fin.ext (by
    match a with
    | ⟨0, _⟩ => exact (rhs_mm2_0 _ _).trans hk
    | ⟨1, _⟩ => exact rhs_mm2_1 _ _)
  rw [el, er]

def aff (a : Vec Ideal S512x256 .bf16) (sc sh : Vec Ideal S1x256 .f32) (p : Fin 512) (k : Fin 256) : EReal :=
  a (ix2 p k) * sc (ix2 0 k) + sh (ix2 0 k)

def blkAct (a : Vec Ideal S512x256 .bf16) (sc sh : Vec Ideal S1x256 .f32) (w : Vec Ideal S256x512 .bf16)
    (b : Vec Ideal S1x512 .f32) (p j : Fin 512) : EReal :=
  max ((∑ k : Fin 256, aff a sc sh p k * w (ix2 k j)) + b (ix2 0 j)) Spec.zeroW

theorem pay4_apply (a : Vec Ideal S512x256 .bf16) (sc sh : Vec Ideal S1x256 .f32) (w : Vec Ideal S256x512 .bf16)
    (b : Vec Ideal S1x512 .f32) (p j : Fin 512) :
    (k2_pay4 (F := Ideal) a sc sh w b (ix2 p j) : EReal) = blkAct a sc sh w b p j := by
  unfold k2_pay4 blkAct
  rw [maximumf_apply, addf_apply, mm2_apply, broadcastTo_1b_ab_apply, broadcast_apply]
  simp only [shapeCast_self]
  refine congrArg₂ max (congrArg₂ (· + ·) (Finset.sum_congr rfl fun k _ => congrArg (· * w (ix2 k j)) ?_) rfl) rfl
  rw [truncf_apply, addf_apply, mulf_apply, extf_apply, broadcastTo_1b_ab_apply, broadcastTo_1b_ab_apply]
  rfl

theorem pay5_apply (a : Vec Ideal S512x256 .bf16) (sc sh : Vec Ideal S1x256 .f32) (w : Vec Ideal S256x512 .bf16)
    (b : Vec Ideal S1x512 .f32) (p j : Fin 512) :
    (k2_pay5 (F := Ideal) a sc sh w b (ix2 p j) : EReal) = blkAct a sc sh w b p j := by
  unfold k2_pay5
  rw [truncf_apply]
  exact pay4_apply a sc sh w b p j

theorem pay6_apply (a : Vec Ideal S512x256 .bf16) (sc sh : Vec Ideal S1x256 .f32) (w : Vec Ideal S256x512 .bf16)
    (b : Vec Ideal S1x512 .f32) (u : Fin 1) (j : Fin 512) :
    (k2_pay6 (F := Ideal) a sc sh w b (ix2 u j) : EReal)
      = ∑ p : Fin 512, blkAct a sc sh w b p j * blkAct a sc sh w b p j := by
  unfold k2_pay6
  refine (shapeCast_a_1a_apply _ _ u j).trans ?_
  refine (Region0Pay.rowsum_apply _ j).trans ?_
  refine Finset.sum_congr rfl fun p _ => ?_
  rw [mulf_apply, pay4_apply]

theorem pay7_apply (a : Vec Ideal S512x256 .bf16) (sc sh : Vec Ideal S1x256 .f32) (w : Vec Ideal S256x512 .bf16)
    (b : Vec Ideal S1x512 .f32) (acc : Vec Ideal S8x512 .f32) (r : Fin 8) (j : Fin 512) :
    (k2_pay7 (F := Ideal) a sc sh w b acc (ix2 r j) : EReal)
      = acc (ix2 r j) + ∑ p : Fin 512, blkAct a sc sh w b p j := by
  unfold k2_pay7
  rw [addf_apply, broadcastTo_1b_ab_apply]
  simp only [shapeCast_self]
  refine congrArg (acc (ix2 r j) + ·) ?_
  refine (shapeCast_a_1a_apply _ _ 0 j).trans ?_
  refine (Region0Pay.rowsum_apply _ j).trans ?_
  exact Finset.sum_congr rfl fun p _ => pay4_apply a sc sh w b p j

theorem pay1_apply (row : FVec Ideal S1x512 .f32) (acc : Vec Ideal S8x512 .f32) (r : Fin 8) (j : Fin 512) :
    (k2_pay1 (F := Ideal) row acc (ix2 r j) : EReal) = acc (ix2 r j) + row (ix2 0 j) := by
  unfold k2_pay1
  rw [addf_apply, broadcastTo_1b_ab_apply]
  simp only [shapeCast_self]

theorem pay2_apply (i : S8x512.Idx) : (k2_pay2 (F := Ideal) i : EReal) = Spec.zeroW := rfl
theorem pay3_apply (i : S8x512.Idx) : (k2_pay3 (F := Ideal) i : EReal) = Spec.zeroW := rfl

end Cert.KernelIdeal.Region2Pay

end
-- ==== Proof.Region2Piece.lean ====
/- What one run of the third call's body leaves in its output blocks, as the body's arithmetic of the blocks it read. -/
import proofs.«426192_j71700184039604_3_alg».proof.Proof.Gen.KernelIdeal.Frame
import proofs.«426192_j71700184039604_3_alg».proof.Proof.Region0Piece
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Region2Piece

open Cert.KernelIdeal Cert.KernelIdeal.Gen
open Cert.KernelIdeal.Region0Piece (hz)

variable {F : FTy → Type} [FloatOps F]

variable (c : Dev nD) (i : grid2.Coords) (a2 : Memref sig .tc .vmem S512x256 .bf16) (h2 : a2.IsWhole) (a3 : Memref sig .tc .vmem S1x256 .f32) (h3 : a3.IsWhole) (a4 : Memref sig .tc .vmem S1x256 .f32) (h4 : a4.IsWhole) (a5 : Memref sig .tc .vmem S256x512 .bf16) (h5 : a5.IsWhole) (a6 : Memref sig .tc .vmem S1x512 .f32) (h6 : a6.IsWhole) (a7 : Memref sig .tc .vmem S512x512 .bf16) (h7 : a7.IsWhole) (a8 : Memref sig .tc .vmem S8x512 .f32) (h8 : a8.IsWhole) (a9 : Memref sig .tc .vmem S8x512 .f32) (h9 : a9.IsWhole)

section First
variable (hc : cond2_0 i) (x0 : Vec F S512x256 .bf16) (x1 : Vec F S1x256 .f32) (x2 : Vec F S1x256 .f32) (x3 : Vec F S256x512 .bf16) (x4 : Vec F S1x512 .f32)

theorem out_A_5 :
    out2_A_5 c i a2 h2 a3 h3 a4 h4 a5 h5 a6 h6 a7 h7 a8 h8 a9 h9 hc x0 x1 x2 x3 x4 = k2_pay5 x0 x1 x2 x3 x4 := by
  unfold out2_A_5
  rw [View.read_writes_eq_canon _ _ _ (cover2_A_5 c i a2 h2 a3 h3 a4 h4 a5 h5 a6 h6 a7 h7 a8 h8 a9 h9 hc x0 x1 x2 x3 x4)]
  unfold kernelRun2_A
  dsimp only
  sl_unfold_words
  rw [View.canon_unit_zero hz]
  simp only [View.readAt_eq_ld, h2.read_unread, h3.read_unread, h4.read_unread, h5.read_unread, h6.read_unread, View.ld_unit_zero (S := S512x256) hz, View.ld_unit_zero (S := S1x256) hz, View.ld_unit_zero (S := S256x512) hz, View.ld_unit_zero (S := S1x512) hz, View.ld_unit_zero (S := S8x512) hz]

theorem out_A_6 :
    out2_A_6 c i a2 h2 a3 h3 a4 h4 a5 h5 a6 h6 a7 h7 a8 h8 a9 h9 hc x0 x1 x2 x3 x4 = k2_pay7 x0 x1 x2 x3 x4 k2_pay2 := by
  unfold out2_A_6
  rw [View.read_writes_eq_canon _ _ _ (cover2_A_6 c i a2 h2 a3 h3 a4 h4 a5 h5 a6 h6 a7 h7 a8 h8 a9 h9 hc x0 x1 x2 x3 x4)]
  unfold kernelRun2_A
  dsimp only
  sl_unfold_words
  rw [View.canon_cons_unit_zero (S := S8x512) hz, View.readCov_unit_zero (S := S8x512) _ hz]
  simp only [View.readAt_eq_ld, h2.read_unread, h3.read_unread, h4.read_unread, h5.read_unread, h6.read_unread, View.ld_unit_zero (S := S512x256) hz, View.ld_unit_zero (S := S1x256) hz, View.ld_unit_zero (S := S256x512) hz, View.ld_unit_zero (S := S1x512) hz, View.ld_unit_zero (S := S8x512) hz]

theorem out_A_7 :
    out2_A_7 c i a2 h2 a3 h3 a4 h4 a5 h5 a6 h6 a7 h7 a8 h8 a9 h9 hc x0 x1 x2 x3 x4 = k2_pay1 (k2_pay6 x0 x1 x2 x3 x4) k2_pay3 := by
  unfold out2_A_7
  rw [View.read_writes_eq_canon _ _ _ (cover2_A_7 c i a2 h2 a3 h3 a4 h4 a5 h5 a6 h6 a7 h7 a8 h8 a9 h9 hc x0 x1 x2 x3 x4)]
  unfold kernelRun2_A
  dsimp only
  sl_unfold_words
  rw [View.canon_cons_unit_zero (S := S8x512) hz, View.readCov_unit_zero (S := S8x512) _ hz]
  simp only [View.readAt_eq_ld, h2.read_unread, h3.read_unread, h4.read_unread, h5.read_unread, h6.read_unread, View.ld_unit_zero (S := S512x256) hz, View.ld_unit_zero (S := S1x256) hz, View.ld_unit_zero (S := S256x512) hz, View.ld_unit_zero (S := S1x512) hz, View.ld_unit_zero (S := S8x512) hz]

end First

section Other
variable (hc : ¬cond2_0 i) (x0 : Vec F S512x256 .bf16) (x1 : Vec F S1x256 .f32) (x2 : Vec F S1x256 .f32) (x3 : Vec F S256x512 .bf16) (x4 : Vec F S1x512 .f32) (xo6 xo7 : Vec F S8x512 .f32)

theorem out_B_5 :
    out2_B_5 c i a2 h2 a3 h3 a4 h4 a5 h5 a6 h6 a7 h7 a8 h8 a9 h9 hc x0 x1 x2 x3 x4 xo6 xo7 = k2_pay5 x0 x1 x2 x3 x4 := by
  unfold out2_B_5
  rw [View.read_writes_eq_canon _ _ _ (cover2_B_5 c i a2 h2 a3 h3 a4 h4 a5 h5 a6 h6 a7 h7 a8 h8 a9 h9 hc x0 x1 x2 x3 x4 xo6 xo7)]
  unfold kernelRun2_B
  dsimp only
  sl_unfold_words
  rw [View.canon_unit_zero hz]
  simp only [View.readAt_eq_ld, h2.read_unread, h3.read_unread, h4.read_unread, h5.read_unread, h6.read_unread, h8.read_unread, h9.read_unread, View.ld_unit_zero (S := S512x256) hz, View.ld_unit_zero (S := S1x256) hz, View.ld_unit_zero (S := S256x512) hz, View.ld_unit_zero (S := S1x512) hz, View.ld_unit_zero (S := S8x512) hz]

theorem out_B_6 :
    out2_B_6 c i a2 h2 a3 h3 a4 h4 a5 h5 a6 h6 a7 h7 a8 h8 a9 h9 hc x0 x1 x2 x3 x4 xo6 xo7 = k2_pay7 x0 x1 x2 x3 x4 xo6 := by
  unfold out2_B_6
  rw [View.read_writes_eq_canon _ _ _ (cover2_B_6 c i a2 h2 a3 h3 a4 h4 a5 h5 a6 h6 a7 h7 a8 h8 a9 h9 hc x0 x1 x2 x3 x4 xo6 xo7)]
  unfold kernelRun2_B
  dsimp only
  sl_unfold_words
  rw [View.canon_unit_zero hz]
  simp only [View.readAt_eq_ld, h2.read_unread, h3.read_unread, h4.read_unread, h5.read_unread, h6.read_unread, h8.read_unread, h9.read_unread, View.ld_unit_zero (S := S512x256) hz, View.ld_unit_zero (S := S1x256) hz, View.ld_unit_zero (S := S256x512) hz, View.ld_unit_zero (S := S1x512) hz, View.ld_unit_zero (S := S8x512) hz]

theorem out_B_7 :
    out2_B_7 c i a2 h2 a3 h3 a4 h4 a5 h5 a6 h6 a7 h7 a8 h8 a9 h9 hc x0 x1 x2 x3 x4 xo6 xo7 = k2_pay1 (k2_pay6 x0 x1 x2 x3 x4) xo7 := by
  unfold out2_B_7
  rw [View.read_writes_eq_canon _ _ _ (cover2_B_7 c i a2 h2 a3 h3 a4 h4 a5 h5 a6 h6 a7 h7 a8 h8 a9 h9 hc x0 x1 x2 x3 x4 xo6 xo7)]
  unfold kernelRun2_B
  dsimp only
  sl_unfold_words
  rw [View.canon_unit_zero hz]
  simp only [View.readAt_eq_ld, h2.read_unread, h3.read_unread, h4.read_unread, h5.read_unread, h6.read_unread, h8.read_unread, h9.read_unread, View.ld_unit_zero (S := S512x256) hz, View.ld_unit_zero (S := S1x256) hz, View.ld_unit_zero (S := S256x512) hz, View.ld_unit_zero (S := S1x512) hz, View.ld_unit_zero (S := S8x512) hz]

end Other

end Cert.KernelIdeal.Region2Piece

end
-- ==== Proof.Region2Inv.lean ====
/- After each grid point of the third call: the block's activation, and the running column sums since the half's first point. -/
import proofs.«426192_j71700184039604_3_alg».proof.Proof.Region2Pay
import proofs.«426192_j71700184039604_3_alg».proof.Proof.Region2Piece
import proofs.«426192_j71700184039604_3_alg».proof.Proof.Region0Inv
import Mathlib.Algebra.BigOperators.Intervals

set_option maxRecDepth 16384

noncomputable section

open scoped BigOperators
open Idealize.ShloMosaic Idealize.ShloMosaic.TcCoe Idealize.SL.Sem Idealize.ShloMosaic.ValueIdx

namespace Cert.KernelIdeal.Region2Inv

open Cert.KernelIdeal Cert.KernelIdeal.Gen Cert.KernelIdeal.Region2Pay Cert.KernelIdeal.Region2Piece

variable (V : (c : Dev nD) → (b : Ref sig .tc) → Buf (Elt Ideal) ((c : Thread nD τ).loc b))

abbrev xblk (c : Dev nD) (t : Fin cfg2.N) : Vec Ideal S512x256 .bf16 := iblk2 V c 0 t
abbrev scblk (c : Dev nD) (t : Fin cfg2.N) : Vec Ideal S1x256 .f32 := iblk2 V c 1 t
abbrev shblk (c : Dev nD) (t : Fin cfg2.N) : Vec Ideal S1x256 .f32 := iblk2 V c 2 t
abbrev wblk (c : Dev nD) (t : Fin cfg2.N) : Vec Ideal S256x512 .bf16 := iblk2 V c 3 t
abbrev bblk (c : Dev nD) (t : Fin cfg2.N) : Vec Ideal S1x512 .f32 := iblk2 V c 4 t

abbrev prev6 (c : Dev nD) (t : Fin cfg2.N) : Vec Ideal S8x512 .f32 :=
  (outsAt2 V c (t.val - 1) (Nat.lt_of_le_of_lt (Nat.sub_le _ _) t.isLt)).2.1
abbrev prev7 (c : Dev nD) (t : Fin cfg2.N) : Vec Ideal S8x512 .f32 :=
  (outsAt2 V c (t.val - 1) (Nat.lt_of_le_of_lt (Nat.sub_le _ _) t.isLt)).2.2

theorem outs_A (c : Dev nD) (t : Fin cfg2.N) (h0 : t.val % 8 = 0) :
    outsAt2 V c t.val t.isLt
      = (k2_pay5 (xblk V c t) (scblk V c t) (shblk V c t) (wblk V c t) (bblk V c t),
         k2_pay7 (xblk V c t) (scblk V c t) (shblk V c t) (wblk V c t) (bblk V c t) (k2_pay2 (F := Ideal)),
         k2_pay1 (k2_pay6 (xblk V c t) (scblk V c t) (shblk V c t) (wblk V c t) (bblk V c t)) (k2_pay3 (F := Ideal))) := by
  rw [outsAt2_A V c t h0]
  exact congrArg₂ Prod.mk (out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))
    (congrArg₂ Prod.mk (out_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))
      (out_A_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)))

theorem outs_B (c : Dev nD) (t : Fin cfg2.N) (h0 : ¬t.val % 8 = 0) :
    outsAt2 V c t.val t.isLt
      = (k2_pay5 (xblk V c t) (scblk V c t) (shblk V c t) (wblk V c t) (bblk V c t),
         k2_pay7 (xblk V c t) (scblk V c t) (shblk V c t) (wblk V c t) (bblk V c t) (prev6 V c t),
         k2_pay1 (k2_pay6 (xblk V c t) (scblk V c t) (shblk V c t) (wblk V c t) (bblk V c t)) (prev7 V c t)) := by
  rw [outsAt2_B V c t h0]
  exact congrArg₂ Prod.mk (out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)
    (congrArg₂ Prod.mk (out_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)
      (out_B_7 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2))

def ptAct (c : Dev nD) (t : Fin cfg2.N) (p j : Fin 512) : EReal :=
  blkAct (xblk V c t) (scblk V c t) (shblk V c t) (wblk V c t) (bblk V c t) p j

def colS (c : Dev nD) (n : ℕ) (j : Fin 512) : EReal :=
  if h : n < cfg2.N then ∑ p : Fin 512, ptAct V c ⟨n, h⟩ p j else 0

def colQ (c : Dev nD) (n : ℕ) (j : Fin 512) : EReal :=
  if h : n < cfg2.N then ∑ p : Fin 512, ptAct V c ⟨n, h⟩ p j * ptAct V c ⟨n, h⟩ p j else 0

theorem inv5 (c : Dev nD) (n : ℕ) (h : n < cfg2.N) (p j : Fin 512) :
    ((outsAt2 V c n h).1 (ix2 p j) : EReal) = ptAct V c ⟨n, h⟩ p j := by
  by_cases h0 : n % 8 = 0
  · rw [outs_A V c ⟨n, h⟩ h0]
    exact pay5_apply _ _ _ _ _ p j
  · rw [outs_B V c ⟨n, h⟩ h0]
    exact pay5_apply _ _ _ _ _ p j

theorem inv6_A (c : Dev nD) (n : ℕ) (h : n < cfg2.N) (h0 : n % 8 = 0) (r : Fin 8) (j : Fin 512) :
    ((outsAt2 V c n h).2.1 (ix2 r j) : EReal) = colS V c n j := by
  rw [outs_A V c ⟨n, h⟩ h0]
  dsimp only
  rw [pay7_apply, pay2_apply, Region0Inv.zeroW_add, colS, dif_pos h]
  rfl

theorem inv7_A (c : Dev nD) (n : ℕ) (h : n < cfg2.N) (h0 : n % 8 = 0) (r : Fin 8) (j : Fin 512) :
    ((outsAt2 V c n h).2.2 (ix2 r j) : EReal) = colQ V c n j := by
  rw [outs_A V c ⟨n, h⟩ h0]
  dsimp only
  rw [pay1_apply, pay3_apply, pay6_apply, Region0Inv.zeroW_add, colQ, dif_pos h]
  rfl

theorem inv6 (c : Dev nD) : ∀ (n : ℕ) (h : n < cfg2.N) (r : Fin 8) (j : Fin 512),
    ((outsAt2 V c n h).2.1 (ix2 r j) : EReal) = ∑ s ∈ Finset.range (n % 8 + 1), colS V c (n - n % 8 + s) j
  | 0, h, r, j => by
    rw [inv6_A V c 0 h rfl r j]
    simp
  | n + 1, h, r, j => by
    by_cases h0 : (n + 1) % 8 = 0
    · rw [inv6_A V c (n + 1) h h0 r j, h0]
      simp
    · have ih := inv6 c n (Nat.lt_of_succ_lt h) r j
      rw [outs_B V c ⟨n + 1, h⟩ h0]
      dsimp only
      rw [pay7_apply]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3, colS, dif_pos h]
      exact congrArg₂ (· + ·) ih rfl

theorem inv7 (c : Dev nD) : ∀ (n : ℕ) (h : n < cfg2.N) (r : Fin 8) (j : Fin 512),
    ((outsAt2 V c n h).2.2 (ix2 r j) : EReal) = ∑ s ∈ Finset.range (n % 8 + 1), colQ V c (n - n % 8 + s) j
  | 0, h, r, j => by
    rw [inv7_A V c 0 h rfl r j]
    simp
  | n + 1, h, r, j => by
    by_cases h0 : (n + 1) % 8 = 0
    · rw [inv7_A V c (n + 1) h h0 r j, h0]
      simp
    · have ih := inv7 c n (Nat.lt_of_succ_lt h) r j
      rw [outs_B V c ⟨n + 1, h⟩ h0]
      dsimp only
      rw [pay1_apply, pay6_apply]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3, colQ, dif_pos h]
      exact congrArg₂ (· + ·) ih rfl

end Cert.KernelIdeal.Region2Inv

end
-- ==== Proof.Region2Arr.lean ====
/- From blocks to arrays for the third call: block t is rows 512·t … 512·t + 511, and a half's eight blocks add up to its 4096 rows. -/
import proofs.«426192_j71700184039604_3_alg».proof.Proof.Region2Inv
import proofs.«426192_j71700184039604_3_alg».proof.Proof.Region0Arr
import Idealize.ShloMosaic.Lib.Pipeline.Value
import Mathlib.Algebra.BigOperators.Intervals

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region2Arr

open Cert.KernelIdeal Cert.KernelIdeal.Gen Cert.KernelIdeal.Region2Pay Cert.KernelIdeal.Region2Inv

variable (V : (c : Dev nD) → (b : Ref sig .tc) → Buf (Elt Ideal) ((c : Thread nD τ).loc b))

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val / 8 ∧ win2_6.index t (1 : Fin 2) = 0
    ∧ win2_7.index t (0 : Fin 2) = t.val / 8 ∧ win2_7.index t (1 : Fin 2) = 0 :=
  (by decide +kernel : ∀ t : Fin grid2.N, _)

theorem xblk_apply (c : Dev nD) (t : Fin cfg2.N) (p : Fin 512) (k : Fin 256) (hlt : 512 * t.val + p.val < 8192) :
    xblk V c t (ix2 p k) = (V c main_v36_0 : Vec Ideal S8192x256 .bf16) (ix2 ⟨512 * t.val + p.val, hlt⟩ k) := by
  obtain ⟨e0, e1, -⟩ := idx2 t
  show iblk2 V c 0 t (ix2 p k) = _
  unfold iblk2
  rw [View.read_apply]
  show V c main_v36_0 _ = V c main_v36_0 _
  congr 1
  funext a
  apply Fin.ext
  match a with
  | ⟨0, _⟩ => show win2_0.index t 0 * 512 + 1 * p.val = 512 * t.val + p.val; rw [e0]; omega
  | ⟨1, _⟩ => show win2_0.index t 1 * 256 + 1 * k.val = k.val; rw [e1]; omega

theorem scblk_apply (c : Dev nD) (t : Fin cfg2.N) (u : Fin 1) (k : Fin 256) :
    scblk V c t (ix2 u k) = (V c main_v59 : Vec Ideal S1x256 .f32) (ix2 u k) := by
  obtain ⟨-, -, e0, e1, -⟩ := idx2 t
  show iblk2 V c 1 t (ix2 u k) = _
  unfold iblk2
  rw [View.read_apply]
  show V c main_v59 _ = V c main_v59 _
  congr 1
  funext a
  apply Fin.ext
  match a with
  | ⟨0, _⟩ => show win2_1.index t 0 * 1 + 1 * u.val = u.val; rw [e0]; omega
  | ⟨1, _⟩ => show win2_1.index t 1 * 256 + 1 * k.val = k.val; rw [e1]; omega

theorem shblk_apply (c : Dev nD) (t : Fin cfg2.N) (u : Fin 1) (k : Fin 256) :
    shblk V c t (ix2 u k) = (V c main_v60 : Vec Ideal S1x256 .f32) (ix2 u k) := by
  obtain ⟨-, -, -, -, e0, e1, -⟩ := idx2 t
  show iblk2 V c 2 t (ix2 u k) = _
  unfold iblk2
  rw [View.read_apply]
  show V c main_v60 _ = V c main_v60 _
  congr 1
  funext a
  apply Fin.ext
  match a with
  | ⟨0, _⟩ => show win2_2.index t 0 * 1 + 1 * u.val = u.val; rw [e0]; omega
  | ⟨1, _⟩ => show win2_2.index t 1 * 256 + 1 * k.val = k.val; rw [e1]; omega

theorem wblk_apply (c : Dev nD) (t : Fin cfg2.N) (k : Fin 256) (j : Fin 512) :
    wblk V c t (ix2 k j) = (V c main_v5 : Vec Ideal S256x512 .bf16) (ix2 k j) := by
  obtain ⟨-, -, -, -, -, -, e0, e1, -⟩ := idx2 t
  show iblk2 V c 3 t (ix2 k j) = _
  unfold iblk2
  rw [View.read_apply]
  show V c main_v5 _ = V c main_v5 _
  congr 1
  funext a
  apply Fin.ext
  match a with
  | ⟨0, _⟩ => show win2_3.index t 0 * 256 + 1 * k.val = k.val; rw [e0]; omega
  | ⟨1, _⟩ => show win2_3.index t 1 * 512 + 1 * j.val = j.val; rw [e1]; omega

theorem bblk_apply (c : Dev nD) (t : Fin cfg2.N) (u : Fin 1) (j : Fin 512) :
    bblk V c t (ix2 u j) = (V c main_v61 : Vec Ideal S1x512 .f32) (ix2 u j) := by
  obtain ⟨-, -, -, -, -, -, -, -, e0, e1, -⟩ := idx2 t
  show iblk2 V c 4 t (ix2 u j) = _
  unfold iblk2
  rw [View.read_apply]
  show V c main_v61 _ = V c main_v61 _
  congr 1
  funext a
  apply Fin.ext
  match a with
  | ⟨0, _⟩ => show win2_4.index t 0 * 1 + 1 * u.val = u.val; rw [e0]; omega
  | ⟨1, _⟩ => show win2_4.index t 1 * 512 + 1 * j.val = j.val; rw [e1]; omega

def actV (c : Dev nD) : Fin 8192 → Fin 512 → EReal :=
  Spec.relu (Spec.lin (Spec.affine
    (fun i k => (V c main_v36_0 : Vec Ideal S8192x256 .bf16) (ix2 i k))
    (fun k => (V c main_v59 : Vec Ideal S1x256 .f32) (ix2 0 k))
    (fun k => (V c main_v60 : Vec Ideal S1x256 .f32) (ix2 0 k)))
    (fun k j => (V c main_v5 : Vec Ideal S256x512 .bf16) (ix2 k j))
    (fun j => (V c main_v61 : Vec Ideal S1x512 .f32) (ix2 0 j)))

theorem ptAct_eq (c : Dev nD) (t : Fin cfg2.N) (p j : Fin 512) (hlt : 512 * t.val + p.val < 8192) :
    ptAct V c t p j = actV V c ⟨512 * t.val + p.val, hlt⟩ j := by
  unfold ptAct blkAct actV Spec.relu Spec.lin Spec.affine
  refine congrArg₂ max (congrArg₂ (· + ·) (Finset.sum_congr rfl fun k _ => congrArg₂ (· * ·) ?_ (wblk_apply V c t k j))
    (bblk_apply V c t 0 j)) rfl
  unfold aff
  exact congrArg₂ (· + ·) (congrArg₂ (· * ·) (xblk_apply V c t p k hlt) (scblk_apply V c t 0 k)) (shblk_apply V c t 0 k)

theorem halfsum (c : Dev nD) (h : ℕ) (hh : h < 2) (j : Fin 512) :
    ∑ s ∈ Finset.range 8, colS V c (8 * h + s) j = Spec.coreSum (actV V c) ⟨h, hh⟩ j := by
  have hN : cfg2.N = 16 := N_2
  let f : ℕ → EReal := fun i => if hi : i < 4096 then actV V c ⟨4096 * h + i, by omega⟩ j else 0
  have hcol : ∀ s ∈ Finset.range 8, colS V c (8 * h + s) j = ∑ p ∈ Finset.range 512, f (512 * s + p) := by
    intro s hs
    have hs8 : s < 8 := Finset.mem_range.mp hs
    have hlt : 8 * h + s < cfg2.N := by omega
    rw [colS, dif_pos hlt, Finset.sum_range]
    refine Finset.sum_congr rfl fun p _ => ?_
    have hp : p.val < 512 := p.isLt
    have h1 : 512 * (8 * h + s) + p.val < 8192 := by omega
    rw [ptAct_eq V c ⟨8 * h + s, hlt⟩ p j h1]
    show _ = (if hi : 512 * s + p.val < 4096 then actV V c ⟨4096 * h + (512 * s + p.val), by omega⟩ j else 0)
    rw [dif_pos (by omega)]
    congr 1
    apply Fin.ext
    show 512 * (8 * h + s) + p.val = 4096 * h + (512 * s + p.val)
    omega
  have hb := Region0Arr.sum_range_blocks f 512 8
  rw [show 8 * 512 = 4096 from rfl] at hb
  rw [Finset.sum_congr rfl hcol, ← hb, Finset.sum_range]
  unfold Spec.coreSum
  refine Finset.sum_congr rfl fun i _ => ?_
  show (if hi : i.val < 4096 then actV V c ⟨4096 * h + i.val, by omega⟩ j else 0) = _
  rw [dif_pos i.isLt]
  rfl

theorem halfsumSq (c : Dev nD) (h : ℕ) (hh : h < 2) (j : Fin 512) :
    ∑ s ∈ Finset.range 8, colQ V c (8 * h + s) j = Spec.coreSumSq (actV V c) ⟨h, hh⟩ j := by
  have hN : cfg2.N = 16 := N_2
  let f : ℕ → EReal := fun i =>
    if hi : i < 4096 then actV V c ⟨4096 * h + i, by omega⟩ j * actV V c ⟨4096 * h + i, by omega⟩ j else 0
  have hcol : ∀ s ∈ Finset.range 8, colQ V c (8 * h + s) j = ∑ p ∈ Finset.range 512, f (512 * s + p) := by
    intro s hs
    have hs8 : s < 8 := Finset.mem_range.mp hs
    have hlt : 8 * h + s < cfg2.N := by omega
    rw [colQ, dif_pos hlt, Finset.sum_range]
    refine Finset.sum_congr rfl fun p _ => ?_
    have hp : p.val < 512 := p.isLt
    have h1 : 512 * (8 * h + s) + p.val < 8192 := by omega
    rw [ptAct_eq V c ⟨8 * h + s, hlt⟩ p j h1]
    show _ = (if hi : 512 * s + p.val < 4096 then
      actV V c ⟨4096 * h + (512 * s + p.val), by omega⟩ j * actV V c ⟨4096 * h + (512 * s + p.val), by omega⟩ j else 0)
    rw [dif_pos (by omega)]
    have e : (⟨512 * (8 * h + s) + p.val, h1⟩ : Fin 8192) = ⟨4096 * h + (512 * s + p.val), by omega⟩ :=
      Fin.ext (by show 512 * (8 * h + s) + p.val = 4096 * h + (512 * s + p.val); omega)
    rw [e]
  have hb := Region0Arr.sum_range_blocks f 512 8
  rw [show 8 * 512 = 4096 from rfl] at hb
  rw [Finset.sum_congr rfl hcol, ← hb, Finset.sum_range]
  unfold Spec.coreSumSq
  refine Finset.sum_congr rfl fun i _ => ?_
  show (if hi : i.val < 4096 then
    actV V c ⟨4096 * h + i.val, by omega⟩ j * actV V c ⟨4096 * h + i.val, by omega⟩ j else 0) = _
  rw [dif_pos i.isLt]
  rfl

abbrev G5 (c : Dev nD) : Vec Ideal S8192x512 .bf16 := fun i => actV V c (i 0) (i 1)
abbrev G6 (c : Dev nD) : Vec Ideal S16x512 .f32 := fun i =>
  Spec.coreSum (actV V c) ⟨(i 0).val / 8, by have h : (i 0).val < 16 := (i 0).isLt; omega⟩ (i 1)
abbrev G7 (c : Dev nD) : Vec Ideal S16x512 .f32 := fun i =>
  Spec.coreSumSq (actV V c) ⟨(i 0).val / 8, by have h : (i 0).val < 16 := (i 0).isLt; omega⟩ (i 1)

theorem flushed5_eq (c : Dev nD) (t : Fin cfg2.N) :
    (dat2 V c).flushed 5 t = ((cfg2.win 5).blk t).view.read (Elt Ideal) (G5 V c) := by
  have hN : cfg2.N = 16 := N_2
  obtain ⟨-, -, -, -, -, -, -, -, -, -, e0, e1, -⟩ := idx2 t
  show (cfg2.win 5).cut (grid2.coords t) ((dat2 V c).after 5 t) = _
  rw [after2_5]
  funext y
  obtain ⟨p, j, rfl⟩ : ∃ (p : Fin 512) (j : Fin 512), y = ix2 p j := ⟨y 0, y 1, eq_ix2 y⟩
  have hlt : 512 * t.val + p.val < 8192 := by have := t.isLt; have := p.isLt; omega
  show ((outsAt2 V c t.val t.isLt).1 (ix2 p j) : EReal) = G5 V c (((cfg2.win 5).blk t).view.emb (ix2 p j))
  rw [inv5 V c t.val t.isLt p j, ptAct_eq V c ⟨t.val, t.isLt⟩ p j hlt]
  show actV V c ⟨512 * t.val + p.val, hlt⟩ j
    = actV V c ((((cfg2.win 5).blk t).view.emb (ix2 p j)) 0) ((((cfg2.win 5).blk t).view.emb (ix2 p j)) 1)
  congr 1
  · apply Fin.ext
    show 512 * t.val + p.val = win2_5.index t 0 * 512 + 1 * p.val
    rw [e0]; omega
  · apply Fin.ext
    show j.val = win2_5.index t 1 * 512 + 1 * j.val
    rw [e1]; omega

theorem flushed6_eq (c : Dev nD) (t : Fin cfg2.N) (hf : (cfg2.win 6).flush t = true) :
    (dat2 V c).flushed 6 t = ((cfg2.win 6).blk t).view.read (Elt Ideal) (G6 V c) := by
  have hN : cfg2.N = 16 := N_2
  have h7 : t.val % 8 = 7 := (flush2_6 t).mp hf
  have ht := t.isLt
  obtain ⟨-, -, -, -, -, -, -, -, -, -, -, -, e0, e1, -⟩ := idx2 t
  show (cfg2.win 6).cut (grid2.coords t) ((dat2 V c).after 6 t) = _
  rw [after2_6]
  funext y
  obtain ⟨r, j, rfl⟩ : ∃ (r : Fin 8) (j : Fin 512), y = ix2 r j := ⟨y 0, y 1, eq_ix2 y⟩
  have hr := r.isLt
  show ((outsAt2 V c t.val t.isLt).2.1 (ix2 r j) : EReal) = G6 V c (((cfg2.win 6).blk t).view.emb (ix2 r j))
  rw [inv6 V c t.val t.isLt r j, h7, show t.val - 7 = 8 * (t.val / 8) by omega, halfsum V c (t.val / 8) (by omega) j]
  show Spec.coreSum (actV V c) ⟨t.val / 8, _⟩ j
    = Spec.coreSum (actV V c) ⟨((((cfg2.win 6).blk t).view.emb (ix2 r j)) 0).val / 8, _⟩ ((((cfg2.win 6).blk t).view.emb (ix2 r j)) 1)
  congr 1
  · apply Fin.ext
    show t.val / 8 = (win2_6.index t 0 * 8 + 1 * r.val) / 8
    rw [e0]; omega
  · apply Fin.ext
    show j.val = win2_6.index t 1 * 512 + 1 * j.val
    rw [e1]; omega

theorem flushed7_eq (c : Dev nD) (t : Fin cfg2.N) (hf : (cfg2.win 7).flush t = true) :
    (dat2 V c).flushed 7 t = ((cfg2.win 7).blk t).view.read (Elt Ideal) (G7 V c) := by
  have hN : cfg2.N = 16 := N_2
  have h7 : t.val % 8 = 7 := (flush2_7 t).mp hf
  have ht := t.isLt
  obtain ⟨-, -, -, -, -, -, -, -, -, -, -, -, -, -, e0, e1⟩ := idx2 t
  show (cfg2.win 7).cut (grid2.coords t) ((dat2 V c).after 7 t) = _
  rw [after2_7]
  funext y
  obtain ⟨r, j, rfl⟩ : ∃ (r : Fin 8) (j : Fin 512), y = ix2 r j := ⟨y 0, y 1, eq_ix2 y⟩
  have hr := r.isLt
  show ((outsAt2 V c t.val t.isLt).2.2 (ix2 r j) : EReal) = G7 V c (((cfg2.win 7).blk t).view.emb (ix2 r j))
  rw [inv7 V c t.val t.isLt r j, h7, show t.val - 7 = 8 * (t.val / 8) by omega, halfsumSq V c (t.val / 8) (by omega) j]
  show Spec.coreSumSq (actV V c) ⟨t.val / 8, _⟩ j
    = Spec.coreSumSq (actV V c) ⟨((((cfg2.win 7).blk t).view.emb (ix2 r j)) 0).val / 8, _⟩ ((((cfg2.win 7).blk t).view.emb (ix2 r j)) 1)
  congr 1
  · apply Fin.ext
    show t.val / 8 = (win2_7.index t 0 * 8 + 1 * r.val) / 8
    rw [e0]; omega
  · apply Fin.ext
    show j.val = win2_7.index t 1 * 512 + 1 * j.val
    rw [e1]; omega

theorem mem_blk5 (t : Fin cfg2.N) (i : S8192x512.Idx) :
    i ∈ ((cfg2.win 5).blk t).view.set ↔ ∀ a : Fin 2, win2_5.index t a * S512x512.size a ≤ (i a).val ∧ (i a).val < win2_5.index t a * S512x512.size a + S512x512.size a := by
  show i ∈ ((View.whole main_v62_0).slice (win2_5.rect t)).set ↔ _
  rw [View.set_slice_whole, Rect.mem_set_unit]
  exact Iff.rfl

theorem mem_blk6 (t : Fin cfg2.N) (i : S16x512.Idx) :
    i ∈ ((cfg2.win 6).blk t).view.set ↔ ∀ a : Fin 2, win2_6.index t a * S8x512.size a ≤ (i a).val ∧ (i a).val < win2_6.index t a * S8x512.size a + S8x512.size a := by
  show i ∈ ((View.whole main_v62_1).slice (win2_6.rect t)).set ↔ _
  rw [View.set_slice_whole, Rect.mem_set_unit]
  exact Iff.rfl

theorem cover5 (i : S8192x512.Idx) : ∃ t : Fin cfg2.N, (cfg2.win 5).flush t = true ∧ i ∈ ((cfg2.win 5).blk t).view.set := by
  have hN : cfg2.N = 16 := N_2
  have hi0 : (i 0).val < 8192 := (i 0).isLt
  have hi1 : (i 1).val < 512 := (i 1).isLt
  refine ⟨⟨(i 0).val / 512, by omega⟩, flush2_5 _, ?_⟩
  rw [mem_blk5]
  obtain ⟨-, -, -, -, -, -, -, -, -, -, e0, e1, -⟩ := idx2 ⟨(i 0).val / 512, by omega⟩
  intro a
  match a with
  | ⟨0, _⟩ => show win2_5.index _ (0 : Fin 2) * 512 ≤ (i 0).val ∧ (i 0).val < win2_5.index _ (0 : Fin 2) * 512 + 512; rw [e0]; dsimp only; omega
  | ⟨1, _⟩ => show win2_5.index _ (1 : Fin 2) * 512 ≤ (i 1).val ∧ (i 1).val < win2_5.index _ (1 : Fin 2) * 512 + 512; rw [e1]; omega

theorem cover6 (i : S16x512.Idx) : ∃ t : Fin cfg2.N, (cfg2.win 6).flush t = true ∧ i ∈ ((cfg2.win 6).blk t).view.set := by
  have hN : cfg2.N = 16 := N_2
  have hi0 : (i 0).val < 16 := (i 0).isLt
  have hi1 : (i 1).val < 512 := (i 1).isLt
  refine ⟨⟨8 * ((i 0).val / 8) + 7, by omega⟩, (flush2_6 _).mpr (by dsimp only; omega), ?_⟩
  rw [mem_blk6]
  obtain ⟨-, -, -, -, -, -, -, -, -, -, -, -, e0, e1, -⟩ := idx2 ⟨8 * ((i 0).val / 8) + 7, by omega⟩
  intro a
  match a with
  | ⟨0, _⟩ => show win2_6.index _ (0 : Fin 2) * 8 ≤ (i 0).val ∧ (i 0).val < win2_6.index _ (0 : Fin 2) * 8 + 8; rw [e0]; dsimp only; omega
  | ⟨1, _⟩ => show win2_6.index _ (1 : Fin 2) * 512 ≤ (i 1).val ∧ (i 1).val < win2_6.index _ (1 : Fin 2) * 512 + 512; rw [e1]; omega

theorem final5 (c : Dev nD) : (dat2 V c).arrAt 5 cfg2.N = G5 V c :=
  (dat2 V c).arrAt_eq_of_cover 5 (G5 V c) (fun t _ => flushed5_eq V c t) cover5

theorem final6 (c : Dev nD) : (dat2 V c).arrAt 6 cfg2.N = G6 V c :=
  (dat2 V c).arrAt_eq_of_cover 6 (G6 V c) (fun t hf => flushed6_eq V c t hf) cover6

theorem final7 (c : Dev nD) : (dat2 V c).arrAt 7 cfg2.N = G7 V c :=
  (dat2 V c).arrAt_eq_of_cover 7 (G7 V c) (fun t hf => flushed7_eq V c t hf) cover6

end Cert.KernelIdeal.Region2Arr

end
-- ==== Proof.Region2.lean ====
/- The third call's outputs as values: the next layer's activation of the normalised input, and its column sums and sums of squares over each half. -/
import proofs.«426192_j71700184039604_3_alg».proof.Proof.Gen.KernelIdeal.Frame
import proofs.«426192_j71700184039604_3_alg».proof.Proof.Spec
import proofs.«426192_j71700184039604_3_alg».proof.Proof.Region2Arr
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

abbrev aArr (c : Dev nD) : Vec Ideal S8192x256 .bf16 := V c main_v36_0
abbrev scArr (c : Dev nD) : Vec Ideal S1x256 .f32 := V c main_v59
abbrev shArr (c : Dev nD) : Vec Ideal S1x256 .f32 := V c main_v60
abbrev wArr (c : Dev nD) : Vec Ideal S256x512 .bf16 := V c main_v5
abbrev bArr (c : Dev nD) : Vec Ideal S1x512 .f32 := V c main_v61

def aIn (c : Dev nD) : Fin 8192 → Fin 256 → EReal := fun i k => aArr V c (ix2 i k)
def scIn (c : Dev nD) : Fin 256 → EReal := fun k => scArr V c (ix2 0 k)
def shIn (c : Dev nD) : Fin 256 → EReal := fun k => shArr V c (ix2 0 k)
def wIn (c : Dev nD) : Fin 256 → Fin 512 → EReal := fun k j => wArr V c (ix2 k j)
def bIn (c : Dev nD) : Fin 512 → EReal := fun j => bArr V c (ix2 0 j)

def act (c : Dev nD) : Fin 8192 → Fin 512 → EReal :=
  Spec.relu (Spec.lin (Spec.affine (aIn V c) (scIn V c) (shIn V c)) (wIn V c) (bIn V c))

abbrev out5 (c : Dev nD) : Vec Ideal S8192x512 .bf16 := (dat2 V c).arrAt 5 cfg2.N
abbrev out6 (c : Dev nD) : Vec Ideal S16x512 .f32 := (dat2 V c).arrAt 6 cfg2.N
abbrev out7 (c : Dev nD) : Vec Ideal S16x512 .f32 := (dat2 V c).arrAt 7 cfg2.N

theorem act_eq (c : Dev nD) : act V c = Region2Arr.actV V c := rfl

theorem out5_eq (c : Dev nD) (i : Fin 8192) (j : Fin 512) : (out5 V c (ix2 i j) : EReal) = act V c i j := by
  rw [act_eq]
  exact congrFun (Region2Arr.final5 V c) (ix2 i j)

theorem out6_eq (c : Dev nD) (r : Fin 16) (j : Fin 512) :
    (out6 V c (ix2 r j) : EReal) = Spec.coreSum (act V c) ⟨r.val / 8, by have := r.isLt; omega⟩ j := by
  rw [act_eq]
  exact congrFun (Region2Arr.final6 V c) (ix2 r j)

theorem out7_eq (c : Dev nD) (r : Fin 16) (j : Fin 512) :
    (out7 V c (ix2 r j) : EReal) = Spec.coreSumSq (act V c) ⟨r.val / 8, by have := r.isLt; omega⟩ j := by
  rw [act_eq]
  exact congrFun (Region2Arr.final7 V c) (ix2 r j)

end Cert.KernelIdeal.Region2

end
-- ==== Proof.Region3Pay.lean ====
/- The fourth call's body at an index: scale and shift by column, a dense layer with relu, and the row sums added to the running blocks. -/
import proofs.«426192_j71700184039604_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.ValueIdx

namespace Cert.KernelIdeal.Region3Pay

open Cert.KernelIdeal Cert.KernelIdeal.Gen

theorem lhs_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

theorem mm_apply (prec : Option ContractPrecision) (a : FVec Ideal S512x512 .bf16) (b : FVec Ideal S512x1024 .bf16)
    (r : Fin 512) (j : Fin 1024) :
    matmul dot_S512x512_S512x1024_S512x1024_1_0_0_1_n_n prec a b (constant (F := Ideal) S512x1024 .f32 0x00000000#32) (ix2 r j)
      = ∑ k : Fin 512, a (ix2 r k) * b (ix2 k j) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r j) ((contrEquiv1 dot_S512x512_S512x1024_S512x1024_1_0_0_1_n_n 512 rfl rfl).symm k) = ix2 r k := funext fun a => Fin.ext (by
    match a with
    | ⟨0, _⟩ => exact lhs_0 _ _
    | ⟨1, _⟩ => exact (lhs_1 _ _).trans hk)
  have er : dot_S512x512_S512x1024_S512x1024_1_0_0_1_n_n.rhsIdx (ix2 r j) ((contrEquiv1 dot_S512x512_S512x1024_S512x1024_1_0_0_1_n_n 512 rfl rfl).symm k) = ix2 k j := funext fun a => Fin.ext (by
    match a with
    | ⟨0, _⟩ => exact (rhs_0 _ _).trans hk
    | ⟨1, _⟩ => exact rhs_1 _ _)
  rw [el, er]

theorem colsum_apply (e : FVec Ideal S512x1024 .f32) (hr : S512x1024.Reduces [0] S1024) (hφ : FKind.Formats .f32)
    (hacc : (0x00000000#32 : BitVec 32) = 0x00000000#32) (hc : S1024.ShapeCasts S1x1024) (u : Fin 1) (j : Fin 1024) :
    shapeCast S1x1024 (multiReduction .add [0] S1024 e 0x00000000#32 hr hφ hacc) hc (ix2 u j) = ∑ r : Fin 512, e (ix2 r j) := by
  rw [shapeCast_a_1a_apply]
  refine (Ideal.multiReduction_add_single e _ hr hφ hacc (ix1 j)).trans ?_
  refine Finset.sum_congr rfl fun r _ => congrArg e (funext fun a => Fin.ext ?_)
  match a with
  | ⟨0, _⟩ => rfl
  | ⟨1, _⟩ => rfl

def actTerm (v3 : Vec Ideal S512x512 .bf16) (v6 v10 : Vec Ideal S1x512 .f32) (v15 : Vec Ideal S512x1024 .bf16)
    (v18 : Vec Ideal S1x1024 .f32) (r : Fin 512) (j : Fin 1024) : EReal :=
  max ((∑ k : Fin 512, (v3 (ix2 r k) * v6 (ix2 0 k) + v10 (ix2 0 k)) * v15 (ix2 k j)) + v18 (ix2 0 j))
    (Ideal.ofBits .f32 0x00000000#32)

theorem pay4_apply (v3 : Vec Ideal S512x512 .bf16) (v6 v10 : Vec Ideal S1x512 .f32) (v15 : Vec Ideal S512x1024 .bf16)
    (v18 : Vec Ideal S1x1024 .f32) (r : Fin 512) (j : Fin 1024) :
    k3_pay4 (F := Ideal) v3 v6 v10 v15 v18 (ix2 r j) = actTerm v3 v6 v10 v15 v18 r j := by
  unfold k3_pay4 actTerm
  simp only [maximumf_apply, addf_apply, mulf_apply, broadcast_apply, shapeCast_self, mm_apply, broadcastTo_1b_ab_apply,
    truncf_apply, extf_apply]
  rfl

theorem pay5_apply (v3 : Vec Ideal S512x512 .bf16) (v6 v10 : Vec Ideal S1x512 .f32) (v15 : Vec Ideal S512x1024 .bf16)
    (v18 : Vec Ideal S1x1024 .f32) (r : Fin 512) (j : Fin 1024) :
    k3_pay5 (F := Ideal) v3 v6 v10 v15 v18 (ix2 r j) = actTerm v3 v6 v10 v15 v18 r j :=
  pay4_apply v3 v6 v10 v15 v18 r j

theorem pay7_apply (v3 : Vec Ideal S512x512 .bf16) (v6 v10 : Vec Ideal S1x512 .f32) (v15 : Vec Ideal S512x1024 .bf16)
    (v18 : Vec Ideal S1x1024 .f32) (v31 : Vec Ideal S8x1024 .f32) (p : Fin 8) (j : Fin 1024) :
    k3_pay7 (F := Ideal) v3 v6 v10 v15 v18 v31 (ix2 p j)
      = v31 (ix2 p j) + ∑ r : Fin 512, actTerm v3 v6 v10 v15 v18 r j := by
  unfold k3_pay7
  simp only [addf_apply, shapeCast_self, broadcastTo_1b_ab_apply]
  refine congrArg (v31 (ix2 p j) + ·) ((colsum_apply _ _ _ _ _ 0 j).trans ?_)
  exact Finset.sum_congr rfl fun r _ => pay4_apply v3 v6 v10 v15 v18 r j

theorem pay16_apply (v3 : Vec Ideal S512x512 .bf16) (v6 v10 : Vec Ideal S1x512 .f32) (v15 : Vec Ideal S512x1024 .bf16)
    (v18 : Vec Ideal S1x1024 .f32) (v37 : Vec Ideal S8x1024 .f32) (p : Fin 8) (j : Fin 1024) :
    k3_pay1 (F := Ideal) (k3_pay6 v3 v6 v10 v15 v18) v37 (ix2 p j)
      = v37 (ix2 p j) + ∑ r : Fin 512, actTerm v3 v6 v10 v15 v18 r j * actTerm v3 v6 v10 v15 v18 r j := by
  unfold k3_pay1 k3_pay6
  simp only [addf_apply, shapeCast_self, broadcastTo_1b_ab_apply]
  refine congrArg (v37 (ix2 p j) + ·) ((colsum_apply _ _ _ _ _ 0 j).trans ?_)
  refine Finset.sum_congr rfl fun r _ => ?_
  rw [mulf_apply, pay4_apply]

theorem pay2_apply (i : S8x1024.Idx) : k3_pay2 (F := Ideal) i = 0 := by
  show Ideal.ofBits .f32 0x00000000#32 = 0
  exact Ideal.ofBits_zero_f32
theorem pay3_apply (i : S8x1024.Idx) : k3_pay3 (F := Ideal) i = 0 := by
  show Ideal.ofBits .f32 0x00000000#32 = 0
  exact Ideal.ofBits_zero_f32

end Cert.KernelIdeal.Region3Pay

end
-- ==== Proof.Region3Piece.lean ====
/- What one run of the fourth call's body leaves in its output blocks, as the body's arithmetic of the blocks it read. -/
import proofs.«426192_j71700184039604_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Region3Piece

open Cert.KernelIdeal Cert.KernelIdeal.Gen

variable {F : FTy → Type} [FloatOps F]
variable (c : Dev nD) (i : grid3.Coords) (arg2 : Memref sig .tc .vmem S512x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S512x1024 .bf16) (harg7 : arg7.IsWhole) (arg8 : Memref sig .tc .vmem S8x1024 .f32) (harg8 : arg8.IsWhole) (arg9 : Memref sig .tc .vmem S8x1024 .f32) (harg9 : arg9.IsWhole)
variable (x0 : Vec F S512x512 .bf16) (x1 : Vec F S1x512 .f32) (x2 : Vec F S1x512 .f32) (x3 : Vec F S512x1024 .bf16) (x4 : Vec F S1x1024 .f32) (xo6 xo7 : Vec F S8x1024 .f32)

theorem hz : (![0, 0] : Fin 2 → Nat) = fun _ => 0 := funext fun a => by fin_cases a <;> rfl

theorem out_A_5 (hc0 : cond3_0 i) :
    out3_A_5 c i arg2 harg2 arg3 harg3 arg4 harg4 arg5 harg5 arg6 harg6 arg7 harg7 arg8 harg8 arg9 harg9 hc0 x0 x1 x2 x3 x4 = k3_pay5 x0 x1 x2 x3 x4 := by
  unfold out3_A_5
  rw [View.read_writes_eq_canon _ _ _ (cover3_A_5 c i arg2 harg2 arg3 harg3 arg4 harg4 arg5 harg5 arg6 harg6 arg7 harg7 arg8 harg8 arg9 harg9 hc0 x0 x1 x2 x3 x4)]
  unfold kernelRun3_A
  dsimp only
  sl_unfold_words
  rw [View.canon_unit_zero hz]
  simp only [View.readAt_eq_ld, harg2.read_unread, harg3.read_unread, harg4.read_unread, harg5.read_unread, harg6.read_unread, View.ld_unit_zero (S := S512x512) hz, View.ld_unit_zero (S := S1x512) hz, View.ld_unit_zero (S := S512x1024) hz, View.ld_unit_zero (S := S1x1024) hz, View.ld_unit_zero (S := S8x1024) hz]

theorem out_A_6 (hc0 : cond3_0 i) :
    out3_A_6 c i arg2 harg2 arg3 harg3 arg4 harg4 arg5 harg5 arg6 harg6 arg7 harg7 arg8 harg8 arg9 harg9 hc0 x0 x1 x2 x3 x4 = k3_pay7 x0 x1 x2 x3 x4 (k3_pay2 (F := F)) := by
  unfold out3_A_6
  rw [View.read_writes_eq_canon _ _ _ (cover3_A_6 c i arg2 harg2 arg3 harg3 arg4 harg4 arg5 harg5 arg6 harg6 arg7 harg7 arg8 harg8 arg9 harg9 hc0 x0 x1 x2 x3 x4)]
  unfold kernelRun3_A
  dsimp only
  sl_unfold_words
  rw [View.canon_cons_unit_zero (S := S8x1024) hz, View.readCov_unit_zero (S := S8x1024) _ hz]
  simp only [View.readAt_eq_ld, harg2.read_unread, harg3.read_unread, harg4.read_unread, harg5.read_unread, harg6.read_unread, View.ld_unit_zero (S := S512x512) hz, View.ld_unit_zero (S := S1x512) hz, View.ld_unit_zero (S := S512x1024) hz, View.ld_unit_zero (S := S1x1024) hz, View.ld_unit_zero (S := S8x1024) hz]

theorem out_A_7 (hc0 : cond3_0 i) :
    out3_A_7 c i arg2 harg2 arg3 harg3 arg4 harg4 arg5 harg5 arg6 harg6 arg7 harg7 arg8 harg8 arg9 harg9 hc0 x0 x1 x2 x3 x4 = k3_pay1 (k3_pay6 x0 x1 x2 x3 x4) (k3_pay3 (F := F)) := by
  unfold out3_A_7
  rw [View.read_writes_eq_canon _ _ _ (cover3_A_7 c i arg2 harg2 arg3 harg3 arg4 harg4 arg5 harg5 arg6 harg6 arg7 harg7 arg8 harg8 arg9 harg9 hc0 x0 x1 x2 x3 x4)]
  unfold kernelRun3_A
  dsimp only
  sl_unfold_words
  rw [View.canon_cons_unit_zero (S := S8x1024) hz, View.readCov_unit_zero (S := S8x1024) _ hz]
  simp only [View.readAt_eq_ld, harg2.read_unread, harg3.read_unread, harg4.read_unread, harg5.read_unread, harg6.read_unread, View.ld_unit_zero (S := S512x512) hz, View.ld_unit_zero (S := S1x512) hz, View.ld_unit_zero (S := S512x1024) hz, View.ld_unit_zero (S := S1x1024) hz, View.ld_unit_zero (S := S8x1024) hz]

theorem out_B_5 (hc0 : ¬cond3_0 i) :
    out3_B_5 c i arg2 harg2 arg3 harg3 arg4 harg4 arg5 harg5 arg6 harg6 arg7 harg7 arg8 harg8 arg9 harg9 hc0 x0 x1 x2 x3 x4 xo6 xo7 = k3_pay5 x0 x1 x2 x3 x4 := by
  unfold out3_B_5
  rw [View.read_writes_eq_canon _ _ _ (cover3_B_5 c i arg2 harg2 arg3 harg3 arg4 harg4 arg5 harg5 arg6 harg6 arg7 harg7 arg8 harg8 arg9 harg9 hc0 x0 x1 x2 x3 x4 xo6 xo7)]
  unfold kernelRun3_B
  dsimp only
  sl_unfold_words
  rw [View.canon_unit_zero hz]
  simp only [View.readAt_eq_ld, harg2.read_unread, harg3.read_unread, harg4.read_unread, harg5.read_unread, harg6.read_unread, View.ld_unit_zero (S := S512x512) hz, View.ld_unit_zero (S := S1x512) hz, View.ld_unit_zero (S := S512x1024) hz, View.ld_unit_zero (S := S1x1024) hz, View.ld_unit_zero (S := S8x1024) hz]

theorem out_B_6 (hc0 : ¬cond3_0 i) :
    out3_B_6 c i arg2 harg2 arg3 harg3 arg4 harg4 arg5 harg5 arg6 harg6 arg7 harg7 arg8 harg8 arg9 harg9 hc0 x0 x1 x2 x3 x4 xo6 xo7 = k3_pay7 x0 x1 x2 x3 x4 xo6 := by
  unfold out3_B_6
  rw [View.read_writes_eq_canon _ _ _ (cover3_B_6 c i arg2 harg2 arg3 harg3 arg4 harg4 arg5 harg5 arg6 harg6 arg7 harg7 arg8 harg8 arg9 harg9 hc0 x0 x1 x2 x3 x4 xo6 xo7)]
  unfold kernelRun3_B
  dsimp only
  sl_unfold_words
  rw [View.canon_unit_zero hz]
  simp only [View.readAt_eq_ld, harg2.read_unread, harg3.read_unread, harg4.read_unread, harg5.read_unread, harg6.read_unread, harg8.read_unread, View.ld_unit_zero (S := S512x512) hz, View.ld_unit_zero (S := S1x512) hz, View.ld_unit_zero (S := S512x1024) hz, View.ld_unit_zero (S := S1x1024) hz, View.ld_unit_zero (S := S8x1024) hz]

theorem out_B_7 (hc0 : ¬cond3_0 i) :
    out3_B_7 c i arg2 harg2 arg3 harg3 arg4 harg4 arg5 harg5 arg6 harg6 arg7 harg7 arg8 harg8 arg9 harg9 hc0 x0 x1 x2 x3 x4 xo6 xo7 = k3_pay1 (k3_pay6 x0 x1 x2 x3 x4) xo7 := by
  unfold out3_B_7
  rw [View.read_writes_eq_canon _ _ _ (cover3_B_7 c i arg2 harg2 arg3 harg3 arg4 harg4 arg5 harg5 arg6 harg6 arg7 harg7 arg8 harg8 arg9 harg9 hc0 x0 x1 x2 x3 x4 xo6 xo7)]
  unfold kernelRun3_B
  dsimp only
  sl_unfold_words
  rw [View.canon_unit_zero hz]
  simp only [View.readAt_eq_ld, harg2.read_unread, harg3.read_unread, harg4.read_unread, harg5.read_unread, harg6.read_unread, harg9.read_unread, View.ld_unit_zero (S := S512x512) hz, View.ld_unit_zero (S := S1x512) hz, View.ld_unit_zero (S := S512x1024) hz, View.ld_unit_zero (S := S1x1024) hz, View.ld_unit_zero (S := S8x1024) hz]

end Cert.KernelIdeal.Region3Piece

end
-- ==== Proof.Region4Blk.lean ====
/- The last call's blocks by coordinates: row-blocked inputs are rows 512·t … 512·t + 511, the others whole; eight runs of 512 rows are one run of 4096. -/
import proofs.«426192_j71700184039604_3_alg».proof.Proof.Gen.KernelIdeal.Frame
import Idealize.ShloMosaic.Lib.ValueIdx
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx

namespace Cert.KernelIdeal.Region4Blk

open Cert.KernelIdeal Cert.KernelIdeal.Gen

variable (V : (c : Dev nD) → (b : Ref sig .tc) → Buf (Elt Ideal) ((c : Thread nD τ).loc b))

def rowN (n : ℕ) : Fin 8192 := ⟨n % 8192, Nat.mod_lt _ (by decide)⟩

theorem rowN_val {n : ℕ} (h : n < 8192) : (rowN n).val = n := Nat.mod_eq_of_lt h

theorem idx_rows : ∀ t : Fin cfg4.N, (win4_0.index t 0 = t.val ∧ win4_0.index t 1 = 0) ∧ (win4_5.index t 0 = t.val ∧ win4_5.index t 1 = 0)
    ∧ (win4_6.index t 0 = t.val ∧ win4_6.index t 1 = 0) ∧ (win4_9.index t 0 = t.val ∧ win4_9.index t 1 = 0) :=
  (by decide +kernel : ∀ t : Fin grid4.N, _)

theorem idx_whole : ∀ t : Fin cfg4.N, (win4_1.index t 0 = 0 ∧ win4_1.index t 1 = 0) ∧ (win4_2.index t 0 = 0 ∧ win4_2.index t 1 = 0)
    ∧ (win4_3.index t 0 = 0 ∧ win4_3.index t 1 = 0) ∧ (win4_4.index t 0 = 0 ∧ win4_4.index t 1 = 0)
    ∧ (win4_7.index t 0 = 0 ∧ win4_7.index t 1 = 0) ∧ (win4_8.index t 0 = 0 ∧ win4_8.index t 1 = 0)
    ∧ (win4_10.index t 0 = 0 ∧ win4_10.index t 1 = 0) :=
  (by decide +kernel : ∀ t : Fin grid4.N, _)

theorem idx_out : ∀ t : Fin cfg4.N, (win4_11.index t 0 = t.val / 8 ∧ win4_11.index t 1 = 0)
    ∧ (win4_12.index t 0 = t.val / 8 ∧ win4_12.index t 1 = 0) :=
  (by decide +kernel : ∀ t : Fin grid4.N, _)

theorem blk0_apply (c : Dev nD) (t : Fin cfg4.N) (r : Fin 512) (k : Fin 1024) :
    (iblk4 V c 0 t : Vec Ideal S512x1024 .bf16) (ix2 r k)
      = (V c main_v88_0 : Vec Ideal S8192x1024 .bf16) (ix2 (rowN (512 * t.val + r.val)) k) := by
  have hi := (idx_rows t).1
  have hN : cfg4.N = 16 := N_4
  have ht := t.isLt
  unfold iblk4
  rw [View.read_apply]
  show V c main_v88_0 _ = V c main_v88_0 _
  congr 1
  funext a
  apply Fin.ext
  match a with
  | ⟨0, _⟩ => show win4_0.index t 0 * 512 + 1 * r.val = (512 * t.val + r.val) % 8192; rw [hi.1, Nat.mod_eq_of_lt (by omega)]; omega
  | ⟨1, _⟩ => show win4_0.index t 1 * 1024 + 1 * k.val = k.val; rw [hi.2]; omega

theorem blk1_apply (c : Dev nD) (t : Fin cfg4.N) (r : Fin 1) (k : Fin 1024) :
    (iblk4 V c 1 t : Vec Ideal S1x1024 .f32) (ix2 r k) = (V c main_v111 : Vec Ideal S1x1024 .f32) (ix2 r k) := by
  have hi := (idx_whole t).1
  unfold iblk4
  rw [View.read_apply]
  show V c main_v111 _ = V c main_v111 _
  congr 1
  funext a
  apply Fin.ext
  match a with
  | ⟨0, _⟩ => show win4_1.index t 0 * 1 + 1 * r.val = r.val; rw [hi.1]; omega
  | ⟨1, _⟩ => show win4_1.index t 1 * 1024 + 1 * k.val = k.val; rw [hi.2]; omega

theorem blk2_apply (c : Dev nD) (t : Fin cfg4.N) (r : Fin 1) (k : Fin 1024) :
    (iblk4 V c 2 t : Vec Ideal S1x1024 .f32) (ix2 r k) = (V c main_v112 : Vec Ideal S1x1024 .f32) (ix2 r k) := by
  have hi := (idx_whole t).2.1
  unfold iblk4
  rw [View.read_apply]
  show V c main_v112 _ = V c main_v112 _
  congr 1
  funext a
  apply Fin.ext
  match a with
  | ⟨0, _⟩ => show win4_2.index t 0 * 1 + 1 * r.val = r.val; rw [hi.1]; omega
  | ⟨1, _⟩ => show win4_2.index t 1 * 1024 + 1 * k.val = k.val; rw [hi.2]; omega

theorem blk3_apply (c : Dev nD) (t : Fin cfg4.N) (r : Fin 1024) (k : Fin 2048) :
    (iblk4 V c 3 t : Vec Ideal S1024x2048 .bf16) (ix2 r k) = (V c main_v7 : Vec Ideal S1024x2048 .bf16) (ix2 r k) := by
  have hi := (idx_whole t).2.2.1
  unfold iblk4
  rw [View.read_apply]
  show V c main_v7 _ = V c main_v7 _
  congr 1
  funext a
  apply Fin.ext
  match a with
  | ⟨0, _⟩ => show win4_3.index t 0 * 1024 + 1 * r.val = r.val; rw [hi.1]; omega
  | ⟨1, _⟩ => show win4_3.index t 1 * 2048 + 1 * k.val = k.val; rw [hi.2]; omega

theorem blk4_apply (c : Dev nD) (t : Fin cfg4.N) (r : Fin 1) (k : Fin 2048) :
    (iblk4 V c 4 t : Vec Ideal S1x2048 .f32) (ix2 r k) = (V c main_v113 : Vec Ideal S1x2048 .f32) (ix2 r k) := by
  have hi := (idx_whole t).2.2.2.1
  unfold iblk4
  rw [View.read_apply]
  show V c main_v113 _ = V c main_v113 _
  congr 1
  funext a
  apply Fin.ext
  match a with
  | ⟨0, _⟩ => show win4_4.index t 0 * 1 + 1 * r.val = r.val; rw [hi.1]; omega
  | ⟨1, _⟩ => show win4_4.index t 1 * 2048 + 1 * k.val = k.val; rw [hi.2]; omega

theorem blk5_apply (c : Dev nD) (t : Fin cfg4.N) (r : Fin 512) (k : Fin 2048) :
    (iblk4 V c 5 t : Vec Ideal S512x2048 .f32) (ix2 r k)
      = (V c main_arg0 : Vec Ideal S8192x2048 .f32) (ix2 (rowN (512 * t.val + r.val)) k) := by
  have hi := (idx_rows t).2.1
  have hN : cfg4.N = 16 := N_4
  have ht := t.isLt
  unfold iblk4
  rw [View.read_apply]
  show V c main_arg0 _ = V c main_arg0 _
  congr 1
  funext a
  apply Fin.ext
  match a with
  | ⟨0, _⟩ => show win4_5.index t 0 * 512 + 1 * r.val = (512 * t.val + r.val) % 8192; rw [hi.1, Nat.mod_eq_of_lt (by omega)]; omega
  | ⟨1, _⟩ => show win4_5.index t 1 * 2048 + 1 * k.val = k.val; rw [hi.2]; omega

theorem blk6_apply (c : Dev nD) (t : Fin cfg4.N) (r : Fin 512) (k : Fin 256) :
    (iblk4 V c 6 t : Vec Ideal S512x256 .bf16) (ix2 r k)
      = (V c main_v36_0 : Vec Ideal S8192x256 .bf16) (ix2 (rowN (512 * t.val + r.val)) k) := by
  have hi := (idx_rows t).2.2.1
  have hN : cfg4.N = 16 := N_4
  have ht := t.isLt
  unfold iblk4
  rw [View.read_apply]
  show V c main_v36_0 _ = V c main_v36_0 _
  congr 1
  funext a
  apply Fin.ext
  match a with
  | ⟨0, _⟩ => show win4_6.index t 0 * 512 + 1 * r.val = (512 * t.val + r.val) % 8192; rw [hi.1, Nat.mod_eq_of_lt (by omega)]; omega
  | ⟨1, _⟩ => show win4_6.index t 1 * 256 + 1 * k.val = k.val; rw [hi.2]; omega

theorem blk7_apply (c : Dev nD) (t : Fin cfg4.N) (r : Fin 1) (k : Fin 256) :
    (iblk4 V c 7 t : Vec Ideal S1x256 .f32) (ix2 r k) = (V c main_v114 : Vec Ideal S1x256 .f32) (ix2 r k) := by
  have hi := (idx_whole t).2.2.2.2.1
  unfold iblk4
  rw [View.read_apply]
  show V c main_v114 _ = V c main_v114 _
  congr 1
  funext a
  apply Fin.ext
  match a with
  | ⟨0, _⟩ => show win4_7.index t 0 * 1 + 1 * r.val = r.val; rw [hi.1]; omega
  | ⟨1, _⟩ => show win4_7.index t 1 * 256 + 1 * k.val = k.val; rw [hi.2]; omega

theorem blk8_apply (c : Dev nD) (t : Fin cfg4.N) (r : Fin 1) (k : Fin 256) :
    (iblk4 V c 8 t : Vec Ideal S1x256 .f32) (ix2 r k) = (V c main_v115 : Vec Ideal S1x256 .f32) (ix2 r k) := by
  have hi := (idx_whole t).2.2.2.2.2.1
  unfold iblk4
  rw [View.read_apply]
  show V c main_v115 _ = V c main_v115 _
  congr 1
  funext a
  apply Fin.ext
  match a with
  | ⟨0, _⟩ => show win4_8.index t 0 * 1 + 1 * r.val = r.val; rw [hi.1]; omega
  | ⟨1, _⟩ => show win4_8.index t 1 * 256 + 1 * k.val = k.val; rw [hi.2]; omega

theorem blk9_apply (c : Dev nD) (t : Fin cfg4.N) (r : Fin 512) (k : Fin 1) :
    (iblk4 V c 9 t : Vec Ideal S512x1 .i32) (ix2 r k)
      = (V c main_v1 : Vec Ideal S8192x1 .i32) (ix2 (rowN (512 * t.val + r.val)) k) := by
  have hi := (idx_rows t).2.2.2
  have hN : cfg4.N = 16 := N_4
  have ht := t.isLt
  unfold iblk4
  rw [View.read_apply]
  show V c main_v1 _ = V c main_v1 _
  congr 1
  funext a
  apply Fin.ext
  match a with
  | ⟨0, _⟩ => show win4_9.index t 0 * 512 + 1 * r.val = (512 * t.val + r.val) % 8192; rw [hi.1, Nat.mod_eq_of_lt (by omega)]; omega
  | ⟨1, _⟩ => show win4_9.index t 1 * 1 + 1 * k.val = k.val; rw [hi.2]; omega

theorem blk10_apply (c : Dev nD) (t : Fin cfg4.N) (r : Fin 64) (k : Fin 256) :
    (iblk4 V c 10 t : Vec Ideal S64x256 .f32) (ix2 r k) = (V c main_arg2 : Vec Ideal S64x256 .f32) (ix2 r k) := by
  have hi := (idx_whole t).2.2.2.2.2.2
  unfold iblk4
  rw [View.read_apply]
  show V c main_arg2 _ = V c main_arg2 _
  congr 1
  funext a
  apply Fin.ext
  match a with
  | ⟨0, _⟩ => show win4_10.index t 0 * 64 + 1 * r.val = r.val; rw [hi.1]; omega
  | ⟨1, _⟩ => show win4_10.index t 1 * 256 + 1 * k.val = k.val; rw [hi.2]; omega

theorem sum_blocks {M : Type*} [AddCommMonoid M] (f : ℕ → M) (q : ℕ) :
    ∑ s ∈ Finset.range 8, ∑ r : Fin 512, f (512 * (8 * q + s) + r.val) = ∑ i : Fin 4096, f (4096 * q + i.val) := by
  rw [Finset.sum_range fun s => ∑ r : Fin 512, f (512 * (8 * q + s) + r.val)]
  rw [← Fintype.sum_prod_type (f := fun p : Fin 8 × Fin 512 => f (512 * (8 * q + p.1.val) + p.2.val))]
  rw [← Equiv.sum_comp (finProdFinEquiv (m := 8) (n := 512)) (fun i : Fin (8 * 512) => f (4096 * q + i.val))]
  refine Fintype.sum_congr _ _ fun p => ?_
  obtain ⟨s, r⟩ := p
  show f (512 * (8 * q + s.val) + r.val) = f (4096 * q + (finProdFinEquiv (s, r)).val)
  congr 1
  simp only [finProdFinEquiv_apply_val]
  omega

/-- A quantity that restarts at every eighth point and otherwise adds to what the point before left is the sum of its group's terms so far. -/
theorem sum_of_steps {N : ℕ} (x : ∀ n, n < N → EReal) (f : ℕ → EReal) (hA : ∀ n h, n % 8 = 0 → x n h = f n)
    (hB : ∀ n h, ¬n % 8 = 0 → x n h = x (n - 1) (Nat.lt_of_le_of_lt (Nat.sub_le _ _) h) + f n) :
    ∀ n h, x n h = ∑ s ∈ Finset.range (n % 8 + 1), f (8 * (n / 8) + s)
  | 0, h => by
    rw [hA 0 h rfl]
    simp
  | n + 1, h => by
    by_cases h0 : (n + 1) % 8 = 0
    · rw [hA _ h h0, h0, Finset.sum_range_one]
      congr 1; omega
    · rw [hB _ h h0]
      show x n _ + f (n + 1) = _
      rw [sum_of_steps x f hA hB n (Nat.lt_of_succ_lt h)]
      have e1 : (n + 1) % 8 = n % 8 + 1 := by omega
      have e2 : (n + 1) / 8 = n / 8 := by omega
      rw [e1, e2, Finset.sum_range_succ _ (n % 8 + 1)]
      congr 2; omega

end Cert.KernelIdeal.Region4Blk

end
-- ==== Proof.Region3Blk.lean ====
/- The fourth call's blocks by coordinates: the input's block t is rows 512·t … 512·t + 511, every other input is read whole. -/
import proofs.«426192_j71700184039604_3_alg».proof.Proof.Gen.KernelIdeal.Frame
import proofs.«426192_j71700184039604_3_alg».proof.Proof.Region4Blk
import Idealize.ShloMosaic.Lib.ValueIdx
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx

namespace Cert.KernelIdeal.Region3Blk

open Cert.KernelIdeal Cert.KernelIdeal.Gen
open Cert.KernelIdeal.Region4Blk (rowN)

variable (V : (c : Dev nD) → (b : Ref sig .tc) → Buf (Elt Ideal) ((c : Thread nD τ).loc b))

theorem idx_in : ∀ t : Fin cfg3.N, (win3_0.index t 0 = t.val ∧ win3_0.index t 1 = 0) ∧ (win3_1.index t 0 = 0 ∧ win3_1.index t 1 = 0)
    ∧ (win3_2.index t 0 = 0 ∧ win3_2.index t 1 = 0) ∧ (win3_3.index t 0 = 0 ∧ win3_3.index t 1 = 0)
    ∧ (win3_4.index t 0 = 0 ∧ win3_4.index t 1 = 0) :=
  (by decide +kernel : ∀ t : Fin grid3.N, _)

theorem idx_out : ∀ t : Fin cfg3.N, (win3_5.index t 0 = t.val ∧ win3_5.index t 1 = 0)
    ∧ (win3_6.index t 0 = t.val / 8 ∧ win3_6.index t 1 = 0) ∧ (win3_7.index t 0 = t.val / 8 ∧ win3_7.index t 1 = 0) :=
  (by decide +kernel : ∀ t : Fin grid3.N, _)

theorem blk0_apply (c : Dev nD) (t : Fin cfg3.N) (r : Fin 512) (k : Fin 512) :
    (iblk3 V c 0 t : Vec Ideal S512x512 .bf16) (ix2 r k)
      = (V c main_v62_0 : Vec Ideal S8192x512 .bf16) (ix2 (rowN (512 * t.val + r.val)) k) := by
  have hi := (idx_in t).1
  have hN : cfg3.N = 16 := N_3
  have ht := t.isLt
  unfold iblk3
  rw [View.read_apply]
  show V c main_v62_0 _ = V c main_v62_0 _
  congr 1
  funext a
  apply Fin.ext
  match a with
  | ⟨0, _⟩ => show win3_0.index t 0 * 512 + 1 * r.val = (512 * t.val + r.val) % 8192; rw [hi.1, Nat.mod_eq_of_lt (by omega)]; omega
  | ⟨1, _⟩ => show win3_0.index t 1 * 512 + 1 * k.val = k.val; rw [hi.2]; omega

theorem blk1_apply (c : Dev nD) (t : Fin cfg3.N) (r : Fin 1) (k : Fin 512) :
    (iblk3 V c 1 t : Vec Ideal S1x512 .f32) (ix2 r k) = (V c main_v85 : Vec Ideal S1x512 .f32) (ix2 r k) := by
  have hi := (idx_in t).2.1
  unfold iblk3
  rw [View.read_apply]
  show V c main_v85 _ = V c main_v85 _
  congr 1
  funext a
  apply Fin.ext
  match a with
  | ⟨0, _⟩ => show win3_1.index t 0 * 1 + 1 * r.val = r.val; rw [hi.1]; omega
  | ⟨1, _⟩ => show win3_1.index t 1 * 512 + 1 * k.val = k.val; rw [hi.2]; omega

theorem blk2_apply (c : Dev nD) (t : Fin cfg3.N) (r : Fin 1) (k : Fin 512) :
    (iblk3 V c 2 t : Vec Ideal S1x512 .f32) (ix2 r k) = (V c main_v86 : Vec Ideal S1x512 .f32) (ix2 r k) := by
  have hi := (idx_in t).2.2.1
  unfold iblk3
  rw [View.read_apply]
  show V c main_v86 _ = V c main_v86 _
  congr 1
  funext a
  apply Fin.ext
  match a with
  | ⟨0, _⟩ => show win3_2.index t 0 * 1 + 1 * r.val = r.val; rw [hi.1]; omega
  | ⟨1, _⟩ => show win3_2.index t 1 * 512 + 1 * k.val = k.val; rw [hi.2]; omega

theorem blk3_apply (c : Dev nD) (t : Fin cfg3.N) (r : Fin 512) (k : Fin 1024) :
    (iblk3 V c 3 t : Vec Ideal S512x1024 .bf16) (ix2 r k) = (V c main_v6 : Vec Ideal S512x1024 .bf16) (ix2 r k) := by
  have hi := (idx_in t).2.2.2.1
  unfold iblk3
  rw [View.read_apply]
  show V c main_v6 _ = V c main_v6 _
  congr 1
  funext a
  apply Fin.ext
  match a with
  | ⟨0, _⟩ => show win3_3.index t 0 * 512 + 1 * r.val = r.val; rw [hi.1]; omega
  | ⟨1, _⟩ => show win3_3.index t 1 * 1024 + 1 * k.val = k.val; rw [hi.2]; omega

theorem blk4_apply (c : Dev nD) (t : Fin cfg3.N) (r : Fin 1) (k : Fin 1024) :
    (iblk3 V c 4 t : Vec Ideal S1x1024 .f32) (ix2 r k) = (V c main_v87 : Vec Ideal S1x1024 .f32) (ix2 r k) := by
  have hi := (idx_in t).2.2.2.2
  unfold iblk3
  rw [View.read_apply]
  show V c main_v87 _ = V c main_v87 _
  congr 1
  funext a
  apply Fin.ext
  match a with
  | ⟨0, _⟩ => show win3_4.index t 0 * 1 + 1 * r.val = r.val; rw [hi.1]; omega
  | ⟨1, _⟩ => show win3_4.index t 1 * 1024 + 1 * k.val = k.val; rw [hi.2]; omega

end Cert.KernelIdeal.Region3Blk

end
-- ==== Proof.Region3.lean ====
/- The fourth call's outputs as values: the next layer's activation of the normalised input, and its column sums and sums of squares over each half. -/
import proofs.«426192_j71700184039604_3_alg».proof.Proof.Gen.KernelIdeal.Frame
import proofs.«426192_j71700184039604_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic
import proofs.«426192_j71700184039604_3_alg».proof.Proof.Region3Pay
import proofs.«426192_j71700184039604_3_alg».proof.Proof.Region3Piece
import proofs.«426192_j71700184039604_3_alg».proof.Proof.Region3Blk

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen

variable (V : (c : Dev nD) → (b : Ref sig .tc) → Buf (Elt Ideal) ((c : Thread nD τ).loc b))

abbrev aArr (c : Dev nD) : Vec Ideal S8192x512 .bf16 := V c main_v62_0
abbrev scArr (c : Dev nD) : Vec Ideal S1x512 .f32 := V c main_v85
abbrev shArr (c : Dev nD) : Vec Ideal S1x512 .f32 := V c main_v86
abbrev wArr (c : Dev nD) : Vec Ideal S512x1024 .bf16 := V c main_v6
abbrev bArr (c : Dev nD) : Vec Ideal S1x1024 .f32 := V c main_v87

def aIn (c : Dev nD) : Fin 8192 → Fin 512 → EReal := fun i k => aArr V c (ix2 i k)
def scIn (c : Dev nD) : Fin 512 → EReal := fun k => scArr V c (ix2 0 k)
def shIn (c : Dev nD) : Fin 512 → EReal := fun k => shArr V c (ix2 0 k)
def wIn (c : Dev nD) : Fin 512 → Fin 1024 → EReal := fun k j => wArr V c (ix2 k j)
def bIn (c : Dev nD) : Fin 1024 → EReal := fun j => bArr V c (ix2 0 j)

def act (c : Dev nD) : Fin 8192 → Fin 1024 → EReal :=
  Spec.relu (Spec.lin (Spec.affine (aIn V c) (scIn V c) (shIn V c)) (wIn V c) (bIn V c))

abbrev out5 (c : Dev nD) : Vec Ideal S8192x1024 .bf16 := (dat3 V c).arrAt 5 cfg3.N
abbrev out6 (c : Dev nD) : Vec Ideal S16x1024 .f32 := (dat3 V c).arrAt 6 cfg3.N
abbrev out7 (c : Dev nD) : Vec Ideal S16x1024 .f32 := (dat3 V c).arrAt 7 cfg3.N

open Cert.KernelIdeal.Region4Blk (rowN)

theorem point (c : Dev nD) (t : Fin cfg3.N) (r : Fin 512) (j : Fin 1024) :
    Region3Pay.actTerm (iblk3 V c 0 t) (iblk3 V c 1 t) (iblk3 V c 2 t) (iblk3 V c 3 t) (iblk3 V c 4 t) r j = act V c (rowN (512 * t.val + r.val)) j := by
  unfold Region3Pay.actTerm act Spec.relu Spec.lin Spec.affine aIn scIn shIn wIn bIn
  simp only [Region3Blk.blk0_apply V c t, Region3Blk.blk1_apply V c t, Region3Blk.blk2_apply V c t, Region3Blk.blk3_apply V c t,
    Region3Blk.blk4_apply V c t]

def add6 (c : Dev nD) (n : ℕ) (j : Fin 1024) : EReal := ∑ r : Fin 512, act V c (rowN (512 * n + r.val)) j
def add7 (c : Dev nD) (n : ℕ) (j : Fin 1024) : EReal :=
  ∑ r : Fin 512, act V c (rowN (512 * n + r.val)) j * act V c (rowN (512 * n + r.val)) j

theorem point5 (c : Dev nD) (t : Fin cfg3.N) (r : Fin 512) (j : Fin 1024) :
    ((outsAt3 V c t.val t.isLt).1 (ix2 r j) : EReal) = act V c (rowN (512 * t.val + r.val)) j := by
  by_cases h0 : t.val % 8 = 0
  · rw [outsAt3_A V c t h0]
    dsimp only
    refine (congrFun (Region3Piece.out_A_5 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (iblk3 V c 0 t) (iblk3 V c 1 t) (iblk3 V c 2 t) (iblk3 V c 3 t) (iblk3 V c 4 t) ((hcond3_0 t).mpr h0)) (ix2 r j)).trans ?_
    exact (Region3Pay.pay5_apply (iblk3 V c 0 t) (iblk3 V c 1 t) (iblk3 V c 2 t) (iblk3 V c 3 t) (iblk3 V c 4 t) r j).trans (point V c t r j)
  · rw [outsAt3_B V c t h0]
    dsimp only
    refine (congrFun (Region3Piece.out_B_5 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2 (fun h => h0 ((hcond3_0 t).mp h))) (ix2 r j)).trans ?_
    exact (Region3Pay.pay5_apply (iblk3 V c 0 t) (iblk3 V c 1 t) (iblk3 V c 2 t) (iblk3 V c 3 t) (iblk3 V c 4 t) r j).trans (point V c t r j)

theorem stepA6 (c : Dev nD) (t : Fin cfg3.N) (h0 : t.val % 8 = 0) (p : Fin 8) (j : Fin 1024) :
    ((outsAt3 V c t.val t.isLt).2.1 (ix2 p j) : EReal) = add6 V c t.val j := by
  rw [outsAt3_A V c t h0]
  dsimp only
  refine (congrFun (Region3Piece.out_A_6 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (iblk3 V c 0 t) (iblk3 V c 1 t) (iblk3 V c 2 t) (iblk3 V c 3 t) (iblk3 V c 4 t) ((hcond3_0 t).mpr h0)) (ix2 p j)).trans ?_
  refine (Region3Pay.pay7_apply (iblk3 V c 0 t) (iblk3 V c 1 t) (iblk3 V c 2 t) (iblk3 V c 3 t) (iblk3 V c 4 t) (k3_pay2 (F := Ideal)) p j).trans ?_
  rw [Region3Pay.pay2_apply, zero_add]
  exact Finset.sum_congr rfl fun r _ => point V c t r j

theorem stepA7 (c : Dev nD) (t : Fin cfg3.N) (h0 : t.val % 8 = 0) (p : Fin 8) (j : Fin 1024) :
    ((outsAt3 V c t.val t.isLt).2.2 (ix2 p j) : EReal) = add7 V c t.val j := by
  rw [outsAt3_A V c t h0]
  dsimp only
  refine (congrFun (Region3Piece.out_A_7 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (iblk3 V c 0 t) (iblk3 V c 1 t) (iblk3 V c 2 t) (iblk3 V c 3 t) (iblk3 V c 4 t) ((hcond3_0 t).mpr h0)) (ix2 p j)).trans ?_
  refine (Region3Pay.pay16_apply (iblk3 V c 0 t) (iblk3 V c 1 t) (iblk3 V c 2 t) (iblk3 V c 3 t) (iblk3 V c 4 t) (k3_pay3 (F := Ideal)) p j).trans ?_
  rw [Region3Pay.pay3_apply, zero_add]
  exact Finset.sum_congr rfl fun r _ => by rw [point V c t r j]

theorem stepB6 (c : Dev nD) (t : Fin cfg3.N) (h0 : ¬t.val % 8 = 0) (p : Fin 8) (j : Fin 1024) :
    ((outsAt3 V c t.val t.isLt).2.1 (ix2 p j) : EReal) = ((outsAt3 V c (t.val - 1) (Nat.lt_of_le_of_lt (Nat.sub_le _ _) t.isLt)).2.1 (ix2 p j) : EReal) + add6 V c t.val j := by
  rw [outsAt3_B V c t h0]
  dsimp only
  refine (congrFun (Region3Piece.out_B_6 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2 (fun h => h0 ((hcond3_0 t).mp h))) (ix2 p j)).trans ?_
  refine (Region3Pay.pay7_apply (iblk3 V c 0 t) (iblk3 V c 1 t) (iblk3 V c 2 t) (iblk3 V c 3 t) (iblk3 V c 4 t) (outsAt3 V c (t.val - 1) (Nat.lt_of_le_of_lt (Nat.sub_le _ _) t.isLt)).2.1 p j).trans ?_
  exact congrArg (_ + ·) (Finset.sum_congr rfl fun r _ => point V c t r j)

theorem stepB7 (c : Dev nD) (t : Fin cfg3.N) (h0 : ¬t.val % 8 = 0) (p : Fin 8) (j : Fin 1024) :
    ((outsAt3 V c t.val t.isLt).2.2 (ix2 p j) : EReal) = ((outsAt3 V c (t.val - 1) (Nat.lt_of_le_of_lt (Nat.sub_le _ _) t.isLt)).2.2 (ix2 p j) : EReal) + add7 V c t.val j := by
  rw [outsAt3_B V c t h0]
  dsimp only
  refine (congrFun (Region3Piece.out_B_7 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2 (fun h => h0 ((hcond3_0 t).mp h))) (ix2 p j)).trans ?_
  refine (Region3Pay.pay16_apply (iblk3 V c 0 t) (iblk3 V c 1 t) (iblk3 V c 2 t) (iblk3 V c 3 t) (iblk3 V c 4 t) (outsAt3 V c (t.val - 1) (Nat.lt_of_le_of_lt (Nat.sub_le _ _) t.isLt)).2.2 p j).trans ?_
  exact congrArg (_ + ·) (Finset.sum_congr rfl fun r _ => by rw [point V c t r j])

theorem inv6 (c : Dev nD) (p : Fin 8) (j : Fin 1024) : ∀ (n : ℕ) (h : n < cfg3.N),
    ((outsAt3 V c n h).2.1 (ix2 p j) : EReal) = ∑ s ∈ Finset.range (n % 8 + 1), add6 V c (8 * (n / 8) + s) j :=
  Region4Blk.sum_of_steps (fun n h => ((outsAt3 V c n h).2.1 (ix2 p j) : EReal)) (fun n => add6 V c n j)
    (fun n h h0 => stepA6 V c ⟨n, h⟩ h0 p j) (fun n h h0 => stepB6 V c ⟨n, h⟩ h0 p j)

theorem inv7 (c : Dev nD) (p : Fin 8) (j : Fin 1024) : ∀ (n : ℕ) (h : n < cfg3.N),
    ((outsAt3 V c n h).2.2 (ix2 p j) : EReal) = ∑ s ∈ Finset.range (n % 8 + 1), add7 V c (8 * (n / 8) + s) j :=
  Region4Blk.sum_of_steps (fun n h => ((outsAt3 V c n h).2.2 (ix2 p j) : EReal)) (fun n => add7 V c n j)
    (fun n h h0 => stepA7 V c ⟨n, h⟩ h0 p j) (fun n h h0 => stepB7 V c ⟨n, h⟩ h0 p j)

theorem half6 (c : Dev nD) (k : Fin 2) (j : Fin 1024) :
    ∑ s ∈ Finset.range 8, add6 V c (8 * k.val + s) j = Spec.coreSum (act V c) k j := by
  unfold add6 Spec.coreSum
  rw [Region4Blk.sum_blocks (fun n => act V c (rowN n) j) k.val]
  refine Finset.sum_congr rfl fun i _ => ?_
  have e : rowN (4096 * k.val + i.val) = Spec.coreRow k i :=
    Fin.ext (Region4Blk.rowN_val (by have := k.isLt; have := i.isLt; omega))
  rw [e]

theorem half7 (c : Dev nD) (k : Fin 2) (j : Fin 1024) :
    ∑ s ∈ Finset.range 8, add7 V c (8 * k.val + s) j = Spec.coreSumSq (act V c) k j := by
  unfold add7 Spec.coreSumSq
  rw [Region4Blk.sum_blocks (fun n => act V c (rowN n) j * act V c (rowN n) j) k.val]
  refine Finset.sum_congr rfl fun i _ => ?_
  have e : rowN (4096 * k.val + i.val) = Spec.coreRow k i :=
    Fin.ext (Region4Blk.rowN_val (by have := k.isLt; have := i.isLt; omega))
  rw [e]

def G5 (c : Dev nD) : Vec Ideal S8192x1024 .bf16 := fun i => act V c (i 0) (i 1)

theorem flushed5_eq (c : Dev nD) (t : Fin cfg3.N) :
    (dat3 V c).flushed 5 t = ((cfg3.win 5).blk t).view.read (Elt Ideal) (G5 V c) := by
  have hN : cfg3.N = 16 := N_3
  have ht := t.isLt
  have hi := (Region3Blk.idx_out t).1
  show (cfg3.win 5).cut (grid3.coords t) ((dat3 V c).after 5 t) = _
  rw [after3_5]
  funext y
  rw [View.read_apply]
  obtain ⟨r, j, rfl⟩ : ∃ (r : Fin 512) (j : Fin 1024), y = ix2 r j := ⟨y 0, y 1, eq_ix2 y⟩
  show ((outsAt3 V c t.val t.isLt).1 (ix2 r j) : EReal) = G5 V c (((cfg3.win 5).blk t).view.emb (ix2 r j))
  rw [point5 V c t r j]
  unfold G5
  have hr := r.isLt
  refine congrArg₂ (act V c) (Fin.ext ?_) (Fin.ext ?_)
  · show (512 * t.val + r.val) % 8192 = win3_5.index t 0 * 512 + 1 * r.val
    rw [hi.1, Nat.mod_eq_of_lt (by omega)]; omega
  · show j.val = win3_5.index t 1 * 1024 + 1 * j.val
    rw [hi.2]; omega

theorem mem_blk5 (t : Fin cfg3.N) (i : S8192x1024.Idx) :
    i ∈ ((cfg3.win 5).blk t).view.set ↔ ∀ a : Fin 2, win3_5.index t a * S512x1024.size a ≤ (i a).val ∧ (i a).val < win3_5.index t a * S512x1024.size a + S512x1024.size a := by
  show i ∈ ((View.whole main_v88_0).slice (win3_5.rect t)).set ↔ _
  rw [View.set_slice_whole, Rect.mem_set_unit]
  exact Iff.rfl

theorem cover5 (i : S8192x1024.Idx) : ∃ t : Fin cfg3.N, (cfg3.win 5).flush t = true ∧ i ∈ ((cfg3.win 5).blk t).view.set := by
  have h0 : (i 0).val < 8192 := (i 0).isLt
  have h1 : (i 1).val < 1024 := (i 1).isLt
  have hN : cfg3.N = 16 := N_3
  have hlt : (i 0).val / 512 < cfg3.N := by omega
  refine ⟨⟨(i 0).val / 512, hlt⟩, flush3_5 _, ?_⟩
  have hi := (Region3Blk.idx_out ⟨(i 0).val / 512, hlt⟩).1
  rw [mem_blk5]
  intro a
  match a with
  | ⟨0, _⟩ =>
    show win3_5.index ⟨(i 0).val / 512, hlt⟩ 0 * 512 ≤ (i 0).val ∧ (i 0).val < win3_5.index ⟨(i 0).val / 512, hlt⟩ 0 * 512 + 512
    rw [hi.1]
    show (i 0).val / 512 * 512 ≤ (i 0).val ∧ (i 0).val < (i 0).val / 512 * 512 + 512
    omega
  | ⟨1, _⟩ =>
    show win3_5.index ⟨(i 0).val / 512, hlt⟩ 1 * 1024 ≤ (i 1).val ∧ (i 1).val < win3_5.index ⟨(i 0).val / 512, hlt⟩ 1 * 1024 + 1024
    rw [hi.2]
    omega

theorem final5 (c : Dev nD) : (dat3 V c).arrAt 5 cfg3.N = G5 V c :=
  (dat3 V c).arrAt_eq_of_cover 5 (G5 V c) (fun t _ => flushed5_eq V c t) (cover5)

def G6 (c : Dev nD) : Vec Ideal S16x1024 .f32 := fun i =>
  Spec.coreSum (act V c) ⟨(i 0).val / 8, by have h : (i 0).val < 16 := (i 0).isLt; omega⟩ (i 1)

theorem flushed6_eq (c : Dev nD) (t : Fin cfg3.N) (hf : (cfg3.win 6).flush t = true) :
    (dat3 V c).flushed 6 t = ((cfg3.win 6).blk t).view.read (Elt Ideal) (G6 V c) := by
  have h7 : t.val % 8 = 7 := (flush3_6 t).mp hf
  have hN : cfg3.N = 16 := N_3
  have ht := t.isLt
  have hi := (Region3Blk.idx_out t).2.1
  have hk : t.val / 8 < 2 := by omega
  show (cfg3.win 6).cut (grid3.coords t) ((dat3 V c).after 6 t) = _
  rw [after3_6]
  funext y
  rw [View.read_apply]
  obtain ⟨p, j, rfl⟩ : ∃ (p : Fin 8) (j : Fin 1024), y = ix2 p j := ⟨y 0, y 1, eq_ix2 y⟩
  show ((outsAt3 V c t.val t.isLt).2.1 (ix2 p j) : EReal) = G6 V c (((cfg3.win 6).blk t).view.emb (ix2 p j))
  rw [inv6 V c p j t.val t.isLt, h7]
  show ∑ s ∈ Finset.range 8, _ = _
  rw [half6 V c ⟨t.val / 8, hk⟩ j]
  unfold G6
  have hp := p.isLt
  refine congrArg₂ (Spec.coreSum (act V c)) (Fin.ext ?_) (Fin.ext ?_)
  · show t.val / 8 = (win3_6.index t 0 * 8 + 1 * p.val) / 8
    rw [hi.1]; omega
  · show j.val = win3_6.index t 1 * 1024 + 1 * j.val
    rw [hi.2]; omega

theorem mem_blk6 (t : Fin cfg3.N) (i : S16x1024.Idx) :
    i ∈ ((cfg3.win 6).blk t).view.set ↔ ∀ a : Fin 2, win3_6.index t a * S8x1024.size a ≤ (i a).val ∧ (i a).val < win3_6.index t a * S8x1024.size a + S8x1024.size a := by
  show i ∈ ((View.whole main_v88_1).slice (win3_6.rect t)).set ↔ _
  rw [View.set_slice_whole, Rect.mem_set_unit]
  exact Iff.rfl

theorem cover6 (i : S16x1024.Idx) : ∃ t : Fin cfg3.N, (cfg3.win 6).flush t = true ∧ i ∈ ((cfg3.win 6).blk t).view.set := by
  have h0 : (i 0).val < 16 := (i 0).isLt
  have h1 : (i 1).val < 1024 := (i 1).isLt
  have hN : cfg3.N = 16 := N_3
  have hlt : 8 * ((i 0).val / 8) + 7 < cfg3.N := by omega
  refine ⟨⟨8 * ((i 0).val / 8) + 7, hlt⟩, (flush3_6 _).mpr (by show (8 * ((i 0).val / 8) + 7) % 8 = 7; omega), ?_⟩
  have hi := (Region3Blk.idx_out ⟨8 * ((i 0).val / 8) + 7, hlt⟩).2.1
  rw [mem_blk6]
  intro a
  match a with
  | ⟨0, _⟩ =>
    show win3_6.index ⟨8 * ((i 0).val / 8) + 7, hlt⟩ 0 * 8 ≤ (i 0).val ∧ (i 0).val < win3_6.index ⟨8 * ((i 0).val / 8) + 7, hlt⟩ 0 * 8 + 8
    rw [hi.1]
    show (8 * ((i 0).val / 8) + 7) / 8 * 8 ≤ (i 0).val ∧ (i 0).val < (8 * ((i 0).val / 8) + 7) / 8 * 8 + 8
    omega
  | ⟨1, _⟩ =>
    show win3_6.index ⟨8 * ((i 0).val / 8) + 7, hlt⟩ 1 * 1024 ≤ (i 1).val ∧ (i 1).val < win3_6.index ⟨8 * ((i 0).val / 8) + 7, hlt⟩ 1 * 1024 + 1024
    rw [hi.2]
    omega

theorem final6 (c : Dev nD) : (dat3 V c).arrAt 6 cfg3.N = G6 V c :=
  (dat3 V c).arrAt_eq_of_cover 6 (G6 V c) (fun t hf => flushed6_eq V c t hf) (cover6)

def G7 (c : Dev nD) : Vec Ideal S16x1024 .f32 := fun i =>
  Spec.coreSumSq (act V c) ⟨(i 0).val / 8, by have h : (i 0).val < 16 := (i 0).isLt; omega⟩ (i 1)

theorem flushed7_eq (c : Dev nD) (t : Fin cfg3.N) (hf : (cfg3.win 7).flush t = true) :
    (dat3 V c).flushed 7 t = ((cfg3.win 7).blk t).view.read (Elt Ideal) (G7 V c) := by
  have h7 : t.val % 8 = 7 := (flush3_7 t).mp hf
  have hN : cfg3.N = 16 := N_3
  have ht := t.isLt
  have hi := (Region3Blk.idx_out t).2.2
  have hk : t.val / 8 < 2 := by omega
  show (cfg3.win 7).cut (grid3.coords t) ((dat3 V c).after 7 t) = _
  rw [after3_7]
  funext y
  rw [View.read_apply]
  obtain ⟨p, j, rfl⟩ : ∃ (p : Fin 8) (j : Fin 1024), y = ix2 p j := ⟨y 0, y 1, eq_ix2 y⟩
  show ((outsAt3 V c t.val t.isLt).2.2 (ix2 p j) : EReal) = G7 V c (((cfg3.win 7).blk t).view.emb (ix2 p j))
  rw [inv7 V c p j t.val t.isLt, h7]
  show ∑ s ∈ Finset.range 8, _ = _
  rw [half7 V c ⟨t.val / 8, hk⟩ j]
  unfold G7
  have hp := p.isLt
  refine congrArg₂ (Spec.coreSumSq (act V c)) (Fin.ext ?_) (Fin.ext ?_)
  · show t.val / 8 = (win3_7.index t 0 * 8 + 1 * p.val) / 8
    rw [hi.1]; omega
  · show j.val = win3_7.index t 1 * 1024 + 1 * j.val
    rw [hi.2]; omega

theorem final7 (c : Dev nD) : (dat3 V c).arrAt 7 cfg3.N = G7 V c :=
  (dat3 V c).arrAt_eq_of_cover 7 (G7 V c) (fun t hf => flushed7_eq V c t hf) cover6

theorem out5_eq (c : Dev nD) (i : Fin 8192) (j : Fin 1024) : (out5 V c (ix2 i j) : EReal) = act V c i j := by
  exact congrFun (final5 V c) (ix2 i j)

theorem out6_eq (c : Dev nD) (r : Fin 16) (j : Fin 1024) :
    (out6 V c (ix2 r j) : EReal) = Spec.coreSum (act V c) ⟨r.val / 8, by have := r.isLt; omega⟩ j := by
  exact congrFun (final6 V c) (ix2 r j)

theorem out7_eq (c : Dev nD) (r : Fin 16) (j : Fin 1024) :
    (out7 V c (ix2 r j) : EReal) = Spec.coreSumSq (act V c) ⟨r.val / 8, by have := r.isLt; omega⟩ j := by
  exact congrFun (final7 V c) (ix2 r j)

end Cert.KernelIdeal.Region3

end
-- ==== Proof.Region4Pay.lean ====
/- The last call's body at an index: each running total gains a double sum over the block's 512 rows; a half's first point starts from zero. -/
import proofs.«426192_j71700184039604_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators
open Idealize.ShloMosaic Idealize.ShloMosaic.ValueIdx

namespace Cert.KernelIdeal.Region4Pay

open Cert.KernelIdeal Cert.KernelIdeal.Gen

theorem lhsA_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem lhsA_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem rhsA_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem rhsA_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

theorem mmA_apply (prec : Option ContractPrecision) (a : FVec Ideal S512x1024 .bf16) (b : FVec Ideal S1024x2048 .bf16)
    (r : Fin 512) (j : Fin 2048) :
    matmul dot_S512x1024_S1024x2048_S512x2048_1_0_0_1_n_n prec a b (constant (F := Ideal) S512x2048 .f32 0x00000000#32) (ix2 r j)
      = ∑ k : Fin 1024, a (ix2 r k) * b (ix2 k j) := by
  simp only [matmul]
  rw [Ideal.matmul_constant_zero_apply, ← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 r j) ((contrEquiv1 dot_S512x1024_S1024x2048_S512x2048_1_0_0_1_n_n 1024 rfl rfl).symm k) = ix2 r k := funext fun a => Fin.ext (by
    match a with
    | ⟨0, _⟩ => exact lhsA_0 _ _
    | ⟨1, _⟩ => exact (lhsA_1 _ _).trans hk)
  have er : dot_S512x1024_S1024x2048_S512x2048_1_0_0_1_n_n.rhsIdx (ix2 r j) ((contrEquiv1 dot_S512x1024_S1024x2048_S512x2048_1_0_0_1_n_n 1024 rfl rfl).symm k) = ix2 k j := funext fun a => Fin.ext (by
    match a with
    | ⟨0, _⟩ => exact (rhsA_0 _ _).trans hk
    | ⟨1, _⟩ => exact rhsA_1 _ _)
  rw [el, er]

theorem lhsB_0 (i : S512x256.Idx) (q : dot_S512x64_S64x256_S512x256_1_0_0_1_n_n.contr.Idx) :
    (dot_S512x64_S64x256_S512x256_1_0_0_1_n_n.lhsIdx i q 0).val = (i 0).val := by
  unfold DotDims.lhsIdx
  rw [dif_neg (show ¬(0 : Fin S512x64.rank) ∈ dot_S512x64_S64x256_S512x256_1_0_0_1_n_n.lhsBatch by decide), dif_pos (show (0 : Fin S512x64.rank) ∈ dot_S512x64_S64x256_S512x256_1_0_0_1_n_n.lhsNonContracting by decide)]
  rfl
theorem lhsB_1 (i : S512x256.Idx) (q : dot_S512x64_S64x256_S512x256_1_0_0_1_n_n.contr.Idx) :
    (dot_S512x64_S64x256_S512x256_1_0_0_1_n_n.lhsIdx i q 1).val = (q ⟨0, by decide⟩).val :=
  dot_S512x64_S64x256_S512x256_1_0_0_1_n_n.lhsIdx_val_of_single rfl i q
theorem rhsB_0 (i : S512x256.Idx) (q : dot_S512x64_S64x256_S512x256_1_0_0_1_n_n.contr.Idx) :
    (dot_S512x64_S64x256_S512x256_1_0_0_1_n_n.rhsIdx i q 0).val = (q ⟨0, by decide⟩).val :=
  dot_S512x64_S64x256_S512x256_1_0_0_1_n_n.rhsIdx_val_of_single rfl i q
theorem rhsB_1 (i : S512x256.Idx) (q : dot_S512x64_S64x256_S512x256_1_0_0_1_n_n.contr.Idx) :
    (dot_S512x64_S64x256_S512x256_1_0_0_1_n_n.rhsIdx i q 1).val = (i 1).val := by
  unfold DotDims.rhsIdx
  rw [dif_neg (show ¬(1 : Fin S64x256.rank) ∈ dot_S512x64_S64x256_S512x256_1_0_0_1_n_n.rhsBatch by decide), dif_pos (show (1 : Fin S64x256.rank) ∈ dot_S512x64_S64x256_S512x256_1_0_0_1_n_n.rhsNonContracting by decide)]
  rfl

theorem mmB_apply (prec : Option ContractPrecision) (a : FVec Ideal S512x64 .f32) (b : FVec Ideal S64x256 .f32)
    (r : Fin 512) (j : Fin 256) :
    matmul dot_S512x64_S64x256_S512x256_1_0_0_1_n_n prec a b (constant (F := Ideal) S512x256 .f32 0x00000000#32) (ix2 r j)
      = ∑ k : Fin 64, a (ix2 r k) * b (ix2 k j) := by
  simp only [matmul]
  rw [Ideal.matmul_constant_zero_apply, ← Equiv.sum_comp (contrEquiv1 dot_S512x64_S64x256_S512x256_1_0_0_1_n_n 64 rfl rfl).symm]
  refine Finset.sum_congr rfl fun k _ => ?_
  have hk := contrEquiv1_symm_val dot_S512x64_S64x256_S512x256_1_0_0_1_n_n 64 rfl rfl k
  have el : dot_S512x64_S64x256_S512x256_1_0_0_1_n_n.lhsIdx (ix2 r j) ((contrEquiv1 dot_S512x64_S64x256_S512x256_1_0_0_1_n_n 64 rfl rfl).symm k) = ix2 r k := funext fun a => Fin.ext (by
    match a with
    | ⟨0, _⟩ => exact lhsB_0 _ _
    | ⟨1, _⟩ => exact (lhsB_1 _ _).trans hk)
  have er : dot_S512x64_S64x256_S512x256_1_0_0_1_n_n.rhsIdx (ix2 r j) ((contrEquiv1 dot_S512x64_S64x256_S512x256_1_0_0_1_n_n 64 rfl rfl).symm k) = ix2 k j := funext fun a => Fin.ext (by
    match a with
    | ⟨0, _⟩ => exact (rhsB_0 _ _).trans hk
    | ⟨1, _⟩ => exact rhsB_1 _ _)
  rw [el, er]

theorem total_apply {n : ℕ} (e : FVec Ideal ⟨2, ![512, n]⟩ .f32)
    (hc : (⟨2, ![512, n]⟩ : Shape).ShapeCasts ⟨3, ![1, 512, n]⟩) (hr : (⟨3, ![1, 512, n]⟩ : Shape).Reduces [1, 2] S1)
    (hφ : FKind.Formats .f32) (hacc : (0x00000000#32 : BitVec 32) = 0x00000000#32) (j : S1.Idx) :
    multiReduction .add [1, 2] S1 (shapeCast ⟨3, ![1, 512, n]⟩ e hc) 0x00000000#32 hr hφ hacc j
      = ∑ r : Fin 512, ∑ q : Fin n, e (ix2 r q) := by
  refine (Ideal.multiReduction_add_total _ _ hr (fun b => ?_) hφ hacc j).trans ?_
  · match b with
    | ⟨0, _⟩ => rfl
  · show ∑ i, e (Shape.reshapeEquiv hc i) = _
    rw [Equiv.sum_comp (Shape.reshapeEquiv hc) e, sum_idx2]

theorem oneHot_word (w v : BitVec 32) :
    ((((IntOp.cmpi .eq w v).setWidth 32).toInt : ℝ) : EReal) = if w = v then 1 else 0 := by
  by_cases h : w = v
  · subst h
    simp [IntOp.cmpi]
  · have hb : (w == v) = false := by simpa using h
    simp [IntOp.cmpi, hb, h]

theorem blockTotal_apply {n : ℕ} (e : FVec Ideal ⟨2, ![512, n]⟩ .f32)
    (hc : (⟨2, ![512, n]⟩ : Shape).ShapeCasts ⟨3, ![1, 512, n]⟩) (hr : (⟨3, ![1, 512, n]⟩ : Shape).Reduces [1, 2] S1)
    (hφ : FKind.Formats .f32) (hacc : (0x00000000#32 : BitVec 32) = 0x00000000#32)
    (hc' : S1.ShapeCasts S1x1x1) (hpos : ∀ a, (![0, 0, 0] : Fin 3 → Nat) a < S1x1x1.size a) :
    extractAt ![0, 0, 0] (shapeCast S1x1x1 (multiReduction .add [1, 2] S1 (shapeCast ⟨3, ![1, 512, n]⟩ e hc) 0x00000000#32 hr hφ hacc) hc') hpos
      = ∑ r : Fin 512, ∑ q : Fin n, e (ix2 r q) :=
  total_apply e hc hr hφ hacc _

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem oneHot_apply (v45 : Vec Ideal S512x1 .i32) (h1 : S512x1.ShapeCasts S512x1) (h2 : S512x1.Broadcasts S512x64)
    (h3 : S512x64.Iotas .tc 32 [1]) (h4 : 1 < 32) (r : Fin 512) (k : Fin 64) :
    (sitofp .f32 (extui 32 (cmpi .eq (broadcastTo S512x64 (shapeCast S512x1 v45 h1) h2) (iota .tc S512x64 32 [1] h3)) h4) : FVec Ideal S512x64 .f32) (ix2 r k)
      = if v45 (ix2 r 0) = BitVec.ofNat 32 k.val then 1 else 0 := by
  show ((((IntOp.cmpi .eq (broadcastTo S512x64 (shapeCast S512x1 v45 h1) h2 (ix2 r k)) (iota .tc S512x64 32 [1] h3 (ix2 r k))).setWidth 32).toInt : ℝ) : EReal) = _
  rw [shapeCast_self, broadcastTo_a1_ab_apply, iota_single_apply, oneHot_word]

def recTerm (v3 : Vec Ideal S512x1024 .bf16) (v6 v10 : Vec Ideal S1x1024 .f32) (v15 : Vec Ideal S1024x2048 .bf16)
    (v18 : Vec Ideal S1x2048 .f32) (v22 : Vec Ideal S512x2048 .f32) (r : Fin 512) (j : Fin 2048) : EReal :=
  (v22 (ix2 r j) - ((∑ k : Fin 1024, (v3 (ix2 r k) * v6 (ix2 0 k) + v10 (ix2 0 k)) * v15 (ix2 k j)) + v18 (ix2 0 j)))
    * (v22 (ix2 r j) - ((∑ k : Fin 1024, (v3 (ix2 r k) * v6 (ix2 0 k) + v10 (ix2 0 k)) * v15 (ix2 k j)) + v18 (ix2 0 j)))

def distTerm (v34 : Vec Ideal S512x256 .bf16) (v37 v41 : Vec Ideal S1x256 .f32) (v45 : Vec Ideal S512x1 .i32)
    (v52 : Vec Ideal S64x256 .f32) (r : Fin 512) (j : Fin 256) : EReal :=
  ((v34 (ix2 r j) * v37 (ix2 0 j) + v41 (ix2 0 j))
      - ∑ k : Fin 64, (if v45 (ix2 r 0) = BitVec.ofNat 32 k.val then 1 else 0) * v52 (ix2 k j))
    * ((v34 (ix2 r j) * v37 (ix2 0 j) + v41 (ix2 0 j))
      - ∑ k : Fin 64, (if v45 (ix2 r 0) = BitVec.ofNat 32 k.val then 1 else 0) * v52 (ix2 k j))

theorem pay4_apply (v3 : Vec Ideal S512x1024 .bf16) (v6 v10 : Vec Ideal S1x1024 .f32) (v15 : Vec Ideal S1024x2048 .bf16)
    (v18 : Vec Ideal S1x2048 .f32) (v22 : Vec Ideal S512x2048 .f32) (v29 : Vec Ideal S8x1 .f32) (p : Fin 8) (q : Fin 1) :
    k4_pay4 (F := Ideal) v3 v6 v10 v15 v18 v22 v29 (ix2 p q)
      = v29 (ix2 p q) + ∑ r : Fin 512, ∑ j : Fin 2048, recTerm v3 v6 v10 v15 v18 v22 r j := by
  unfold k4_pay4 recTerm
  simp only [addf_apply, broadcast_apply, shapeCast_self]
  refine congrArg (v29 (ix2 p q) + ·) ((blockTotal_apply _ _ _ _ _ _ _).trans ?_)
  simp only [addf_apply, subf_apply, mulf_apply, mmA_apply, broadcastTo_1b_ab_apply, truncf_apply, extf_apply]

theorem pay1_apply (v34 : Vec Ideal S512x256 .bf16) (v37 v41 : Vec Ideal S1x256 .f32) (v45 : Vec Ideal S512x1 .i32)
    (v52 : Vec Ideal S64x256 .f32) (v60 : Vec Ideal S8x1 .f32) (p : Fin 8) (q : Fin 1) :
    k4_pay1 (F := Ideal) v34 v37 v41 v45 v52 v60 (ix2 p q)
      = v60 (ix2 p q) + ∑ r : Fin 512, ∑ j : Fin 256, distTerm v34 v37 v41 v45 v52 r j := by
  unfold k4_pay1 distTerm
  simp only [addf_apply, broadcast_apply, shapeCast_self]
  refine congrArg (v60 (ix2 p q) + ·) ((blockTotal_apply _ _ _ _ _ _ _).trans ?_)
  simp only [addf_apply, subf_apply, mulf_apply, mmB_apply, broadcastTo_1b_ab_apply, extf_apply]
  refine Finset.sum_congr rfl fun r _ => Finset.sum_congr rfl fun j _ => ?_
  have e : ∀ k : Fin 64, (sitofp .f32 (extui 32 (cmpi .eq (broadcastTo S512x64 v45 broadcasts_S512x1_S512x64) (iota .tc S512x64 32 [1] iota_S512x64_d1_w32)) natLt_1_32) : FVec Ideal S512x64 .f32) (ix2 r k)
      = if v45 (ix2 r 0) = BitVec.ofNat 32 k.val then 1 else 0 := fun k =>
    (congrArg (fun v => (sitofp .f32 (extui 32 (cmpi .eq (broadcastTo S512x64 v broadcasts_S512x1_S512x64) (iota .tc S512x64 32 [1] iota_S512x64_d1_w32)) natLt_1_32) : FVec Ideal S512x64 .f32) (ix2 r k))
      (shapeCast_self v45 shapeCasts_S512x1_S512x1).symm).trans (oneHot_apply v45 _ _ _ _ r k)
  simp only [e]

theorem pay2_apply (i : S8x1.Idx) : k4_pay2 (F := Ideal) i = 0 := by
  show Ideal.ofBits .f32 0x00000000#32 = 0
  exact Ideal.ofBits_zero_f32
theorem pay3_apply (i : S8x1.Idx) : k4_pay3 (F := Ideal) i = 0 := by
  show Ideal.ofBits .f32 0x00000000#32 = 0
  exact Ideal.ofBits_zero_f32

end Cert.KernelIdeal.Region4Pay

end
-- ==== Proof.Region4Piece.lean ====
/- What one run of the last call's body leaves in its two output blocks, as the body's arithmetic of the blocks it read. -/
import proofs.«426192_j71700184039604_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Region4Piece

open Cert.KernelIdeal Cert.KernelIdeal.Gen

variable {F : FTy → Type} [FloatOps F]
variable (c : Dev nD) (i : grid4.Coords) (arg2 : Memref sig .tc .vmem S512x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S512x1 .i32) (harg11 : arg11.IsWhole) (arg12 : Memref sig .tc .vmem S64x256 .f32) (harg12 : arg12.IsWhole) (arg13 : Memref sig .tc .vmem S8x1 .f32) (harg13 : arg13.IsWhole) (arg14 : Memref sig .tc .vmem S8x1 .f32) (harg14 : arg14.IsWhole)
variable (x0 : Vec F S512x1024 .bf16) (x1 : Vec F S1x1024 .f32) (x2 : Vec F S1x1024 .f32) (x3 : Vec F S1024x2048 .bf16) (x4 : Vec F S1x2048 .f32) (x5 : Vec F S512x2048 .f32) (x6 : Vec F S512x256 .bf16) (x7 : Vec F S1x256 .f32) (x8 : Vec F S1x256 .f32) (x9 : Vec F S512x1 .i32) (x10 : Vec F S64x256 .f32) (xo11 xo12 : Vec F S8x1 .f32)

theorem hz : (![0, 0] : Fin 2 → Nat) = fun _ => 0 := funext fun a => by fin_cases a <;> rfl

theorem out_A_11 (hc0 : cond4_0 i) :
    out4_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = k4_pay4 x0 x1 x2 x3 x4 x5 (k4_pay2 (F := F)) := by
  unfold out4_A_11
  rw [View.read_writes_eq_canon _ _ _ (cover4_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun4_A
  dsimp only
  sl_unfold_words
  rw [View.canon_cons_unit_zero (S := S8x1) hz, View.readCov_unit_zero (S := S8x1) _ hz]
  simp only [View.readAt_eq_ld, harg2.read_unread, harg3.read_unread, harg4.read_unread, harg5.read_unread, harg6.read_unread, harg7.read_unread, View.ld_unit_zero (S := S512x1024) hz, View.ld_unit_zero (S := S1x1024) hz, View.ld_unit_zero (S := S1024x2048) hz, View.ld_unit_zero (S := S1x2048) hz, View.ld_unit_zero (S := S512x2048) hz, View.ld_unit_zero (S := S8x1) hz]

theorem out_A_12 (hc0 : cond4_0 i) :
    out4_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = k4_pay1 x6 x7 x8 x9 x10 (k4_pay3 (F := F)) := by
  unfold out4_A_12
  rw [View.read_writes_eq_canon _ _ _ (cover4_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun4_A
  dsimp only
  sl_unfold_words
  rw [View.canon_cons_unit_zero (S := S8x1) hz, View.readCov_unit_zero (S := S8x1) _ hz]
  simp only [View.readAt_eq_ld, harg8.read_unread, harg9.read_unread, harg10.read_unread, harg11.read_unread, harg12.read_unread, View.ld_unit_zero (S := S512x256) hz, View.ld_unit_zero (S := S1x256) hz, View.ld_unit_zero (S := S512x1) hz, View.ld_unit_zero (S := S64x256) hz, View.ld_unit_zero (S := S8x1) hz]

theorem out_B_11 (hc0 : ¬cond4_0 i) :
    out4_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo11 xo12 = k4_pay4 x0 x1 x2 x3 x4 x5 xo11 := by
  unfold out4_B_11
  rw [View.read_writes_eq_canon _ _ _ (cover4_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo11 xo12)]
  unfold kernelRun4_B
  dsimp only
  sl_unfold_words
  rw [View.canon_unit_zero hz]
  simp only [View.readAt_eq_ld, harg2.read_unread, harg3.read_unread, harg4.read_unread, harg5.read_unread, harg6.read_unread, harg7.read_unread, harg13.read_unread, View.ld_unit_zero (S := S512x1024) hz, View.ld_unit_zero (S := S1x1024) hz, View.ld_unit_zero (S := S1024x2048) hz, View.ld_unit_zero (S := S1x2048) hz, View.ld_unit_zero (S := S512x2048) hz, View.ld_unit_zero (S := S8x1) hz]

theorem out_B_12 (hc0 : ¬cond4_0 i) :
    out4_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo11 xo12 = k4_pay1 x6 x7 x8 x9 x10 xo12 := by
  unfold out4_B_12
  rw [View.read_writes_eq_canon _ _ _ (cover4_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo11 xo12)]
  unfold kernelRun4_B
  dsimp only
  sl_unfold_words
  rw [View.canon_unit_zero hz]
  simp only [View.readAt_eq_ld, harg8.read_unread, harg9.read_unread, harg10.read_unread, harg11.read_unread, harg12.read_unread, harg14.read_unread, View.ld_unit_zero (S := S512x256) hz, View.ld_unit_zero (S := S1x256) hz, View.ld_unit_zero (S := S512x1) hz, View.ld_unit_zero (S := S64x256) hz, View.ld_unit_zero (S := S8x1) hz]

end Cert.KernelIdeal.Region4Piece

end
-- ==== Proof.Region4.lean ====
/- The last call's outputs as values: over each half of the rows, the total squared reconstruction error and the total squared distance of the latent rows to their clusters. -/
import proofs.«426192_j71700184039604_3_alg».proof.Proof.Gen.KernelIdeal.Frame
import proofs.«426192_j71700184039604_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic
import proofs.«426192_j71700184039604_3_alg».proof.Proof.Region4Pay
import proofs.«426192_j71700184039604_3_alg».proof.Proof.Region4Piece
import proofs.«426192_j71700184039604_3_alg».proof.Proof.Region4Blk

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen

variable (V : (c : Dev nD) → (b : Ref sig .tc) → Buf (Elt Ideal) ((c : Thread nD τ).loc b))

abbrev dArr (c : Dev nD) : Vec Ideal S8192x1024 .bf16 := V c main_v88_0
abbrev scArr (c : Dev nD) : Vec Ideal S1x1024 .f32 := V c main_v111
abbrev shArr (c : Dev nD) : Vec Ideal S1x1024 .f32 := V c main_v112
abbrev wArr (c : Dev nD) : Vec Ideal S1024x2048 .bf16 := V c main_v7
abbrev bArr (c : Dev nD) : Vec Ideal S1x2048 .f32 := V c main_v113
abbrev xArr (c : Dev nD) : Vec Ideal S8192x2048 .f32 := V c main_arg0
abbrev lpArr (c : Dev nD) : Vec Ideal S8192x256 .bf16 := V c main_v36_0
abbrev sc2Arr (c : Dev nD) : Vec Ideal S1x256 .f32 := V c main_v114
abbrev sh2Arr (c : Dev nD) : Vec Ideal S1x256 .f32 := V c main_v115
abbrev cidArr (c : Dev nD) : Vec Ideal S8192x1 .i32 := V c main_v1
abbrev clArr (c : Dev nD) : Vec Ideal S64x256 .f32 := V c main_arg2

def dIn (c : Dev nD) : Fin 8192 → Fin 1024 → EReal := fun i k => dArr V c (ix2 i k)
def scIn (c : Dev nD) : Fin 1024 → EReal := fun k => scArr V c (ix2 0 k)
def shIn (c : Dev nD) : Fin 1024 → EReal := fun k => shArr V c (ix2 0 k)
def wIn (c : Dev nD) : Fin 1024 → Fin 2048 → EReal := fun k j => wArr V c (ix2 k j)
def bIn (c : Dev nD) : Fin 2048 → EReal := fun j => bArr V c (ix2 0 j)
def xIn (c : Dev nD) : Fin 8192 → Fin 2048 → EReal := fun i j => xArr V c (ix2 i j)
def lpIn (c : Dev nD) : Fin 8192 → Fin 256 → EReal := fun i j => lpArr V c (ix2 i j)
def sc2In (c : Dev nD) : Fin 256 → EReal := fun j => sc2Arr V c (ix2 0 j)
def sh2In (c : Dev nD) : Fin 256 → EReal := fun j => sh2Arr V c (ix2 0 j)
def cidIn (c : Dev nD) : Fin 8192 → BitVec 32 := fun i => cidArr V c (ix2 i 0)
def clIn (c : Dev nD) : Fin 64 → Fin 256 → EReal := fun k j => clArr V c (ix2 k j)

def oneHot (w : BitVec 32) (k : Fin 64) : EReal := if w = BitVec.ofNat 32 k.val then 1 else 0

def rec (c : Dev nD) : Fin 8192 → Fin 2048 → EReal :=
  Spec.lin (Spec.affine (dIn V c) (scIn V c) (shIn V c)) (wIn V c) (bIn V c)
def recErr (c : Dev nD) : Fin 8192 → Fin 2048 → EReal :=
  fun i j => (xIn V c i j - rec V c i j) * (xIn V c i j - rec V c i j)
def lat (c : Dev nD) : Fin 8192 → Fin 256 → EReal := Spec.affine (lpIn V c) (sc2In V c) (sh2In V c)
def sel (c : Dev nD) : Fin 8192 → Fin 256 → EReal := fun i j => ∑ k : Fin 64, oneHot (cidIn V c i) k * clIn V c k j
def distErr (c : Dev nD) : Fin 8192 → Fin 256 → EReal :=
  fun i j => (lat V c i j - sel V c i j) * (lat V c i j - sel V c i j)

abbrev out11 (c : Dev nD) : Vec Ideal S16x1 .f32 := (dat4 V c).arrAt 11 cfg4.N
abbrev out12 (c : Dev nD) : Vec Ideal S16x1 .f32 := (dat4 V c).arrAt 12 cfg4.N

theorem point11 (c : Dev nD) (t : Fin cfg4.N) (r : Fin 512) (j : Fin 2048) :
    Region4Pay.recTerm (iblk4 V c 0 t) (iblk4 V c 1 t) (iblk4 V c 2 t) (iblk4 V c 3 t) (iblk4 V c 4 t) (iblk4 V c 5 t) r j
      = recErr V c (Region4Blk.rowN (512 * t.val + r.val)) j := by
  unfold Region4Pay.recTerm recErr rec Spec.lin Spec.affine xIn dIn scIn shIn wIn bIn
  simp only [Region4Blk.blk0_apply V c t, Region4Blk.blk1_apply V c t, Region4Blk.blk2_apply V c t, Region4Blk.blk3_apply V c t,
    Region4Blk.blk4_apply V c t, Region4Blk.blk5_apply V c t]

theorem point12 (c : Dev nD) (t : Fin cfg4.N) (r : Fin 512) (j : Fin 256) :
    Region4Pay.distTerm (iblk4 V c 6 t) (iblk4 V c 7 t) (iblk4 V c 8 t) (iblk4 V c 9 t) (iblk4 V c 10 t) r j
      = distErr V c (Region4Blk.rowN (512 * t.val + r.val)) j := by
  unfold Region4Pay.distTerm distErr lat sel oneHot Spec.affine lpIn sc2In sh2In cidIn clIn
  simp only [Region4Blk.blk6_apply V c t, Region4Blk.blk7_apply V c t, Region4Blk.blk8_apply V c t, Region4Blk.blk9_apply V c t,
    Region4Blk.blk10_apply V c t]

def add11 (c : Dev nD) (n : ℕ) : EReal := ∑ r : Fin 512, ∑ j : Fin 2048, recErr V c (Region4Blk.rowN (512 * n + r.val)) j
def add12 (c : Dev nD) (n : ℕ) : EReal := ∑ r : Fin 512, ∑ j : Fin 256, distErr V c (Region4Blk.rowN (512 * n + r.val)) j

theorem stepA11 (c : Dev nD) (t : Fin cfg4.N) (h0 : t.val % 8 = 0) (p : Fin 8) (q : Fin 1) :
    ((outsAt4 V c t.val t.isLt).1 (ix2 p q) : EReal) = add11 V c t.val := by
  rw [outsAt4_A V c t h0]
  dsimp only
  refine (congrFun (Region4Piece.out_A_11 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) ((hcond4_0 t).mpr h0)) (ix2 p q)).trans ?_
  refine (Region4Pay.pay4_apply (iblk4 V c 0 t) (iblk4 V c 1 t) (iblk4 V c 2 t) (iblk4 V c 3 t) (iblk4 V c 4 t) (iblk4 V c 5 t) (k4_pay2 (F := Ideal)) p q).trans ?_
  rw [Region4Pay.pay2_apply, zero_add]
  exact Finset.sum_congr rfl fun r _ => Finset.sum_congr rfl fun j _ => point11 V c t r j

theorem stepA12 (c : Dev nD) (t : Fin cfg4.N) (h0 : t.val % 8 = 0) (p : Fin 8) (q : Fin 1) :
    ((outsAt4 V c t.val t.isLt).2 (ix2 p q) : EReal) = add12 V c t.val := by
  rw [outsAt4_A V c t h0]
  dsimp only
  refine (congrFun (Region4Piece.out_A_12 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) ((hcond4_0 t).mpr h0)) (ix2 p q)).trans ?_
  refine (Region4Pay.pay1_apply (iblk4 V c 6 t) (iblk4 V c 7 t) (iblk4 V c 8 t) (iblk4 V c 9 t) (iblk4 V c 10 t) (k4_pay3 (F := Ideal)) p q).trans ?_
  rw [Region4Pay.pay3_apply, zero_add]
  exact Finset.sum_congr rfl fun r _ => Finset.sum_congr rfl fun j _ => point12 V c t r j

theorem stepB11 (c : Dev nD) (t : Fin cfg4.N) (h0 : ¬t.val % 8 = 0) (p : Fin 8) (q : Fin 1) :
    ((outsAt4 V c t.val t.isLt).1 (ix2 p q) : EReal)
      = ((outsAt4 V c (t.val - 1) (Nat.lt_of_le_of_lt (Nat.sub_le _ _) t.isLt)).1 (ix2 p q) : EReal) + add11 V c t.val := by
  rw [outsAt4_B V c t h0]
  dsimp only
  refine (congrFun (Region4Piece.out_B_11 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (outsAt4 V c (t.val - 1) (Nat.lt_of_le_of_lt (Nat.sub_le _ _) t.isLt)).1 (outsAt4 V c (t.val - 1) (Nat.lt_of_le_of_lt (Nat.sub_le _ _) t.isLt)).2 (fun h => h0 ((hcond4_0 t).mp h))) (ix2 p q)).trans ?_
  refine (Region4Pay.pay4_apply (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).1 p q).trans ?_
  exact congrArg (_ + ·) (Finset.sum_congr rfl fun r _ => Finset.sum_congr rfl fun j _ => point11 V c t r j)

theorem stepB12 (c : Dev nD) (t : Fin cfg4.N) (h0 : ¬t.val % 8 = 0) (p : Fin 8) (q : Fin 1) :
    ((outsAt4 V c t.val t.isLt).2 (ix2 p q) : EReal)
      = ((outsAt4 V c (t.val - 1) (Nat.lt_of_le_of_lt (Nat.sub_le _ _) t.isLt)).2 (ix2 p q) : EReal) + add12 V c t.val := by
  rw [outsAt4_B V c t h0]
  dsimp only
  refine (congrFun (Region4Piece.out_B_12 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (ms4_11 t) (hs4_11 t) (ms4_12 t) (hs4_12 t) (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (outsAt4 V c (t.val - 1) (Nat.lt_of_le_of_lt (Nat.sub_le _ _) t.isLt)).1 (outsAt4 V c (t.val - 1) (Nat.lt_of_le_of_lt (Nat.sub_le _ _) t.isLt)).2 (fun h => h0 ((hcond4_0 t).mp h))) (ix2 p q)).trans ?_
  refine (Region4Pay.pay1_apply (iblk4 V c 6 t) (iblk4 V c 7 t) (iblk4 V c 8 t) (iblk4 V c 9 t) (iblk4 V c 10 t) (outsAt4 V c (t.val - 1) (Nat.lt_of_le_of_lt (Nat.sub_le _ _) t.isLt)).2 p q).trans ?_
  exact congrArg (_ + ·) (Finset.sum_congr rfl fun r _ => Finset.sum_congr rfl fun j _ => point12 V c t r j)

theorem inv11 (c : Dev nD) (p : Fin 8) (q : Fin 1) : ∀ (n : ℕ) (h : n < cfg4.N),
    ((outsAt4 V c n h).1 (ix2 p q) : EReal) = ∑ s ∈ Finset.range (n % 8 + 1), add11 V c (8 * (n / 8) + s) :=
  Region4Blk.sum_of_steps (fun n h => ((outsAt4 V c n h).1 (ix2 p q) : EReal)) (add11 V c)
    (fun n h h0 => stepA11 V c ⟨n, h⟩ h0 p q) (fun n h h0 => stepB11 V c ⟨n, h⟩ h0 p q)

theorem inv12 (c : Dev nD) (p : Fin 8) (q : Fin 1) : ∀ (n : ℕ) (h : n < cfg4.N),
    ((outsAt4 V c n h).2 (ix2 p q) : EReal) = ∑ s ∈ Finset.range (n % 8 + 1), add12 V c (8 * (n / 8) + s) :=
  Region4Blk.sum_of_steps (fun n h => ((outsAt4 V c n h).2 (ix2 p q) : EReal)) (add12 V c)
    (fun n h h0 => stepA12 V c ⟨n, h⟩ h0 p q) (fun n h h0 => stepB12 V c ⟨n, h⟩ h0 p q)

theorem half11 (c : Dev nD) (k : Fin 2) :
    ∑ s ∈ Finset.range 8, add11 V c (8 * k.val + s) = Spec.coreTot (recErr V c) k := by
  unfold add11 Spec.coreTot
  rw [Region4Blk.sum_blocks (fun n => ∑ j : Fin 2048, recErr V c (Region4Blk.rowN n) j) k.val]
  refine Finset.sum_congr rfl fun i _ => ?_
  have e : Region4Blk.rowN (4096 * k.val + i.val) = Spec.coreRow k i :=
    Fin.ext (Region4Blk.rowN_val (by have := k.isLt; have := i.isLt; omega))
  rw [e]

theorem half12 (c : Dev nD) (k : Fin 2) :
    ∑ s ∈ Finset.range 8, add12 V c (8 * k.val + s) = Spec.coreTot (distErr V c) k := by
  unfold add12 Spec.coreTot
  rw [Region4Blk.sum_blocks (fun n => ∑ j : Fin 256, distErr V c (Region4Blk.rowN n) j) k.val]
  refine Finset.sum_congr rfl fun i _ => ?_
  have e : Region4Blk.rowN (4096 * k.val + i.val) = Spec.coreRow k i :=
    Fin.ext (Region4Blk.rowN_val (by have := k.isLt; have := i.isLt; omega))
  rw [e]

def G11 (c : Dev nD) : Vec Ideal S16x1 .f32 := fun i =>
  Spec.coreTot (recErr V c) ⟨(i 0).val / 8, by have h : (i 0).val < 16 := (i 0).isLt; omega⟩

theorem flushed11_eq (c : Dev nD) (t : Fin cfg4.N) (hf : (cfg4.win 11).flush t = true) :
    (dat4 V c).flushed 11 t = ((cfg4.win 11).blk t).view.read (Elt Ideal) (G11 V c) := by
  have h7 : t.val % 8 = 7 := (flush4_11 t).mp hf
  have hN : cfg4.N = 16 := N_4
  have ht := t.isLt
  have hi := (Region4Blk.idx_out t).1
  have hk : t.val / 8 < 2 := by omega
  show (cfg4.win 11).cut (grid4.coords t) ((dat4 V c).after 11 t) = _
  rw [after4_11]
  funext y
  rw [View.read_apply]
  obtain ⟨p, q, rfl⟩ : ∃ (p : Fin 8) (q : Fin 1), y = ix2 p q := ⟨y 0, y 1, eq_ix2 y⟩
  show ((outsAt4 V c t.val t.isLt).1 (ix2 p q) : EReal) = G11 V c (((cfg4.win 11).blk t).view.emb (ix2 p q))
  rw [inv11 V c p q t.val t.isLt, h7]
  show ∑ s ∈ Finset.range 8, _ = _
  rw [half11 V c ⟨t.val / 8, hk⟩]
  unfold G11
  congr 1
  apply Fin.ext
  show t.val / 8 = (win4_11.index t 0 * 8 + 1 * p.val) / 8
  rw [hi.1]
  have hp := p.isLt
  omega

theorem mem_blk11 (t : Fin cfg4.N) (i : S16x1.Idx) :
    i ∈ ((cfg4.win 11).blk t).view.set ↔ ∀ a : Fin 2, win4_11.index t a * S8x1.size a ≤ (i a).val ∧ (i a).val < win4_11.index t a * S8x1.size a + S8x1.size a := by
  show i ∈ ((View.whole main_v116_0).slice (win4_11.rect t)).set ↔ _
  rw [View.set_slice_whole, Rect.mem_set_unit]
  exact Iff.rfl

theorem cover11 (i : S16x1.Idx) : ∃ t : Fin cfg4.N, (cfg4.win 11).flush t = true ∧ i ∈ ((cfg4.win 11).blk t).view.set := by
  have h0 : (i 0).val < 16 := (i 0).isLt
  have h1 : (i 1).val < 1 := (i 1).isLt
  have hN : cfg4.N = 16 := N_4
  have hlt : 8 * ((i 0).val / 8) + 7 < cfg4.N := by omega
  refine ⟨⟨8 * ((i 0).val / 8) + 7, hlt⟩, (flush4_11 _).mpr (by show (8 * ((i 0).val / 8) + 7) % 8 = 7; omega), ?_⟩
  have hi := (Region4Blk.idx_out ⟨8 * ((i 0).val / 8) + 7, hlt⟩).1
  rw [mem_blk11]
  intro a
  match a with
  | ⟨0, _⟩ =>
    show win4_11.index ⟨8 * ((i 0).val / 8) + 7, hlt⟩ 0 * 8 ≤ (i 0).val ∧ (i 0).val < win4_11.index ⟨8 * ((i 0).val / 8) + 7, hlt⟩ 0 * 8 + 8
    rw [hi.1]
    show (8 * ((i 0).val / 8) + 7) / 8 * 8 ≤ (i 0).val ∧ (i 0).val < (8 * ((i 0).val / 8) + 7) / 8 * 8 + 8
    omega
  | ⟨1, _⟩ =>
    show win4_11.index ⟨8 * ((i 0).val / 8) + 7, hlt⟩ 1 * 1 ≤ (i 1).val ∧ (i 1).val < win4_11.index ⟨8 * ((i 0).val / 8) + 7, hlt⟩ 1 * 1 + 1
    rw [hi.2]
    omega

theorem final11 (c : Dev nD) : (dat4 V c).arrAt 11 cfg4.N = G11 V c :=
  (dat4 V c).arrAt_eq_of_cover 11 (G11 V c) (fun t hf => flushed11_eq V c t hf) (cover11)

def G12 (c : Dev nD) : Vec Ideal S16x1 .f32 := fun i =>
  Spec.coreTot (distErr V c) ⟨(i 0).val / 8, by have h : (i 0).val < 16 := (i 0).isLt; omega⟩

theorem flushed12_eq (c : Dev nD) (t : Fin cfg4.N) (hf : (cfg4.win 12).flush t = true) :
    (dat4 V c).flushed 12 t = ((cfg4.win 12).blk t).view.read (Elt Ideal) (G12 V c) := by
  have h7 : t.val % 8 = 7 := (flush4_12 t).mp hf
  have hN : cfg4.N = 16 := N_4
  have ht := t.isLt
  have hi := (Region4Blk.idx_out t).2
  have hk : t.val / 8 < 2 := by omega
  show (cfg4.win 12).cut (grid4.coords t) ((dat4 V c).after 12 t) = _
  rw [after4_12]
  funext y
  rw [View.read_apply]
  obtain ⟨p, q, rfl⟩ : ∃ (p : Fin 8) (q : Fin 1), y = ix2 p q := ⟨y 0, y 1, eq_ix2 y⟩
  show ((outsAt4 V c t.val t.isLt).2 (ix2 p q) : EReal) = G12 V c (((cfg4.win 12).blk t).view.emb (ix2 p q))
  rw [inv12 V c p q t.val t.isLt, h7]
  show ∑ s ∈ Finset.range 8, _ = _
  rw [half12 V c ⟨t.val / 8, hk⟩]
  unfold G12
  congr 1
  apply Fin.ext
  show t.val / 8 = (win4_12.index t 0 * 8 + 1 * p.val) / 8
  rw [hi.1]
  have hp := p.isLt
  omega

theorem final12 (c : Dev nD) : (dat4 V c).arrAt 12 cfg4.N = G12 V c :=
  (dat4 V c).arrAt_eq_of_cover 12 (G12 V c) (fun t hf => flushed12_eq V c t hf) cover11

theorem out11_eq (c : Dev nD) (r : Fin 16) :
    (out11 V c (ix2 r 0) : EReal) = Spec.coreTot (recErr V c) ⟨r.val / 8, by have := r.isLt; omega⟩ := by
  exact congrFun (final11 V c) (ix2 r 0)

theorem out12_eq (c : Dev nD) (r : Fin 16) :
    (out12 V c (ix2 r 0) : EReal) = Spec.coreTot (distErr V c) ⟨r.val / 8, by have := r.isLt; omega⟩ := by
  exact congrFun (final12 V c) (ix2 r 0)

end Cert.KernelIdeal.Region4

end
-- ==== Proof.Chain.lean ====
/- The kernel's result followed call by call from the arguments: each call reads the previous call's outputs and untouched arguments, so the calls compute the specification's activations, column statistics and squared-error totals in turn. -/
import proofs.«426192_j71700184039604_3_alg».proof.Proof.ChainKeep
import proofs.«426192_j71700184039604_3_alg».proof.Proof.Host
import proofs.«426192_j71700184039604_3_alg».proof.Proof.Region0
import proofs.«426192_j71700184039604_3_alg».proof.Proof.Region1
import proofs.«426192_j71700184039604_3_alg».proof.Proof.Region2
import proofs.«426192_j71700184039604_3_alg».proof.Proof.Region3
import proofs.«426192_j71700184039604_3_alg».proof.Proof.Region4

set_option maxRecDepth 16384

noncomputable section

open scoped BigOperators
open Idealize.ShloMosaic Idealize.ShloMosaic.TcCoe Idealize.SL.Sem Idealize.ShloMosaic.ValueIdx

namespace Cert.KernelIdeal.Chain

open Cert.KernelIdeal Cert.KernelIdeal.Gen

variable (m : (ℓ : Loc nD τ sig) → Buf (Elt Ideal) ℓ) (ρ : Dev nD → PrngReg)

def inputs (c : Dev nD) (idx : Fin 8192 → Fin 64) : Spec.Inputs :=
  { X := fun i j => (m ((c.tc : Thread nD τ).loc main_arg0) : Vec Ideal S8192x2048 .f32) (ix2 i j)
    idx := idx
    cl := fun i j => (m ((c.tc : Thread nD τ).loc main_arg2) : Vec Ideal S64x256 .f32) (ix2 i j)
    w0 := fun i j => (m ((c.tc : Thread nD τ).loc main_arg3) : Vec Ideal S2048x1024 .f32) (ix2 i j)
    b0 := fun j => (m ((c.tc : Thread nD τ).loc main_arg4) : Vec Ideal S1024 .f32) (ix1 j)
    w1 := fun i j => (m ((c.tc : Thread nD τ).loc main_arg5) : Vec Ideal S1024x512 .f32) (ix2 i j)
    b1 := fun j => (m ((c.tc : Thread nD τ).loc main_arg6) : Vec Ideal S512 .f32) (ix1 j)
    g1 := fun j => (m ((c.tc : Thread nD τ).loc main_arg7) : Vec Ideal S512 .f32) (ix1 j)
    be1 := fun j => (m ((c.tc : Thread nD τ).loc main_arg8) : Vec Ideal S512 .f32) (ix1 j)
    w2 := fun i j => (m ((c.tc : Thread nD τ).loc main_arg9) : Vec Ideal S512x256 .f32) (ix2 i j)
    b2 := fun j => (m ((c.tc : Thread nD τ).loc main_arg10) : Vec Ideal S256 .f32) (ix1 j)
    g2 := fun j => (m ((c.tc : Thread nD τ).loc main_arg11) : Vec Ideal S256 .f32) (ix1 j)
    be2 := fun j => (m ((c.tc : Thread nD τ).loc main_arg12) : Vec Ideal S256 .f32) (ix1 j)
    w3 := fun i j => (m ((c.tc : Thread nD τ).loc main_arg13) : Vec Ideal S256x512 .f32) (ix2 i j)
    b3 := fun j => (m ((c.tc : Thread nD τ).loc main_arg14) : Vec Ideal S512 .f32) (ix1 j)
    g3 := fun j => (m ((c.tc : Thread nD τ).loc main_arg15) : Vec Ideal S512 .f32) (ix1 j)
    be3 := fun j => (m ((c.tc : Thread nD τ).loc main_arg16) : Vec Ideal S512 .f32) (ix1 j)
    w4 := fun i j => (m ((c.tc : Thread nD τ).loc main_arg17) : Vec Ideal S512x1024 .f32) (ix2 i j)
    b4 := fun j => (m ((c.tc : Thread nD τ).loc main_arg18) : Vec Ideal S1024 .f32) (ix1 j)
    g4 := fun j => (m ((c.tc : Thread nD τ).loc main_arg19) : Vec Ideal S1024 .f32) (ix1 j)
    be4 := fun j => (m ((c.tc : Thread nD τ).loc main_arg20) : Vec Ideal S1024 .f32) (ix1 j)
    w5 := fun i j => (m ((c.tc : Thread nD τ).loc main_arg21) : Vec Ideal S1024x2048 .f32) (ix2 i j)
    b5 := fun j => (m ((c.tc : Thread nD τ).loc main_arg22) : Vec Ideal S2048 .f32) (ix1 j) }

section
variable (c : Dev nD) (idx : Fin 8192 → Fin 64)

theorem statOf_core {N : ℕ} (arr : Fin 16 → Fin N → EReal) (f : Fin 2 → Fin N → EReal)
    (h : ∀ (r : Fin 16) (j : Fin N), arr r j = f ⟨r.val / 8, by have := r.isLt; omega⟩ j) :
    Host.statOf arr = fun j => Spec.twoCore fun c' => f c' j := by
  funext j
  unfold Host.statOf
  congr 1
  funext c'
  rw [h]
  congr 1
  apply Fin.ext
  show (8 * c'.val) / 8 = c'.val
  omega

theorem twoCore_core (arr : Fin 16 → EReal) (f : Fin 2 → EReal)
    (h : ∀ r : Fin 16, arr r = f ⟨r.val / 8, by have := r.isLt; omega⟩) :
    (Spec.twoCore fun c' => arr (Host.half8 c')) = Spec.twoCore f := by
  congr 1
  funext c'
  rw [h]
  congr 1
  apply Fin.ext
  show (8 * c'.val) / 8 = c'.val
  omega

theorem sel_eq (cl : Fin 64 → Fin 256 → EReal) (n : Fin 64) (j : Fin 256) :
    ∑ k : Fin 64, Region4.oneHot (BitVec.ofNat 32 n.val) k * cl k j = cl n j := by
  rw [Finset.sum_eq_single n]
  · simp [Region4.oneHot]
  · intro k _ hk
    have hne : BitVec.ofNat 32 n.val ≠ BitVec.ofNat 32 k.val := by
      intro h
      apply hk
      apply Fin.ext
      have h2 := congrArg BitVec.toNat h
      simp only [BitVec.toNat_ofNat] at h2
      have := n.isLt
      have := k.isLt
      omega
    simp [Region4.oneHot, hne]
  · intro h
    exact absurd (Finset.mem_univ n) h

theorem r0_x : Region0.xIn (V3 m ρ) c = (inputs m c idx).X := by
  funext i k
  exact congrFun (hk3 m ρ c main_arg0 (by decide)) (ix2 i k)
theorem r0_w0 : Region0.w0In (V3 m ρ) c = (inputs m c idx).w0 := by
  funext k j
  exact Host.w0_eq (W0 m ρ c) k j
theorem r0_b0 : Region0.b0In (V3 m ρ) c = (inputs m c idx).b0 := by
  funext j
  exact Host.b0_eq (W0 m ρ c) j
theorem r0_w1 : Region0.w1In (V3 m ρ) c = (inputs m c idx).w1 := by
  funext k j
  exact Host.w1_eq (W0 m ρ c) k j
theorem r0_b1 : Region0.b1In (V3 m ρ) c = (inputs m c idx).b1 := by
  funext j
  exact Host.b1_eq (W0 m ρ c) j

theorem act0 : Region0.act (V3 m ρ) c = Spec.act1 (inputs m c idx) := by
  unfold Region0.act Spec.act1
  rw [r0_x m ρ c idx, r0_w0 m ρ c idx, r0_b0 m ρ c idx, r0_w1 m ρ c idx, r0_b1 m ρ c idx]

theorem w4_act (i : Fin 8192) (j : Fin 512) :
    ((W4 m ρ c (Proc.devRef .tc main_v10_0) : Vec Ideal S8192x512 .bf16) (ix2 i j) : EReal)
      = Spec.act1 (inputs m c idx) i j := by
  have h := Region0.out5_eq (V3 m ρ) c i j
  rw [act0 m ρ c idx] at h
  exact (congrFun (W4_arr m ρ c 5) (ix2 i j)).trans h
theorem w4_sum (r : Fin 16) (j : Fin 512) :
    ((W4 m ρ c (Proc.devRef .tc main_v10_1) : Vec Ideal S16x512 .f32) (ix2 r j) : EReal)
      = Spec.coreSum (Spec.act1 (inputs m c idx)) ⟨r.val / 8, by have := r.isLt; omega⟩ j := by
  have h := Region0.out6_eq (V3 m ρ) c r j
  rw [act0 m ρ c idx] at h
  exact (congrFun (W4_arr m ρ c 6) (ix2 r j)).trans h
theorem w4_sq (r : Fin 16) (j : Fin 512) :
    ((W4 m ρ c (Proc.devRef .tc main_v10_2) : Vec Ideal S16x512 .f32) (ix2 r j) : EReal)
      = Spec.coreSumSq (Spec.act1 (inputs m c idx)) ⟨r.val / 8, by have := r.isLt; omega⟩ j := by
  have h := Region0.out7_eq (V3 m ρ) c r j
  rw [act0 m ρ c idx] at h
  exact (congrFun (W4_arr m ρ c 7) (ix2 r j)).trans h

theorem s1_S : Host.S1 (W4 m ρ c) = Spec.colS (Spec.act1 (inputs m c idx)) :=
  statOf_core _ (fun c' j => Spec.coreSum (Spec.act1 (inputs m c idx)) c' j) (fun r j => w4_sum m ρ c idx r j)
theorem s1_Q : Host.Q1 (W4 m ρ c) = Spec.colQ (Spec.act1 (inputs m c idx)) :=
  statOf_core _ (fun c' j => Spec.coreSumSq (Spec.act1 (inputs m c idx)) c' j) (fun r j => w4_sq m ρ c idx r j)
theorem s1_g : Host.g1 (W4 m ρ c) = (inputs m c idx).g1 := by
  funext j
  exact congrFun (ha4 m ρ c main_arg7 (by decide)) (ix1 j)
theorem s1_be : Host.be1 (W4 m ρ c) = (inputs m c idx).be1 := by
  funext j
  exact congrFun (ha4 m ρ c main_arg8 (by decide)) (ix1 j)
theorem s1_nb : Host.nb1 (W4 m ρ c) = (inputs m c idx).b2 := by
  funext j
  exact congrFun (ha4 m ρ c main_arg10 (by decide)) (ix1 j)

theorem r1_a : Region1.aIn (V5 m ρ) c = Spec.act1 (inputs m c idx) := by
  funext i k
  exact (congrFun (hk5 m ρ c main_v10_0 (by decide)) (ix2 i k)).trans (w4_act m ρ c idx i k)
theorem r1_sc : Region1.scIn (V5 m ρ) c
    = Spec.kScale (Spec.colS (Spec.act1 (inputs m c idx))) (Spec.colQ (Spec.act1 (inputs m c idx))) (inputs m c idx).g1 := by
  funext k
  rw [← s1_S m ρ c idx, ← s1_Q m ρ c idx, ← s1_g m ρ c idx]
  exact Host.scale1_eq (W4 m ρ c) k
theorem r1_sh : Region1.shIn (V5 m ρ) c
    = Spec.kShift (Spec.colS (Spec.act1 (inputs m c idx))) (Spec.colQ (Spec.act1 (inputs m c idx))) (inputs m c idx).g1 (inputs m c idx).be1 := by
  funext k
  rw [← s1_S m ρ c idx, ← s1_Q m ρ c idx, ← s1_g m ρ c idx, ← s1_be m ρ c idx]
  exact Host.shift1_eq (W4 m ρ c) k
theorem r1_w : Region1.wIn (V5 m ρ) c = (inputs m c idx).w2 := by
  funext k j
  exact (congrFun (from5 m ρ c main_v4 (by decide)) (ix2 k j)).trans (Host.w2_eq (W0 m ρ c) k j)
theorem r1_b : Region1.bIn (V5 m ρ) c = (inputs m c idx).b2 := by
  funext j
  rw [← s1_nb m ρ c idx]
  exact Host.bias1_eq (W4 m ρ c) j

theorem act1 : Region1.act (V5 m ρ) c = Spec.kAct2 (inputs m c idx) := by
  unfold Region1.act Spec.kAct2 Spec.kBN
  rw [r1_a m ρ c idx, r1_sc m ρ c idx, r1_sh m ρ c idx, r1_w m ρ c idx, r1_b m ρ c idx]

theorem w6_act (i : Fin 8192) (j : Fin 256) :
    ((W6 m ρ c (Proc.devRef .tc main_v36_0) : Vec Ideal S8192x256 .bf16) (ix2 i j) : EReal)
      = Spec.kAct2 (inputs m c idx) i j := by
  have h := Region1.out5_eq (V5 m ρ) c i j
  rw [act1 m ρ c idx] at h
  exact (congrFun (W6_arr m ρ c 5) (ix2 i j)).trans h
theorem w6_sum (r : Fin 16) (j : Fin 256) :
    ((W6 m ρ c (Proc.devRef .tc main_v36_1) : Vec Ideal S16x256 .f32) (ix2 r j) : EReal)
      = Spec.coreSum (Spec.kAct2 (inputs m c idx)) ⟨r.val / 8, by have := r.isLt; omega⟩ j := by
  have h := Region1.out6_eq (V5 m ρ) c r j
  rw [act1 m ρ c idx] at h
  exact (congrFun (W6_arr m ρ c 6) (ix2 r j)).trans h
theorem w6_sq (r : Fin 16) (j : Fin 256) :
    ((W6 m ρ c (Proc.devRef .tc main_v36_2) : Vec Ideal S16x256 .f32) (ix2 r j) : EReal)
      = Spec.coreSumSq (Spec.kAct2 (inputs m c idx)) ⟨r.val / 8, by have := r.isLt; omega⟩ j := by
  have h := Region1.out7_eq (V5 m ρ) c r j
  rw [act1 m ρ c idx] at h
  exact (congrFun (W6_arr m ρ c 7) (ix2 r j)).trans h

theorem s2_S : Host.S2 (W6 m ρ c) = Spec.colS (Spec.kAct2 (inputs m c idx)) :=
  statOf_core _ (fun c' j => Spec.coreSum (Spec.kAct2 (inputs m c idx)) c' j) (fun r j => w6_sum m ρ c idx r j)
theorem s2_Q : Host.Q2 (W6 m ρ c) = Spec.colQ (Spec.kAct2 (inputs m c idx)) :=
  statOf_core _ (fun c' j => Spec.coreSumSq (Spec.kAct2 (inputs m c idx)) c' j) (fun r j => w6_sq m ρ c idx r j)
theorem s2_g : Host.g2 (W6 m ρ c) = (inputs m c idx).g2 := by
  funext j
  exact congrFun (arg6 m ρ c main_arg11 (by decide)) (ix1 j)
theorem s2_be : Host.be2 (W6 m ρ c) = (inputs m c idx).be2 := by
  funext j
  exact congrFun (arg6 m ρ c main_arg12 (by decide)) (ix1 j)
theorem s2_nb : Host.nb2 (W6 m ρ c) = (inputs m c idx).b3 := by
  funext j
  exact congrFun (arg6 m ρ c main_arg14 (by decide)) (ix1 j)

abbrev latSc : Fin 256 → EReal :=
  Spec.kScale (Spec.colS (Spec.kAct2 (inputs m c idx))) (Spec.colQ (Spec.kAct2 (inputs m c idx))) (inputs m c idx).g2
abbrev latSh : Fin 256 → EReal :=
  Spec.kShift (Spec.colS (Spec.kAct2 (inputs m c idx))) (Spec.colQ (Spec.kAct2 (inputs m c idx))) (inputs m c idx).g2 (inputs m c idx).be2

theorem r2_a : Region2.aIn (V7 m ρ) c = Spec.kAct2 (inputs m c idx) := by
  funext i k
  exact (congrFun (hk7 m ρ c main_v36_0 (by decide)) (ix2 i k)).trans (w6_act m ρ c idx i k)
theorem r2_sc : Region2.scIn (V7 m ρ) c = latSc m c idx := by
  funext k
  unfold latSc
  rw [← s2_S m ρ c idx, ← s2_Q m ρ c idx, ← s2_g m ρ c idx]
  exact Host.scale2_eq (W6 m ρ c) k
theorem r2_sh : Region2.shIn (V7 m ρ) c = latSh m c idx := by
  funext k
  unfold latSh
  rw [← s2_S m ρ c idx, ← s2_Q m ρ c idx, ← s2_g m ρ c idx, ← s2_be m ρ c idx]
  exact Host.shift2_eq (W6 m ρ c) k
theorem r2_w : Region2.wIn (V7 m ρ) c = (inputs m c idx).w3 := by
  funext k j
  exact (congrFun (from7 m ρ c main_v5 (by decide)) (ix2 k j)).trans (Host.w3_eq (W0 m ρ c) k j)
theorem r2_b : Region2.bIn (V7 m ρ) c = (inputs m c idx).b3 := by
  funext j
  rw [← s2_nb m ρ c idx]
  exact Host.bias2_eq (W6 m ρ c) j

theorem act2 : Region2.act (V7 m ρ) c = Spec.kAct3 (inputs m c idx) := by
  unfold Region2.act Spec.kAct3 Spec.kLat Spec.kBN
  rw [r2_a m ρ c idx, r2_sc m ρ c idx, r2_sh m ρ c idx, r2_w m ρ c idx, r2_b m ρ c idx]

theorem w8_act (i : Fin 8192) (j : Fin 512) :
    ((W8 m ρ c (Proc.devRef .tc main_v62_0) : Vec Ideal S8192x512 .bf16) (ix2 i j) : EReal)
      = Spec.kAct3 (inputs m c idx) i j := by
  have h := Region2.out5_eq (V7 m ρ) c i j
  rw [act2 m ρ c idx] at h
  exact (congrFun (W8_arr m ρ c 5) (ix2 i j)).trans h
theorem w8_sum (r : Fin 16) (j : Fin 512) :
    ((W8 m ρ c (Proc.devRef .tc main_v62_1) : Vec Ideal S16x512 .f32) (ix2 r j) : EReal)
      = Spec.coreSum (Spec.kAct3 (inputs m c idx)) ⟨r.val / 8, by have := r.isLt; omega⟩ j := by
  have h := Region2.out6_eq (V7 m ρ) c r j
  rw [act2 m ρ c idx] at h
  exact (congrFun (W8_arr m ρ c 6) (ix2 r j)).trans h
theorem w8_sq (r : Fin 16) (j : Fin 512) :
    ((W8 m ρ c (Proc.devRef .tc main_v62_2) : Vec Ideal S16x512 .f32) (ix2 r j) : EReal)
      = Spec.coreSumSq (Spec.kAct3 (inputs m c idx)) ⟨r.val / 8, by have := r.isLt; omega⟩ j := by
  have h := Region2.out7_eq (V7 m ρ) c r j
  rw [act2 m ρ c idx] at h
  exact (congrFun (W8_arr m ρ c 7) (ix2 r j)).trans h

theorem s3_S : Host.S3 (W8 m ρ c) = Spec.colS (Spec.kAct3 (inputs m c idx)) :=
  statOf_core _ (fun c' j => Spec.coreSum (Spec.kAct3 (inputs m c idx)) c' j) (fun r j => w8_sum m ρ c idx r j)
theorem s3_Q : Host.Q3 (W8 m ρ c) = Spec.colQ (Spec.kAct3 (inputs m c idx)) :=
  statOf_core _ (fun c' j => Spec.coreSumSq (Spec.kAct3 (inputs m c idx)) c' j) (fun r j => w8_sq m ρ c idx r j)
theorem s3_g : Host.g3 (W8 m ρ c) = (inputs m c idx).g3 := by
  funext j
  exact congrFun (arg8 m ρ c main_arg15 (by decide)) (ix1 j)
theorem s3_be : Host.be3 (W8 m ρ c) = (inputs m c idx).be3 := by
  funext j
  exact congrFun (arg8 m ρ c main_arg16 (by decide)) (ix1 j)
theorem s3_nb : Host.nb3 (W8 m ρ c) = (inputs m c idx).b4 := by
  funext j
  exact congrFun (arg8 m ρ c main_arg18 (by decide)) (ix1 j)

theorem r3_a : Region3.aIn (V9 m ρ) c = Spec.kAct3 (inputs m c idx) := by
  funext i k
  exact (congrFun (hk9 m ρ c main_v62_0 (by decide)) (ix2 i k)).trans (w8_act m ρ c idx i k)
theorem r3_sc : Region3.scIn (V9 m ρ) c
    = Spec.kScale (Spec.colS (Spec.kAct3 (inputs m c idx))) (Spec.colQ (Spec.kAct3 (inputs m c idx))) (inputs m c idx).g3 := by
  funext k
  rw [← s3_S m ρ c idx, ← s3_Q m ρ c idx, ← s3_g m ρ c idx]
  exact Host.scale3_eq (W8 m ρ c) k
theorem r3_sh : Region3.shIn (V9 m ρ) c
    = Spec.kShift (Spec.colS (Spec.kAct3 (inputs m c idx))) (Spec.colQ (Spec.kAct3 (inputs m c idx))) (inputs m c idx).g3 (inputs m c idx).be3 := by
  funext k
  rw [← s3_S m ρ c idx, ← s3_Q m ρ c idx, ← s3_g m ρ c idx, ← s3_be m ρ c idx]
  exact Host.shift3_eq (W8 m ρ c) k
theorem r3_w : Region3.wIn (V9 m ρ) c = (inputs m c idx).w4 := by
  funext k j
  exact (congrFun (from9 m ρ c main_v6 (by decide)) (ix2 k j)).trans (Host.w4_eq (W0 m ρ c) k j)
theorem r3_b : Region3.bIn (V9 m ρ) c = (inputs m c idx).b4 := by
  funext j
  rw [← s3_nb m ρ c idx]
  exact Host.bias3_eq (W8 m ρ c) j

theorem act3 : Region3.act (V9 m ρ) c = Spec.kAct4 (inputs m c idx) := by
  unfold Region3.act Spec.kAct4 Spec.kBN
  rw [r3_a m ρ c idx, r3_sc m ρ c idx, r3_sh m ρ c idx, r3_w m ρ c idx, r3_b m ρ c idx]

theorem w10_act (i : Fin 8192) (j : Fin 1024) :
    ((W10 m ρ c (Proc.devRef .tc main_v88_0) : Vec Ideal S8192x1024 .bf16) (ix2 i j) : EReal)
      = Spec.kAct4 (inputs m c idx) i j := by
  have h := Region3.out5_eq (V9 m ρ) c i j
  rw [act3 m ρ c idx] at h
  exact (congrFun (W10_arr m ρ c 5) (ix2 i j)).trans h
theorem w10_sum (r : Fin 16) (j : Fin 1024) :
    ((W10 m ρ c (Proc.devRef .tc main_v88_1) : Vec Ideal S16x1024 .f32) (ix2 r j) : EReal)
      = Spec.coreSum (Spec.kAct4 (inputs m c idx)) ⟨r.val / 8, by have := r.isLt; omega⟩ j := by
  have h := Region3.out6_eq (V9 m ρ) c r j
  rw [act3 m ρ c idx] at h
  exact (congrFun (W10_arr m ρ c 6) (ix2 r j)).trans h
theorem w10_sq (r : Fin 16) (j : Fin 1024) :
    ((W10 m ρ c (Proc.devRef .tc main_v88_2) : Vec Ideal S16x1024 .f32) (ix2 r j) : EReal)
      = Spec.coreSumSq (Spec.kAct4 (inputs m c idx)) ⟨r.val / 8, by have := r.isLt; omega⟩ j := by
  have h := Region3.out7_eq (V9 m ρ) c r j
  rw [act3 m ρ c idx] at h
  exact (congrFun (W10_arr m ρ c 7) (ix2 r j)).trans h

theorem s4_S : Host.S4 (W10 m ρ c) = Spec.colS (Spec.kAct4 (inputs m c idx)) :=
  statOf_core _ (fun c' j => Spec.coreSum (Spec.kAct4 (inputs m c idx)) c' j) (fun r j => w10_sum m ρ c idx r j)
theorem s4_Q : Host.Q4 (W10 m ρ c) = Spec.colQ (Spec.kAct4 (inputs m c idx)) :=
  statOf_core _ (fun c' j => Spec.coreSumSq (Spec.kAct4 (inputs m c idx)) c' j) (fun r j => w10_sq m ρ c idx r j)
theorem s4_g : Host.g4 (W10 m ρ c) = (inputs m c idx).g4 := by
  funext j
  exact congrFun (arg10 m ρ c main_arg19 (by decide)) (ix1 j)
theorem s4_be : Host.be4 (W10 m ρ c) = (inputs m c idx).be4 := by
  funext j
  exact congrFun (arg10 m ρ c main_arg20 (by decide)) (ix1 j)
theorem s4_nb : Host.nb4 (W10 m ρ c) = (inputs m c idx).b5 := by
  funext j
  exact congrFun (arg10 m ρ c main_arg22 (by decide)) (ix1 j)

theorem r4_d : Region4.dIn (V11 m ρ) c = Spec.kAct4 (inputs m c idx) := by
  funext i k
  exact (congrFun (hk11 m ρ c main_v88_0 (by decide)) (ix2 i k)).trans (w10_act m ρ c idx i k)
theorem r4_sc : Region4.scIn (V11 m ρ) c
    = Spec.kScale (Spec.colS (Spec.kAct4 (inputs m c idx))) (Spec.colQ (Spec.kAct4 (inputs m c idx))) (inputs m c idx).g4 := by
  funext k
  rw [← s4_S m ρ c idx, ← s4_Q m ρ c idx, ← s4_g m ρ c idx]
  exact Host.scale4_eq (W10 m ρ c) k
theorem r4_sh : Region4.shIn (V11 m ρ) c
    = Spec.kShift (Spec.colS (Spec.kAct4 (inputs m c idx))) (Spec.colQ (Spec.kAct4 (inputs m c idx))) (inputs m c idx).g4 (inputs m c idx).be4 := by
  funext k
  rw [← s4_S m ρ c idx, ← s4_Q m ρ c idx, ← s4_g m ρ c idx, ← s4_be m ρ c idx]
  exact Host.shift4_eq (W10 m ρ c) k
theorem r4_w : Region4.wIn (V11 m ρ) c = (inputs m c idx).w5 := by
  funext k j
  exact (congrFun (from11 m ρ c main_v7 (by decide)) (ix2 k j)).trans (Host.w5_eq (W0 m ρ c) k j)
theorem r4_b : Region4.bIn (V11 m ρ) c = (inputs m c idx).b5 := by
  funext j
  rw [← s4_nb m ρ c idx]
  exact Host.bias4_eq (W10 m ρ c) j
theorem r4_x : Region4.xIn (V11 m ρ) c = (inputs m c idx).X := by
  funext i j
  exact congrFun (keep_main_arg0_11_0 m ρ c) (ix2 i j)
theorem r4_lp : Region4.lpIn (V11 m ρ) c = Spec.kAct2 (inputs m c idx) := by
  funext i j
  exact (congrFun (keep_main_v36_0_11_6 m ρ c) (ix2 i j)).trans (w6_act m ρ c idx i j)
theorem r4_sc2 : Region4.sc2In (V11 m ρ) c = latSc m c idx := by
  funext j
  unfold latSc
  rw [← s2_S m ρ c idx, ← s2_Q m ρ c idx, ← s2_g m ρ c idx]
  exact ((Host.latScRow_eq (W10 m ρ c) j).trans (congrFun (keep_10_7 m ρ c main_v56 (by decide)) (ix1 j))).trans
    (Host.scaleVec2_eq (W6 m ρ c) j)
theorem r4_sh2 : Region4.sh2In (V11 m ρ) c = latSh m c idx := by
  funext j
  unfold latSh
  rw [← s2_S m ρ c idx, ← s2_Q m ρ c idx, ← s2_g m ρ c idx, ← s2_be m ρ c idx]
  exact ((Host.latShRow_eq (W10 m ρ c) j).trans (congrFun (keep_10_7 m ρ c main_v58 (by decide)) (ix1 j))).trans
    (Host.shiftVec2_eq (W6 m ρ c) j)
theorem r4_cl : Region4.clIn (V11 m ρ) c = (inputs m c idx).cl := by
  funext k j
  exact congrFun (arg11 m ρ c main_arg2 (by decide)) (ix2 k j)
theorem r4_cid (hidx : ∀ i : Fin 8192, ((m ((c.tc : Thread nD τ).loc main_arg1) : Vec Ideal S8192 .i32) (ix1 i) : BitVec 32)
      = BitVec.ofNat 32 (idx i).val) (i : Fin 8192) :
    Region4.cidIn (V11 m ρ) c i = BitVec.ofNat 32 (idx i).val :=
  (congrFun (from11 m ρ c main_v1 (by decide)) (ix2 i 0)).trans (Host.cid_eq (W0 m ρ c) i (idx i) (hidx i))

theorem rec4 : Region4.rec (V11 m ρ) c = Spec.kRec (inputs m c idx) := by
  unfold Region4.rec Spec.kRec Spec.kBN
  rw [r4_d m ρ c idx, r4_sc m ρ c idx, r4_sh m ρ c idx, r4_w m ρ c idx, r4_b m ρ c idx]
theorem recErr4 : Region4.recErr (V11 m ρ) c = Spec.kRecErr (inputs m c idx) := by
  unfold Region4.recErr Spec.kRecErr
  rw [r4_x m ρ c idx, rec4 m ρ c idx]
theorem lat4 : Region4.lat (V11 m ρ) c = Spec.kLat (inputs m c idx) := by
  unfold Region4.lat Spec.kLat Spec.kBN
  rw [r4_lp m ρ c idx, r4_sc2 m ρ c idx, r4_sh2 m ρ c idx]
theorem distErr4 (hidx : ∀ i : Fin 8192, ((m ((c.tc : Thread nD τ).loc main_arg1) : Vec Ideal S8192 .i32) (ix1 i) : BitVec 32)
      = BitVec.ofNat 32 (idx i).val) :
    Region4.distErr (V11 m ρ) c = Spec.kDistErr (inputs m c idx) := by
  funext i j
  unfold Region4.distErr Spec.kDistErr
  have hs : Region4.sel (V11 m ρ) c i j = (inputs m c idx).cl (idx i) j := by
    unfold Region4.sel
    rw [r4_cid m ρ c idx hidx i, r4_cl m ρ c idx]
    exact sel_eq _ (idx i) j
  rw [hs, lat4 m ρ c idx]
  rfl

theorem w12_rec (r : Fin 16) :
    ((W12 m ρ c (Proc.devRef .tc main_v116_0) : Vec Ideal S16x1 .f32) (ix2 r 0) : EReal)
      = Spec.coreTot (Spec.kRecErr (inputs m c idx)) ⟨r.val / 8, by have := r.isLt; omega⟩ := by
  have h := Region4.out11_eq (V11 m ρ) c r
  rw [recErr4 m ρ c idx] at h
  exact (congrFun (W12_arr m ρ c 11) (ix2 r 0)).trans h
theorem w12_dist (hidx : ∀ i : Fin 8192, ((m ((c.tc : Thread nD τ).loc main_arg1) : Vec Ideal S8192 .i32) (ix1 i) : BitVec 32)
      = BitVec.ofNat 32 (idx i).val) (r : Fin 16) :
    ((W12 m ρ c (Proc.devRef .tc main_v116_1) : Vec Ideal S16x1 .f32) (ix2 r 0) : EReal)
      = Spec.coreTot (Spec.kDistErr (inputs m c idx)) ⟨r.val / 8, by have := r.isLt; omega⟩ := by
  have h := Region4.out12_eq (V11 m ρ) c r
  rw [distErr4 m ρ c idx hidx] at h
  exact (congrFun (W12_arr m ρ c 12) (ix2 r 0)).trans h

end

theorem result_eq (c : Dev nD) (idx : Fin 8192 → Fin 64)
    (hidx : ∀ i : Fin 8192, ((m ((c.tc : Thread nD τ).loc main_arg1) : Vec Ideal S8192 .i32) (ix1 i) : BitVec 32)
      = BitVec.ofNat 32 (idx i).val) :
    ((W13 m ρ c (Proc.devRef .tc main_v130) : Vec Ideal S_ .f32) ix0 : EReal) = Spec.kVal (inputs m c idx) := by
  unfold Spec.kVal
  rw [← twoCore_core (fun r => ((W12 m ρ c (Proc.devRef .tc main_v116_0) : Vec Ideal S16x1 .f32) (ix2 r 0) : EReal))
        (Spec.coreTot (Spec.kRecErr (inputs m c idx))) (fun r => w12_rec m ρ c idx r),
      ← twoCore_core (fun r => ((W12 m ρ c (Proc.devRef .tc main_v116_1) : Vec Ideal S16x1 .f32) (ix2 r 0) : EReal))
        (Spec.coreTot (Spec.kDistErr (inputs m c idx))) (fun r => w12_dist m ρ c idx hidx r)]
  exact Host.result_eq (W12 m ρ c)

end Cert.KernelIdeal.Chain

end
-- ==== Proof.RefRunAlt.lean ====
/- The reference's @main is a straight line of 183 host operations, cut into twelve stretches. Run from any buffer
   contents, a stretch leaves every buffer it does not write, and its last value is a stage of the reference's value
   chain, computed from the stages before it and the arguments it reads; so the result buffer ends at the last stage
   of the argument buffers' contents. -/
import proofs.«426192_j71700184039604_3_alg».proof.Proof.RefRunOps
import proofs.«426192_j71700184039604_3_alg».proof.Proof.RefRead
import Idealize.ShloMosaic.Lib.StableHlo.Run

noncomputable section

namespace Cert.ReferenceIdeal.RefRunAlt

open Cert.ReferenceIdeal Cert.ReferenceIdeal.Gen Idealize.ShloMosaic Idealize.ShloMosaic.TcCoe Idealize.SL.Sem Idealize.ShloMosaic.StableHlo

variable {F : FTy → Type} [FloatOps F]

theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

abbrev ops1_W : List (Ref sig .tc) := [main_v0, main_v1, main_v2, main_v3, main_call0_cst, main_call0_v0, main_v4, main_v5, main_v6, main_v7, main_v8, main_call1_cst, main_call1_v0, main_v9]
abbrev ops2_W : List (Ref sig .tc) := [main_cst, main_v10, main_cst_0, main_v11, main_v12, main_v13, main_v14, main_v15, main_v16, main_cst_1, main_v17, main_cst_2, main_v18, main_v19, main_v20, main_v21, main_v22, main_v23, main_v24, main_v25, main_cst_3, main_v26, main_v27, main_v28, main_v29, main_v30, main_v31, main_v32, main_v33, main_v34]
abbrev ops3_W : List (Ref sig .tc) := [main_v35, main_v36, main_v37, main_v38, main_call2_cst, main_call2_v0, main_v39]
abbrev ops4_W : List (Ref sig .tc) := [main_cst_4, main_v40, main_cst_5, main_v41, main_v42, main_v43, main_v44, main_v45, main_v46, main_cst_6, main_v47, main_cst_7, main_v48, main_v49, main_v50, main_v51, main_v52, main_v53, main_v54, main_v55, main_cst_8, main_v56, main_v57, main_v58, main_v59, main_v60, main_v61, main_v62, main_v63, main_v64]
abbrev ops5_W : List (Ref sig .tc) := [main_v65, main_v66, main_v67, main_v68, main_call3_cst, main_call3_v0, main_v69]
abbrev ops6_W : List (Ref sig .tc) := [main_cst_9, main_v70, main_cst_10, main_v71, main_v72, main_v73, main_v74, main_v75, main_v76, main_cst_11, main_v77, main_cst_12, main_v78, main_v79, main_v80, main_v81, main_v82, main_v83, main_v84, main_v85, main_cst_13, main_v86, main_v87, main_v88, main_v89, main_v90, main_v91, main_v92, main_v93, main_v94]
abbrev ops7_W : List (Ref sig .tc) := [main_v95, main_v96, main_v97, main_v98, main_call4_cst, main_call4_v0, main_v99]
abbrev ops8_W : List (Ref sig .tc) := [main_cst_14, main_v100, main_cst_15, main_v101, main_v102, main_v103, main_v104, main_v105, main_v106, main_cst_16, main_v107, main_cst_17, main_v108, main_v109, main_v110, main_v111, main_v112, main_v113, main_v114, main_v115, main_cst_18, main_v116, main_v117, main_v118, main_v119, main_v120, main_v121, main_v122, main_v123, main_v124]
abbrev ops9_W : List (Ref sig .tc) := [main_v125, main_v126, main_v127, main_v128]
abbrev ops10_W : List (Ref sig .tc) := [main_v129, main_v130, main_cst_19, main_v131, main_cst_20, main_v132, main_cst_21, main_v133]
abbrev ops11_W : List (Ref sig .tc) := [main_c, main_v134, main_v135, main_c_22, main_v136, main_v137, main_v138, main_v139, main_v140]
abbrev ops12_W : List (Ref sig .tc) := [main_v141, main_v142, main_cst_23, main_v143, main_cst_24, main_v144, main_v145]

abbrev Sub (l : List (HloOp τ sig (Elt F))) (w : List (Ref sig .tc)) : Prop :=
  l.Forall fun op => op.writes ⊆ (w.map (Proc.devRef (τ := τ) .tc)).toFinset

/-- Each stretch writes only the buffers listed for it. -/
theorem writes : Sub (F := F) ops1 ops1_W ∧ Sub (F := F) ops2 ops2_W ∧ Sub (F := F) ops3 ops3_W ∧ Sub (F := F) ops4 ops4_W ∧
    Sub (F := F) ops5 ops5_W ∧ Sub (F := F) ops6 ops6_W ∧ Sub (F := F) ops7 ops7_W ∧ Sub (F := F) ops8 ops8_W ∧
    Sub (F := F) ops9 ops9_W ∧ Sub (F := F) ops10 ops10_W ∧ Sub (F := F) ops11 ops11_W ∧ Sub (F := F) ops12 ops12_W := by
  simp only [Sub, ops1, ops2, ops3, ops4, ops5, ops6, ops7, ops8, ops9, ops10, ops11, ops12, List.Forall, StableHlo.nullary_writes, StableHlo.unary_writes, StableHlo.binary_writes,
    StableHlo.ternary_writes, StableHlo.quaternary_writes, StableHlo.reshape_writes, StableHlo.binaryIndexed_writes,
    StableHlo.nary_writes, StableHlo.unaryIndexed_writes, Finset.singleton_subset_iff, List.mem_toFinset]
  repeat' apply And.intro
  all_goals exact List.mem_map_of_mem (by decide)

section Steps
variable (V : Valuation τ sig (Elt F))

theorem step1 {x0 x3 x4 x5 x6} (h0 : V (Proc.devRef .tc main_arg0) = x0) (h3 : V (Proc.devRef .tc main_arg3) = x3) (h4 : V (Proc.devRef .tc main_arg4) = x4)
    (h5 : V (Proc.devRef .tc main_arg5) = x5) (h6 : V (Proc.devRef .tc main_arg6) = x6) :
    after ops1 V (Proc.devRef .tc main_v9) = ReadP.val_main_v9 (F := F) x0 x3 x4 x5 x6 := by
  subst h0 h3 h4 h5 h6
  after_results_simp
  rfl

theorem step2 {x0 x3 x4 x5 x6 x7 x8} (h : V (Proc.devRef .tc main_v9) = ReadP.val_main_v9 (F := F) x0 x3 x4 x5 x6)
    (h7 : V (Proc.devRef .tc main_arg7) = x7) (h8 : V (Proc.devRef .tc main_arg8) = x8) :
    after ops2 V (Proc.devRef .tc main_v34) = ReadP.val_main_v34 (F := F) x0 x3 x4 x5 x6 x7 x8 := by
  subst h7 h8
  after_results_simp
  rw [h]
  rfl

theorem step3 {x0 x3 x4 x5 x6 x7 x8 x9 x10} (h : V (Proc.devRef .tc main_v34) = ReadP.val_main_v34 (F := F) x0 x3 x4 x5 x6 x7 x8)
    (h9 : V (Proc.devRef .tc main_arg9) = x9) (h10 : V (Proc.devRef .tc main_arg10) = x10) :
    after ops3 V (Proc.devRef .tc main_v39) = ReadP.val_main_v39 (F := F) x0 x3 x4 x5 x6 x7 x8 x9 x10 := by
  subst h9 h10
  after_results_simp
  rw [h]
  rfl

theorem step4 {x0 x3 x4 x5 x6 x7 x8 x9 x10 x11 x12} (h : V (Proc.devRef .tc main_v39) = ReadP.val_main_v39 (F := F) x0 x3 x4 x5 x6 x7 x8 x9 x10)
    (h11 : V (Proc.devRef .tc main_arg11) = x11) (h12 : V (Proc.devRef .tc main_arg12) = x12) :
    after ops4 V (Proc.devRef .tc main_v64) = ReadP.val_main_v64 (F := F) x0 x3 x4 x5 x6 x7 x8 x9 x10 x11 x12 := by
  subst h11 h12
  after_results_simp
  rw [h]
  rfl

theorem step5 {x0 x3 x4 x5 x6 x7 x8 x9 x10 x11 x12 x13 x14} (h : V (Proc.devRef .tc main_v64) = ReadP.val_main_v64 (F := F) x0 x3 x4 x5 x6 x7 x8 x9 x10 x11 x12)
    (h13 : V (Proc.devRef .tc main_arg13) = x13) (h14 : V (Proc.devRef .tc main_arg14) = x14) :
    after ops5 V (Proc.devRef .tc main_v69) = ReadP.val_main_v69 (F := F) x0 x3 x4 x5 x6 x7 x8 x9 x10 x11 x12 x13 x14 := by
  subst h13 h14
  after_results_simp
  rw [h]
  rfl

theorem step6 {x0 x3 x4 x5 x6 x7 x8 x9 x10 x11 x12 x13 x14 x15 x16} (h : V (Proc.devRef .tc main_v69) = ReadP.val_main_v69 (F := F) x0 x3 x4 x5 x6 x7 x8 x9 x10 x11 x12 x13 x14)
    (h15 : V (Proc.devRef .tc main_arg15) = x15) (h16 : V (Proc.devRef .tc main_arg16) = x16) :
    after ops6 V (Proc.devRef .tc main_v94) = ReadP.val_main_v94 (F := F) x0 x3 x4 x5 x6 x7 x8 x9 x10 x11 x12 x13 x14 x15 x16 := by
  subst h15 h16
  after_results_simp
  rw [h]
  rfl

theorem step7 {x0 x3 x4 x5 x6 x7 x8 x9 x10 x11 x12 x13 x14 x15 x16 x17 x18} (h : V (Proc.devRef .tc main_v94) = ReadP.val_main_v94 (F := F) x0 x3 x4 x5 x6 x7 x8 x9 x10 x11 x12 x13 x14 x15 x16)
    (h17 : V (Proc.devRef .tc main_arg17) = x17) (h18 : V (Proc.devRef .tc main_arg18) = x18) :
    after ops7 V (Proc.devRef .tc main_v99) =
      ReadP.val_main_v99 (F := F) x0 x3 x4 x5 x6 x7 x8 x9 x10 x11 x12 x13 x14 x15 x16 x17 x18 := by
  subst h17 h18
  after_results_simp
  rw [h]
  rfl

theorem step8 {x0 x3 x4 x5 x6 x7 x8 x9 x10 x11 x12 x13 x14 x15 x16 x17 x18 x19 x20} (h : V (Proc.devRef .tc main_v99) = ReadP.val_main_v99 (F := F) x0 x3 x4 x5 x6 x7 x8 x9 x10 x11 x12 x13 x14 x15 x16 x17 x18)
    (h19 : V (Proc.devRef .tc main_arg19) = x19) (h20 : V (Proc.devRef .tc main_arg20) = x20) :
    after ops8 V (Proc.devRef .tc main_v124) =
      ReadP.val_main_v124 (F := F) x0 x3 x4 x5 x6 x7 x8 x9 x10 x11 x12 x13 x14 x15 x16 x17 x18 x19 x20 := by
  subst h19 h20
  after_results_simp
  rw [h]
  rfl

theorem step9 {x0 x3 x4 x5 x6 x7 x8 x9 x10 x11 x12 x13 x14 x15 x16 x17 x18 x19 x20 x21 x22}
    (h : V (Proc.devRef .tc main_v124) = ReadP.val_main_v124 (F := F) x0 x3 x4 x5 x6 x7 x8 x9 x10 x11 x12 x13 x14 x15 x16 x17 x18 x19 x20)
    (h21 : V (Proc.devRef .tc main_arg21) = x21) (h22 : V (Proc.devRef .tc main_arg22) = x22) :
    after ops9 V (Proc.devRef .tc main_v128) =
      ReadP.val_main_v128 (F := F) x0 x3 x4 x5 x6 x7 x8 x9 x10 x11 x12 x13 x14 x15 x16 x17 x18 x19 x20 x21 x22 := by
  subst h21 h22
  after_results_simp
  rw [h]
  rfl

theorem step10 {x0 x3 x4 x5 x6 x7 x8 x9 x10 x11 x12 x13 x14 x15 x16 x17 x18 x19 x20 x21 x22}
    (h : V (Proc.devRef .tc main_v128) =
      ReadP.val_main_v128 (F := F) x0 x3 x4 x5 x6 x7 x8 x9 x10 x11 x12 x13 x14 x15 x16 x17 x18 x19 x20 x21 x22)
    (h0 : V (Proc.devRef .tc main_arg0) = x0) :
    after ops10 V (Proc.devRef .tc main_v133) =
      ReadP.val_main_v133 (F := F) x0 x3 x4 x5 x6 x7 x8 x9 x10 x11 x12 x13 x14 x15 x16 x17 x18 x19 x20 x21 x22 := by
  subst h0
  after_results_simp
  rw [h]
  rfl

theorem step11 {x1 x2} (h1 : V (Proc.devRef .tc main_arg1) = x1) (h2 : V (Proc.devRef .tc main_arg2) = x2) :
    after ops11 V (Proc.devRef .tc main_v140) = ReadP.val_main_v140 (F := F) x1 x2 := by
  subst h1 h2
  after_results_simp
  rfl

theorem step12 {x0 x1 x2 x3 x4 x5 x6 x7 x8 x9 x10 x11 x12 x13 x14 x15 x16 x17 x18 x19 x20 x21 x22} (h64 : V (Proc.devRef .tc main_v64) = ReadP.val_main_v64 (F := F) x0 x3 x4 x5 x6 x7 x8 x9 x10 x11 x12)
    (h140 : V (Proc.devRef .tc main_v140) = ReadP.val_main_v140 (F := F) x1 x2)
    (h133 : V (Proc.devRef .tc main_v133) =
      ReadP.val_main_v133 (F := F) x0 x3 x4 x5 x6 x7 x8 x9 x10 x11 x12 x13 x14 x15 x16 x17 x18 x19 x20 x21 x22) :
    after ops12 V (Proc.devRef .tc main_v145) =
      ReadP.val_main_v145 (F := F) x0 x1 x2 x3 x4 x5 x6 x7 x8 x9 x10 x11 x12 x13 x14 x15 x16 x17 x18 x19 x20 x21 x22 := by
  after_results_simp
  rw [h64, h140, h133]
  rfl

end Steps

section Chain
variable (W : Valuation τ sig (Elt F))

abbrev V1 : Valuation τ sig (Elt F) := after ops1 W
abbrev V2 : Valuation τ sig (Elt F) := after ops2 (V1 W)
abbrev V3 : Valuation τ sig (Elt F) := after ops3 (V2 W)
abbrev V4 : Valuation τ sig (Elt F) := after ops4 (V3 W)
abbrev V5 : Valuation τ sig (Elt F) := after ops5 (V4 W)
abbrev V6 : Valuation τ sig (Elt F) := after ops6 (V5 W)
abbrev V7 : Valuation τ sig (Elt F) := after ops7 (V6 W)
abbrev V8 : Valuation τ sig (Elt F) := after ops8 (V7 W)
abbrev V9 : Valuation τ sig (Elt F) := after ops9 (V8 W)
abbrev V10 : Valuation τ sig (Elt F) := after ops10 (V9 W)
abbrev V11 : Valuation τ sig (Elt F) := after ops11 (V10 W)
abbrev V12 : Valuation τ sig (Elt F) := after ops12 (V11 W)

theorem after_ops_eq : after ops W = V12 W := by
  simp only [ops, after_append]

/-- If `V` agrees with `W` off the buffers `u`, then after a stretch writing `w` it agrees with `W` off `u ++ w`. -/
theorem keep_step {V : Valuation τ sig (Elt F)} {l : List (HloOp τ sig (Elt F))} {u w : List (Ref sig .tc)}
    (hu : ∀ r, r ∉ u → V (Proc.devRef .tc r) = W (Proc.devRef .tc r)) (hw : Sub l w) (r : Ref sig .tc) (h : r ∉ u ++ w) :
    after l V (Proc.devRef .tc r) = W (Proc.devRef .tc r) :=
  (after_of_writes_sub l V hw fun hm => h (List.mem_append_right _ hm)).trans (hu r fun hm => h (List.mem_append_left _ hm))

abbrev upto1_W : List (Ref sig .tc) := [] ++ ops1_W
abbrev upto2_W : List (Ref sig .tc) := upto1_W ++ ops2_W
abbrev upto3_W : List (Ref sig .tc) := upto2_W ++ ops3_W
abbrev upto4_W : List (Ref sig .tc) := upto3_W ++ ops4_W
abbrev upto5_W : List (Ref sig .tc) := upto4_W ++ ops5_W
abbrev upto6_W : List (Ref sig .tc) := upto5_W ++ ops6_W
abbrev upto7_W : List (Ref sig .tc) := upto6_W ++ ops7_W
abbrev upto8_W : List (Ref sig .tc) := upto7_W ++ ops8_W
abbrev upto9_W : List (Ref sig .tc) := upto8_W ++ ops9_W
abbrev upto10_W : List (Ref sig .tc) := upto9_W ++ ops10_W
abbrev upto11_W : List (Ref sig .tc) := upto10_W ++ ops11_W
abbrev upto12_W : List (Ref sig .tc) := upto11_W ++ ops12_W

theorem V1_keep : ∀ r, r ∉ upto1_W → V1 W (Proc.devRef .tc r) = W (Proc.devRef .tc r) := keep_step W (fun _ _ => rfl) writes.1
theorem V2_keep : ∀ r, r ∉ upto2_W → V2 W (Proc.devRef .tc r) = W (Proc.devRef .tc r) := keep_step W (V1_keep W) writes.2.1
theorem V3_keep : ∀ r, r ∉ upto3_W → V3 W (Proc.devRef .tc r) = W (Proc.devRef .tc r) := keep_step W (V2_keep W) writes.2.2.1
theorem V4_keep : ∀ r, r ∉ upto4_W → V4 W (Proc.devRef .tc r) = W (Proc.devRef .tc r) := keep_step W (V3_keep W) writes.2.2.2.1
theorem V5_keep : ∀ r, r ∉ upto5_W → V5 W (Proc.devRef .tc r) = W (Proc.devRef .tc r) := keep_step W (V4_keep W) writes.2.2.2.2.1
theorem V6_keep : ∀ r, r ∉ upto6_W → V6 W (Proc.devRef .tc r) = W (Proc.devRef .tc r) := keep_step W (V5_keep W) writes.2.2.2.2.2.1
theorem V7_keep : ∀ r, r ∉ upto7_W → V7 W (Proc.devRef .tc r) = W (Proc.devRef .tc r) := keep_step W (V6_keep W) writes.2.2.2.2.2.2.1
theorem V8_keep : ∀ r, r ∉ upto8_W → V8 W (Proc.devRef .tc r) = W (Proc.devRef .tc r) := keep_step W (V7_keep W) writes.2.2.2.2.2.2.2.1
theorem V9_keep : ∀ r, r ∉ upto9_W → V9 W (Proc.devRef .tc r) = W (Proc.devRef .tc r) := keep_step W (V8_keep W) writes.2.2.2.2.2.2.2.2.1
theorem V10_keep : ∀ r, r ∉ upto10_W → V10 W (Proc.devRef .tc r) = W (Proc.devRef .tc r) :=
  keep_step W (V9_keep W) writes.2.2.2.2.2.2.2.2.2.1
theorem V11_keep : ∀ r, r ∉ upto11_W → V11 W (Proc.devRef .tc r) = W (Proc.devRef .tc r) :=
  keep_step W (V10_keep W) writes.2.2.2.2.2.2.2.2.2.2.1
theorem V12_keep : ∀ r, r ∉ upto12_W → V12 W (Proc.devRef .tc r) = W (Proc.devRef .tc r) :=
  keep_step W (V11_keep W) writes.2.2.2.2.2.2.2.2.2.2.2

/-- The whole line leaves the last stage, at the argument buffers' contents, in the result buffer. -/
theorem after_ops_result :
    after ops W (Proc.devRef .tc main_v145) = ReadP.val_main_v145 (F := F) (W (Proc.devRef .tc main_arg0)) (W (Proc.devRef .tc main_arg1)) (W (Proc.devRef .tc main_arg2)) (W (Proc.devRef .tc main_arg3)) (W (Proc.devRef .tc main_arg4)) (W (Proc.devRef .tc main_arg5))
      (W (Proc.devRef .tc main_arg6)) (W (Proc.devRef .tc main_arg7)) (W (Proc.devRef .tc main_arg8)) (W (Proc.devRef .tc main_arg9)) (W (Proc.devRef .tc main_arg10)) (W (Proc.devRef .tc main_arg11))
      (W (Proc.devRef .tc main_arg12)) (W (Proc.devRef .tc main_arg13)) (W (Proc.devRef .tc main_arg14)) (W (Proc.devRef .tc main_arg15)) (W (Proc.devRef .tc main_arg16)) (W (Proc.devRef .tc main_arg17))
      (W (Proc.devRef .tc main_arg18)) (W (Proc.devRef .tc main_arg19)) (W (Proc.devRef .tc main_arg20)) (W (Proc.devRef .tc main_arg21)) (W (Proc.devRef .tc main_arg22)) := by
  rw [after_ops_eq]
  have h4 := step4 (V3 W) (step3 (V2 W) (step2 (V1 W) (step1 W rfl rfl rfl rfl rfl)
    (V1_keep W main_arg7 (by decide)) (V1_keep W main_arg8 (by decide)))
    (V2_keep W main_arg9 (by decide)) (V2_keep W main_arg10 (by decide)))
    (V3_keep W main_arg11 (by decide)) (V3_keep W main_arg12 (by decide))
  have h10 := step10 (V9 W) (step9 (V8 W) (step8 (V7 W) (step7 (V6 W) (step6 (V5 W) (step5 (V4 W) h4
    (V4_keep W main_arg13 (by decide)) (V4_keep W main_arg14 (by decide)))
    (V5_keep W main_arg15 (by decide)) (V5_keep W main_arg16 (by decide)))
    (V6_keep W main_arg17 (by decide)) (V6_keep W main_arg18 (by decide)))
    (V7_keep W main_arg19 (by decide)) (V7_keep W main_arg20 (by decide)))
    (V8_keep W main_arg21 (by decide)) (V8_keep W main_arg22 (by decide)))
    (V9_keep W main_arg0 (by decide))
  have k : ∀ (V : Valuation τ sig (Elt F)) (l : List (HloOp τ sig (Elt F))) (w : List (Ref sig .tc)), Sub l w → main_v64 ∉ w →
      after l V (Proc.devRef .tc main_v64) = V (Proc.devRef .tc main_v64) := fun V l _ hw h => after_of_writes_sub l V hw h
  exact step12 (V11 W)
    ((k (V10 W) ops11 _ writes.2.2.2.2.2.2.2.2.2.2.1 (by decide)).trans <| (k (V9 W) ops10 _ writes.2.2.2.2.2.2.2.2.2.1 (by decide)).trans <|
      (k (V8 W) ops9 _ writes.2.2.2.2.2.2.2.2.1 (by decide)).trans <| (k (V7 W) ops8 _ writes.2.2.2.2.2.2.2.1 (by decide)).trans <|
      (k (V6 W) ops7 _ writes.2.2.2.2.2.2.1 (by decide)).trans <| (k (V5 W) ops6 _ writes.2.2.2.2.2.1 (by decide)).trans <|
      (k (V4 W) ops5 _ writes.2.2.2.2.1 (by decide)).trans h4)
    (step11 (V10 W) (V10_keep W main_arg1 (by decide)) (V10_keep W main_arg2 (by decide)))
    ((after_of_writes_sub ops11 (V10 W) writes.2.2.2.2.2.2.2.2.2.2.1 (by decide)).trans h10)

theorem after_ops_keep (r : Ref sig .tc) (h : r ∉ upto12_W) :
    after ops W (Proc.devRef .tc r) = W (Proc.devRef .tc r) := by
  rw [after_ops_eq]
  exact V12_keep W r h

end Chain

end Cert.ReferenceIdeal.RefRunAlt

end
-- ==== Proof.RefRun.lean ====
/- The reference's run ends with its result at the last stage of its value chain and its arguments unchanged. -/
import proofs.«426192_j71700184039604_3_alg».proof.Proof.RefRead
import proofs.«426192_j71700184039604_3_alg».proof.Proof.RefRunAlt

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem ops_fresh : (RefRunAlt.ops : List (HloOp τ sig (Elt F))).Forall fun op => op.fresh = ∅ := by
  repeat' apply RefRunAlt.forall_append
  all_goals (simp only [List.Forall]; repeat' constructor)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v145) = Cert.ReferenceIdeal.ReadP.val_main_v145 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v145).trans (RefRunAlt.after_ops_result _),
      (h c main_arg0).trans (RefRunAlt.after_ops_keep _ main_arg0 (by decide)),
      (h c main_arg1).trans (RefRunAlt.after_ops_keep _ main_arg1 (by decide)),
      (h c main_arg2).trans (RefRunAlt.after_ops_keep _ main_arg2 (by decide)),
      (h c main_arg3).trans (RefRunAlt.after_ops_keep _ main_arg3 (by decide)),
      (h c main_arg4).trans (RefRunAlt.after_ops_keep _ main_arg4 (by decide)),
      (h c main_arg5).trans (RefRunAlt.after_ops_keep _ main_arg5 (by decide)),
      (h c main_arg6).trans (RefRunAlt.after_ops_keep _ main_arg6 (by decide)),
      (h c main_arg7).trans (RefRunAlt.after_ops_keep _ main_arg7 (by decide)),
      (h c main_arg8).trans (RefRunAlt.after_ops_keep _ main_arg8 (by decide)),
      (h c main_arg9).trans (RefRunAlt.after_ops_keep _ main_arg9 (by decide)),
      (h c main_arg10).trans (RefRunAlt.after_ops_keep _ main_arg10 (by decide)),
      (h c main_arg11).trans (RefRunAlt.after_ops_keep _ main_arg11 (by decide)),
      (h c main_arg12).trans (RefRunAlt.after_ops_keep _ main_arg12 (by decide)),
      (h c main_arg13).trans (RefRunAlt.after_ops_keep _ main_arg13 (by decide)),
      (h c main_arg14).trans (RefRunAlt.after_ops_keep _ main_arg14 (by decide)),
      (h c main_arg15).trans (RefRunAlt.after_ops_keep _ main_arg15 (by decide)),
      (h c main_arg16).trans (RefRunAlt.after_ops_keep _ main_arg16 (by decide)),
      (h c main_arg17).trans (RefRunAlt.after_ops_keep _ main_arg17 (by decide)),
      (h c main_arg18).trans (RefRunAlt.after_ops_keep _ main_arg18 (by decide)),
      (h c main_arg19).trans (RefRunAlt.after_ops_keep _ main_arg19 (by decide)),
      (h c main_arg20).trans (RefRunAlt.after_ops_keep _ main_arg20 (by decide)),
      (h c main_arg21).trans (RefRunAlt.after_ops_keep _ main_arg21 (by decide)),
      (h c main_arg22).trans (RefRunAlt.after_ops_keep _ main_arg22 (by decide))⟩)
    (run_seq RefRunAlt.scopedRefs_eq RefRunAlt.scopedSems_eq defs main (fun _ => RefRunAlt.ops) RefRunAlt.main_eq
      (fun _ => RefRunAlt.ops_sub) m ρ (fun _ => List.forall_iff_forall_mem.mp ops_fresh))

end Cert.ReferenceIdeal.RefRun

end
-- ==== Proof.RefValueA.lean ====
/- The reference's dense layers at an index: a contraction along the second axis, plus a bias row, cut off below at zero. -/
import proofs.«426192_j71700184039604_3_alg».proof.Proof.RefRead
import proofs.«426192_j71700184039604_3_alg».proof.Proof.Spec
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP

variable (x0 : Vec Ideal S8192x2048 .f32) (x1 : Vec Ideal S8192 .i32) (x2 : Vec Ideal S64x256 .f32)
  (x3 : Vec Ideal S2048x1024 .f32) (x4 : Vec Ideal S1024 .f32) (x5 : Vec Ideal S1024x512 .f32)
  (x6 x7 x8 : Vec Ideal S512 .f32) (x9 : Vec Ideal S512x256 .f32) (x10 x11 x12 : Vec Ideal S256 .f32)
  (x13 : Vec Ideal S256x512 .f32) (x14 x15 x16 : Vec Ideal S512 .f32) (x17 : Vec Ideal S512x1024 .f32)
  (x18 x19 x20 : Vec Ideal S1024 .f32) (x21 : Vec Ideal S1024x2048 .f32) (x22 : Vec Ideal S2048 .f32)

theorem dense0 (A : Fin 8192 → Fin 2048 → EReal) (W : Fin 2048 → Fin 1024 → EReal) (b : Fin 1024 → EReal)
    (hA : ∀ q, x0 q = A (q 0) (q 1)) (hW : ∀ q, x3 q = W (q 0) (q 1)) (hb : ∀ q, x4 q = b (q 0))
    (p : S8192x1024.Idx) :
    (val_main_v4 (F := Ideal) x0 x3 x4 p : EReal) = Spec.relu (Spec.lin A W b) (p 0) (p 1) := by
  rw [val_main_v4_apply, val_main_v3_apply, val_main_v0_apply, val_main_v2_apply, val_main_v1_apply,
    val_main_call0_v0_apply, val_main_call0_cst_apply]
  simp only [hA, hW, hb]
  rfl

theorem dense1 (A : Fin 8192 → Fin 1024 → EReal) (W : Fin 1024 → Fin 512 → EReal) (b : Fin 512 → EReal)
    (hA : ∀ q, (val_main_v4 (F := Ideal) x0 x3 x4 q : EReal) = A (q 0) (q 1)) (hW : ∀ q, x5 q = W (q 0) (q 1))
    (hb : ∀ q, x6 q = b (q 0)) (p : S8192x512.Idx) :
    (val_main_v9 (F := Ideal) x0 x3 x4 x5 x6 p : EReal) = Spec.relu (Spec.lin A W b) (p 0) (p 1) := by
  rw [val_main_v9_apply, val_main_v8_apply, val_main_v5_apply, val_main_v7_apply, val_main_v6_apply,
    val_main_call1_v0_apply, val_main_call1_cst_apply]
  simp only [hA, hW, hb]
  rfl

theorem dense2 (A : Fin 8192 → Fin 512 → EReal) (W : Fin 512 → Fin 256 → EReal) (b : Fin 256 → EReal)
    (hA : ∀ q, (val_main_v34 (F := Ideal) x0 x3 x4 x5 x6 x7 x8 q : EReal) = A (q 0) (q 1))
    (hW : ∀ q, x9 q = W (q 0) (q 1)) (hb : ∀ q, x10 q = b (q 0)) (p : S8192x256.Idx) :
    (val_main_v39 (F := Ideal) x0 x3 x4 x5 x6 x7 x8 x9 x10 p : EReal) = Spec.relu (Spec.lin A W b) (p 0) (p 1) := by
  rw [val_main_v39_apply, val_main_v38_apply, val_main_v35_apply, val_main_v37_apply, val_main_v36_apply,
    val_main_call2_v0_apply, val_main_call2_cst_apply]
  simp only [hA, hW, hb]
  rfl

theorem dense3 (A : Fin 8192 → Fin 256 → EReal) (W : Fin 256 → Fin 512 → EReal) (b : Fin 512 → EReal)
    (hA : ∀ q, (val_main_v64 (F := Ideal) x0 x3 x4 x5 x6 x7 x8 x9 x10 x11 x12 q : EReal) = A (q 0) (q 1))
    (hW : ∀ q, x13 q = W (q 0) (q 1)) (hb : ∀ q, x14 q = b (q 0)) (p : S8192x512.Idx) :
    (val_main_v69 (F := Ideal) x0 x3 x4 x5 x6 x7 x8 x9 x10 x11 x12 x13 x14 p : EReal)
      = Spec.relu (Spec.lin A W b) (p 0) (p 1) := by
  rw [val_main_v69_apply, val_main_v68_apply, val_main_v65_apply, val_main_v67_apply, val_main_v66_apply,
    val_main_call3_v0_apply, val_main_call3_cst_apply]
  simp only [hA, hW, hb]
  rfl

theorem dense4 (A : Fin 8192 → Fin 512 → EReal) (W : Fin 512 → Fin 1024 → EReal) (b : Fin 1024 → EReal)
    (hA : ∀ q, (val_main_v94 (F := Ideal) x0 x3 x4 x5 x6 x7 x8 x9 x10 x11 x12 x13 x14 x15 x16 q : EReal) = A (q 0) (q 1))
    (hW : ∀ q, x17 q = W (q 0) (q 1)) (hb : ∀ q, x18 q = b (q 0)) (p : S8192x1024.Idx) :
    (val_main_v99 (F := Ideal) x0 x3 x4 x5 x6 x7 x8 x9 x10 x11 x12 x13 x14 x15 x16 x17 x18 p : EReal)
      = Spec.relu (Spec.lin A W b) (p 0) (p 1) := by
  rw [val_main_v99_apply, val_main_v98_apply, val_main_v95_apply, val_main_v97_apply, val_main_v96_apply,
    val_main_call4_v0_apply, val_main_call4_cst_apply]
  simp only [hA, hW, hb]
  rfl

theorem dense5 (A : Fin 8192 → Fin 1024 → EReal) (W : Fin 1024 → Fin 2048 → EReal) (b : Fin 2048 → EReal)
    (hA : ∀ q, (val_main_v124 (F := Ideal) x0 x3 x4 x5 x6 x7 x8 x9 x10 x11 x12 x13 x14 x15 x16 x17 x18 x19 x20 q : EReal)
      = A (q 0) (q 1))
    (hW : ∀ q, x21 q = W (q 0) (q 1)) (hb : ∀ q, x22 q = b (q 0)) (p : S8192x2048.Idx) :
    (val_main_v128 (F := Ideal) x0 x3 x4 x5 x6 x7 x8 x9 x10 x11 x12 x13 x14 x15 x16 x17 x18 x19 x20 x21 x22 p : EReal)
      = Spec.lin A W b (p 0) (p 1) := by
  rw [val_main_v128_apply, val_main_v125_apply, val_main_v127_apply, val_main_v126_apply]
  simp only [hA, hW, hb]
  rfl

end Cert.ReferenceIdeal.RefValue

end
-- ==== Proof.RefValueB.lean ====
/- The reference's batch normalisations at an index: centred by the column mean, divided by the root of the column variance plus ε. -/
import proofs.«426192_j71700184039604_3_alg».proof.Proof.RefRead
import proofs.«426192_j71700184039604_3_alg».proof.Proof.Spec
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP

variable (x0 : Vec Ideal S8192x2048 .f32) (x1 : Vec Ideal S8192 .i32) (x2 : Vec Ideal S64x256 .f32)
  (x3 : Vec Ideal S2048x1024 .f32) (x4 : Vec Ideal S1024 .f32) (x5 : Vec Ideal S1024x512 .f32)
  (x6 x7 x8 : Vec Ideal S512 .f32) (x9 : Vec Ideal S512x256 .f32) (x10 x11 x12 : Vec Ideal S256 .f32)
  (x13 : Vec Ideal S256x512 .f32) (x14 x15 x16 : Vec Ideal S512 .f32) (x17 : Vec Ideal S512x1024 .f32)
  (x18 x19 x20 : Vec Ideal S1024 .f32) (x21 : Vec Ideal S1024x2048 .f32) (x22 : Vec Ideal S2048 .f32)

theorem bn1 (A : Fin 8192 → Fin 512 → EReal) (g be : Fin 512 → EReal)
    (hA : ∀ q, (val_main_v9 (F := Ideal) x0 x3 x4 x5 x6 q : EReal) = A (q 0) (q 1))
    (hg : ∀ q, x7 q = g (q 0)) (hbe : ∀ q, x8 q = be (q 0)) (p : S8192x512.Idx) :
    (val_main_v34 (F := Ideal) x0 x3 x4 x5 x6 x7 x8 p : EReal) = Spec.rBN A g be (p 0) (p 1) := by
  simp only [val_main_v34_apply, val_main_v33_apply, val_main_v32_apply, val_main_v31_apply, val_main_v30_apply,
    val_main_v29_apply, val_main_v28_apply, val_main_v27_apply, val_main_v26_apply, val_main_v25_apply,
    val_main_v24_apply, val_main_v23_apply, val_main_v22_apply, val_main_v21_apply, val_main_v20_apply,
    val_main_v19_apply, val_main_v18_apply, val_main_v17_apply, val_main_v16_apply, val_main_v15_apply,
    val_main_v14_apply, val_main_v13_apply, val_main_v12_apply, val_main_v11_apply, val_main_v10_apply,
    val_main_cst_apply, val_main_cst_0_apply, val_main_cst_1_apply, val_main_cst_2_apply, val_main_cst_3_apply,
    hA, hg, hbe]
  rfl

theorem bn2 (A : Fin 8192 → Fin 256 → EReal) (g be : Fin 256 → EReal)
    (hA : ∀ q, (val_main_v39 (F := Ideal) x0 x3 x4 x5 x6 x7 x8 x9 x10 q : EReal) = A (q 0) (q 1))
    (hg : ∀ q, x11 q = g (q 0)) (hbe : ∀ q, x12 q = be (q 0)) (p : S8192x256.Idx) :
    (val_main_v64 (F := Ideal) x0 x3 x4 x5 x6 x7 x8 x9 x10 x11 x12 p : EReal) = Spec.rBN A g be (p 0) (p 1) := by
  simp only [val_main_v64_apply, val_main_v63_apply, val_main_v62_apply, val_main_v61_apply, val_main_v60_apply,
    val_main_v59_apply, val_main_v58_apply, val_main_v57_apply, val_main_v56_apply, val_main_v55_apply,
    val_main_v54_apply, val_main_v53_apply, val_main_v52_apply, val_main_v51_apply, val_main_v50_apply,
    val_main_v49_apply, val_main_v48_apply, val_main_v47_apply, val_main_v46_apply, val_main_v45_apply,
    val_main_v44_apply, val_main_v43_apply, val_main_v42_apply, val_main_v41_apply, val_main_v40_apply,
    val_main_cst_4_apply, val_main_cst_5_apply, val_main_cst_6_apply, val_main_cst_7_apply, val_main_cst_8_apply,
    hA, hg, hbe]
  rfl

theorem bn3 (A : Fin 8192 → Fin 512 → EReal) (g be : Fin 512 → EReal)
    (hA : ∀ q, (val_main_v69 (F := Ideal) x0 x3 x4 x5 x6 x7 x8 x9 x10 x11 x12 x13 x14 q : EReal) = A (q 0) (q 1))
    (hg : ∀ q, x15 q = g (q 0)) (hbe : ∀ q, x16 q = be (q 0)) (p : S8192x512.Idx) :
    (val_main_v94 (F := Ideal) x0 x3 x4 x5 x6 x7 x8 x9 x10 x11 x12 x13 x14 x15 x16 p : EReal)
      = Spec.rBN A g be (p 0) (p 1) := by
  simp only [val_main_v94_apply, val_main_v93_apply, val_main_v92_apply, val_main_v91_apply, val_main_v90_apply,
    val_main_v89_apply, val_main_v88_apply, val_main_v87_apply, val_main_v86_apply, val_main_v85_apply,
    val_main_v84_apply, val_main_v83_apply, val_main_v82_apply, val_main_v81_apply, val_main_v80_apply,
    val_main_v79_apply, val_main_v78_apply, val_main_v77_apply, val_main_v76_apply, val_main_v75_apply,
    val_main_v74_apply, val_main_v73_apply, val_main_v72_apply, val_main_v71_apply, val_main_v70_apply,
    val_main_cst_9_apply, val_main_cst_10_apply, val_main_cst_11_apply, val_main_cst_12_apply,
    val_main_cst_13_apply, hA, hg, hbe]
  rfl

theorem bn4 (A : Fin 8192 → Fin 1024 → EReal) (g be : Fin 1024 → EReal)
    (hA : ∀ q, (val_main_v99 (F := Ideal) x0 x3 x4 x5 x6 x7 x8 x9 x10 x11 x12 x13 x14 x15 x16 x17 x18 q : EReal)
      = A (q 0) (q 1))
    (hg : ∀ q, x19 q = g (q 0)) (hbe : ∀ q, x20 q = be (q 0)) (p : S8192x1024.Idx) :
    (val_main_v124 (F := Ideal) x0 x3 x4 x5 x6 x7 x8 x9 x10 x11 x12 x13 x14 x15 x16 x17 x18 x19 x20 p : EReal)
      = Spec.rBN A g be (p 0) (p 1) := by
  simp only [val_main_v124_apply, val_main_v123_apply, val_main_v122_apply, val_main_v121_apply,
    val_main_v120_apply, val_main_v119_apply, val_main_v118_apply, val_main_v117_apply, val_main_v116_apply,
    val_main_v115_apply, val_main_v114_apply, val_main_v113_apply, val_main_v112_apply, val_main_v111_apply,
    val_main_v110_apply, val_main_v109_apply, val_main_v108_apply, val_main_v107_apply, val_main_v106_apply,
    val_main_v105_apply, val_main_v104_apply, val_main_v103_apply, val_main_v102_apply, val_main_v101_apply,
    val_main_v100_apply, val_main_cst_14_apply, val_main_cst_15_apply, val_main_cst_16_apply,
    val_main_cst_17_apply, val_main_cst_18_apply, hA, hg, hbe]
  rfl

end Cert.ReferenceIdeal.RefValue

end
-- ==== Proof.RefValueC.lean ====
/- The reference's two losses and its gather of cluster rows at an index. -/
import proofs.«426192_j71700184039604_3_alg».proof.Proof.RefRead
import proofs.«426192_j71700184039604_3_alg».proof.Proof.Spec
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.ReadP

variable (x0 : Vec Ideal S8192x2048 .f32) (x1 : Vec Ideal S8192 .i32) (x2 : Vec Ideal S64x256 .f32)
  (x3 : Vec Ideal S2048x1024 .f32) (x4 : Vec Ideal S1024 .f32) (x5 : Vec Ideal S1024x512 .f32)
  (x6 x7 x8 : Vec Ideal S512 .f32) (x9 : Vec Ideal S512x256 .f32) (x10 x11 x12 : Vec Ideal S256 .f32)
  (x13 : Vec Ideal S256x512 .f32) (x14 x15 x16 : Vec Ideal S512 .f32) (x17 : Vec Ideal S512x1024 .f32)
  (x18 x19 x20 : Vec Ideal S1024 .f32) (x21 : Vec Ideal S1024x2048 .f32) (x22 : Vec Ideal S2048 .f32)

theorem recLoss (X R : Fin 8192 → Fin 2048 → EReal) (hX : ∀ q, x0 q = X (q 0) (q 1))
    (hR : ∀ q, (val_main_v128 (F := Ideal) x0 x3 x4 x5 x6 x7 x8 x9 x10 x11 x12 x13 x14 x15 x16 x17 x18 x19 x20 x21 x22 q : EReal)
      = R (q 0) (q 1)) (i : S_.Idx) :
    (val_main_v133 (F := Ideal) x0 x3 x4 x5 x6 x7 x8 x9 x10 x11 x12 x13 x14 x15 x16 x17 x18 x19 x20 x21 x22 i : EReal)
      = Spec.lamW * Ideal.div (Spec.zeroW + ∑ a, ∑ b, (X a b - R a b) * (X a b - R a b)) Spec.numW := by
  rw [val_main_v133_apply, val_main_v132_apply, val_main_v131_apply, val_main_cst_21_apply, val_main_cst_20_apply,
    val_main_cst_19_apply, sum_idx2]
  simp only [val_main_v130_apply, val_main_v129_apply, hX, hR]
  rfl

theorem distLoss (L G : Fin 8192 → Fin 256 → EReal)
    (hL : ∀ q, (val_main_v64 (F := Ideal) x0 x3 x4 x5 x6 x7 x8 x9 x10 x11 x12 q : EReal) = L (q 0) (q 1))
    (hG : ∀ q, (val_main_v140 (F := Ideal) x1 x2 q : EReal) = G (q 0) (q 1)) (i : S_.Idx) :
    (val_main_v144 (F := Ideal) x0 x1 x2 x3 x4 x5 x6 x7 x8 x9 x10 x11 x12 i : EReal)
      = Spec.halfW * (Spec.zeroW + ∑ a, ∑ b, (L a b - G a b) * (L a b - G a b)) := by
  rw [val_main_v144_apply, val_main_v143_apply, val_main_cst_24_apply, val_main_cst_23_apply, sum_idx2]
  simp only [val_main_v142_apply, val_main_v141_apply, hL, hG]
  rfl

theorem toInt_small (n : Nat) (hn : n < 64) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

theorem wrap_id (n : Nat) (hn : n < 64) :
    Scalar.select (IntOp.cmpi .slt (BitVec.ofNat 32 n) 0#32) (IntOp.addi (BitVec.ofNat 32 n) 64#32) (BitVec.ofNat 32 n)
      = BitVec.ofNat 32 n := by
  have hs : (BitVec.ofNat 32 n).slt 0#32 = false := by
    rw [BitVec.slt, toInt_small n hn]
    simp
  show Scalar.select (BitVec.ofBool ((BitVec.ofNat 32 n).slt 0#32)) _ _ = _
  rw [hs]
  exact select_zero _ _

theorem gather_at (idx : Fin 8192 → Fin 64)
    (hidx : ∀ i : Fin 8192, (x1 (ix1 i) : BitVec 32) = BitVec.ofNat 32 (idx i).val) (i : Fin 8192) (j : Fin 256) :
    (val_main_v140 (F := Ideal) x1 x2 (ix2 i j) : EReal) = x2 (ix2 (idx i) j) := by
  unfold val_main_v140 Host.gather
  refine congrArg x2 (funext fun a => Fin.ext ?_)
  match a with
  | ⟨0, _⟩ =>
    show GatherDims.start _ (ix2 i j) _ 0 + GatherDims.batchCoord _ (ix2 i j) 0 + GatherDims.offCoord _ (ix2 i j) 0
      = (idx i).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S64x256_S8192x1_S8192x256_1_0_n_n_0_1_1256.startIndexMap from
      List.mem_singleton.mpr rfl), val_main_v139_apply]
    have hsi : ∀ c, idx_main_v139 (gather_S64x256_S8192x1_S8192x256_1_0_n_n_0_1_1256.siIdx (ix2 i j) c) = ix1 i := by
      intro c; funext b; refine Fin.ext ?_
      match b with
      | ⟨0, _⟩ => rfl
    rw [hsi, val_main_v138_apply, val_main_v135_apply, val_main_v137_apply, val_main_v134_apply, val_main_v136_apply,
      val_main_c_apply, val_main_c_22_apply, hidx, wrap_id _ (idx i).isLt, toInt_small _ (idx i).isLt]
    show min (idx i).val (64 - 1) = (idx i).val
    have := (idx i).isLt
    omega
  | ⟨1, _⟩ =>
    show GatherDims.start _ (ix2 i j) _ 1 + GatherDims.batchCoord _ (ix2 i j) 1 + GatherDims.offCoord _ (ix2 i j) 1
      = j.val
    rw [GatherDims.batchCoord_eq_zero _ _ _ List.not_mem_nil]
    unfold GatherDims.start GatherDims.offCoord
    rw [dif_neg (show (1 : Fin 2) ∉ gather_S64x256_S8192x1_S8192x256_1_0_n_n_0_1_1256.startIndexMap by decide),
      dif_pos (show (1 : Fin 2) ∈ gather_S64x256_S8192x1_S8192x256_1_0_n_n_0_1_1256.sKept by decide)]
    simp only [Nat.zero_add, Nat.add_zero]
    rfl

theorem gather_rows (idx : Fin 8192 → Fin 64)
    (hidx : ∀ i : Fin 8192, (x1 (ix1 i) : BitVec 32) = BitVec.ofNat 32 (idx i).val) (q : S8192x256.Idx) :
    (val_main_v140 (F := Ideal) x1 x2 q : EReal) = x2 (ix2 (idx (q 0)) (q 1)) := by
  obtain ⟨i, j, rfl⟩ : ∃ (i : Fin 8192) (j : Fin 256), q = ix2 i j := ⟨q 0, q 1, eq_ix2 q⟩
  exact gather_at x1 x2 idx hidx i j

end Cert.ReferenceIdeal.RefValue

end
-- ==== Proof.RefValue.lean ====
/- The reference's last stage is the specification's rVal of the arguments. -/
import proofs.«426192_j71700184039604_3_alg».proof.Proof.RefRead
import proofs.«426192_j71700184039604_3_alg».proof.Proof.Spec
import proofs.«426192_j71700184039604_3_alg».proof.Proof.RefValueA
import proofs.«426192_j71700184039604_3_alg».proof.Proof.RefValueB
import proofs.«426192_j71700184039604_3_alg».proof.Proof.RefValueC
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen

def inputs (x0 : Vec Ideal S8192x2048 .f32) (x1 : Vec Ideal S8192 .i32) (x2 : Vec Ideal S64x256 .f32) (x3 : Vec Ideal S2048x1024 .f32) (x4 : Vec Ideal S1024 .f32) (x5 : Vec Ideal S1024x512 .f32) (x6 : Vec Ideal S512 .f32) (x7 : Vec Ideal S512 .f32) (x8 : Vec Ideal S512 .f32) (x9 : Vec Ideal S512x256 .f32) (x10 : Vec Ideal S256 .f32) (x11 : Vec Ideal S256 .f32) (x12 : Vec Ideal S256 .f32) (x13 : Vec Ideal S256x512 .f32) (x14 : Vec Ideal S512 .f32) (x15 : Vec Ideal S512 .f32) (x16 : Vec Ideal S512 .f32) (x17 : Vec Ideal S512x1024 .f32) (x18 : Vec Ideal S1024 .f32) (x19 : Vec Ideal S1024 .f32) (x20 : Vec Ideal S1024 .f32) (x21 : Vec Ideal S1024x2048 .f32) (x22 : Vec Ideal S2048 .f32) (idx : Fin 8192 → Fin 64) : Spec.Inputs :=
  { X := fun i j => x0 (ix2 i j)
    idx := idx
    cl := fun i j => x2 (ix2 i j)
    w0 := fun i j => x3 (ix2 i j)
    b0 := fun j => x4 (ix1 j)
    w1 := fun i j => x5 (ix2 i j)
    b1 := fun j => x6 (ix1 j)
    g1 := fun j => x7 (ix1 j)
    be1 := fun j => x8 (ix1 j)
    w2 := fun i j => x9 (ix2 i j)
    b2 := fun j => x10 (ix1 j)
    g2 := fun j => x11 (ix1 j)
    be2 := fun j => x12 (ix1 j)
    w3 := fun i j => x13 (ix2 i j)
    b3 := fun j => x14 (ix1 j)
    g3 := fun j => x15 (ix1 j)
    be3 := fun j => x16 (ix1 j)
    w4 := fun i j => x17 (ix2 i j)
    b4 := fun j => x18 (ix1 j)
    g4 := fun j => x19 (ix1 j)
    be4 := fun j => x20 (ix1 j)
    w5 := fun i j => x21 (ix2 i j)
    b5 := fun j => x22 (ix1 j) }

theorem result_of (x0 : Vec Ideal S8192x2048 .f32) (x1 : Vec Ideal S8192 .i32) (x2 : Vec Ideal S64x256 .f32)
    (x3 : Vec Ideal S2048x1024 .f32) (x4 : Vec Ideal S1024 .f32) (x5 : Vec Ideal S1024x512 .f32)
    (x6 x7 x8 : Vec Ideal S512 .f32) (x9 : Vec Ideal S512x256 .f32) (x10 x11 x12 : Vec Ideal S256 .f32)
    (x13 : Vec Ideal S256x512 .f32) (x14 x15 x16 : Vec Ideal S512 .f32) (x17 : Vec Ideal S512x1024 .f32)
    (x18 x19 x20 : Vec Ideal S1024 .f32) (x21 : Vec Ideal S1024x2048 .f32) (x22 : Vec Ideal S2048 .f32)
    (I : Spec.Inputs)
    (h0 : ∀ q, x0 q = I.X (q 0) (q 1)) (h2 : ∀ q, x2 q = I.cl (q 0) (q 1))
    (h3 : ∀ q, x3 q = I.w0 (q 0) (q 1)) (h4 : ∀ q, x4 q = I.b0 (q 0))
    (h5 : ∀ q, x5 q = I.w1 (q 0) (q 1)) (h6 : ∀ q, x6 q = I.b1 (q 0))
    (h7 : ∀ q, x7 q = I.g1 (q 0)) (h8 : ∀ q, x8 q = I.be1 (q 0))
    (h9 : ∀ q, x9 q = I.w2 (q 0) (q 1)) (h10 : ∀ q, x10 q = I.b2 (q 0))
    (h11 : ∀ q, x11 q = I.g2 (q 0)) (h12 : ∀ q, x12 q = I.be2 (q 0))
    (h13 : ∀ q, x13 q = I.w3 (q 0) (q 1)) (h14 : ∀ q, x14 q = I.b3 (q 0))
    (h15 : ∀ q, x15 q = I.g3 (q 0)) (h16 : ∀ q, x16 q = I.be3 (q 0))
    (h17 : ∀ q, x17 q = I.w4 (q 0) (q 1)) (h18 : ∀ q, x18 q = I.b4 (q 0))
    (h19 : ∀ q, x19 q = I.g4 (q 0)) (h20 : ∀ q, x20 q = I.be4 (q 0))
    (h21 : ∀ q, x21 q = I.w5 (q 0) (q 1)) (h22 : ∀ q, x22 q = I.b5 (q 0))
    (hidx : ∀ i : Fin 8192, (x1 (ix1 i) : BitVec 32) = BitVec.ofNat 32 (I.idx i).val) :
    (Cert.ReferenceIdeal.ReadP.val_main_v145 (F := Ideal) x0 x1 x2 x3 x4 x5 x6 x7 x8 x9 x10 x11 x12 x13 x14 x15 x16 x17 x18 x19 x20 x21 x22 ix0 : EReal)
      = Spec.rVal I := by
  have s4 := dense0 x0 x3 x4 I.X I.w0 I.b0 h0 h3 h4
  have s9 := dense1 x0 x3 x4 x5 x6 (Spec.relu (Spec.lin I.X I.w0 I.b0)) I.w1 I.b1 s4 h5 h6
  have s34 := bn1 x0 x3 x4 x5 x6 x7 x8 (Spec.act1 I) I.g1 I.be1 s9 h7 h8
  have s39 := dense2 x0 x3 x4 x5 x6 x7 x8 x9 x10 (Spec.rBN (Spec.act1 I) I.g1 I.be1) I.w2 I.b2 s34 h9 h10
  have s64 := bn2 x0 x3 x4 x5 x6 x7 x8 x9 x10 x11 x12 (Spec.rAct2 I) I.g2 I.be2 s39 h11 h12
  have s69 := dense3 x0 x3 x4 x5 x6 x7 x8 x9 x10 x11 x12 x13 x14 (Spec.rLat I) I.w3 I.b3 s64 h13 h14
  have s94 := bn3 x0 x3 x4 x5 x6 x7 x8 x9 x10 x11 x12 x13 x14 x15 x16 (Spec.rAct3 I) I.g3 I.be3 s69 h15 h16
  have s99 := dense4 x0 x3 x4 x5 x6 x7 x8 x9 x10 x11 x12 x13 x14 x15 x16 x17 x18
    (Spec.rBN (Spec.rAct3 I) I.g3 I.be3) I.w4 I.b4 s94 h17 h18
  have s124 := bn4 x0 x3 x4 x5 x6 x7 x8 x9 x10 x11 x12 x13 x14 x15 x16 x17 x18 x19 x20 (Spec.rAct4 I) I.g4 I.be4
    s99 h19 h20
  have s128 := dense5 x0 x3 x4 x5 x6 x7 x8 x9 x10 x11 x12 x13 x14 x15 x16 x17 x18 x19 x20 x21 x22
    (Spec.rBN (Spec.rAct4 I) I.g4 I.be4) I.w5 I.b5 s124 h21 h22
  have hG : ∀ q, (Cert.ReferenceIdeal.ReadP.val_main_v140 (F := Ideal) x1 x2 q : EReal)
      = (fun i j => I.cl (I.idx i) j) (q 0) (q 1) :=
    fun q => (gather_rows x1 x2 I.idx hidx q).trans (h2 _)
  rw [Cert.ReferenceIdeal.ReadP.val_main_v145_apply,
    recLoss x0 x3 x4 x5 x6 x7 x8 x9 x10 x11 x12 x13 x14 x15 x16 x17 x18 x19 x20 x21 x22 I.X (Spec.rRec I) h0 s128 ix0,
    distLoss x0 x1 x2 x3 x4 x5 x6 x7 x8 x9 x10 x11 x12 (Spec.rLat I) (fun i j => I.cl (I.idx i) j) s64 hG ix0]
  rfl

theorem result_eq (x0 : Vec Ideal S8192x2048 .f32) (x1 : Vec Ideal S8192 .i32) (x2 : Vec Ideal S64x256 .f32) (x3 : Vec Ideal S2048x1024 .f32) (x4 : Vec Ideal S1024 .f32) (x5 : Vec Ideal S1024x512 .f32) (x6 : Vec Ideal S512 .f32) (x7 : Vec Ideal S512 .f32) (x8 : Vec Ideal S512 .f32) (x9 : Vec Ideal S512x256 .f32) (x10 : Vec Ideal S256 .f32) (x11 : Vec Ideal S256 .f32) (x12 : Vec Ideal S256 .f32) (x13 : Vec Ideal S256x512 .f32) (x14 : Vec Ideal S512 .f32) (x15 : Vec Ideal S512 .f32) (x16 : Vec Ideal S512 .f32) (x17 : Vec Ideal S512x1024 .f32) (x18 : Vec Ideal S1024 .f32) (x19 : Vec Ideal S1024 .f32) (x20 : Vec Ideal S1024 .f32) (x21 : Vec Ideal S1024x2048 .f32) (x22 : Vec Ideal S2048 .f32) (idx : Fin 8192 → Fin 64)
    (hidx : ∀ i : Fin 8192, (x1 (ix1 i) : BitVec 32) = BitVec.ofNat 32 (idx i).val) :
    (Cert.ReferenceIdeal.ReadP.val_main_v145 (F := Ideal) x0 x1 x2 x3 x4 x5 x6 x7 x8 x9 x10 x11 x12 x13 x14 x15 x16 x17 x18 x19 x20 x21 x22 ix0 : EReal)
      = Spec.rVal (inputs x0 x1 x2 x3 x4 x5 x6 x7 x8 x9 x10 x11 x12 x13 x14 x15 x16 x17 x18 x19 x20 x21 x22 idx) := by
  exact result_of x0 x1 x2 x3 x4 x5 x6 x7 x8 x9 x10 x11 x12 x13 x14 x15 x16 x17 x18 x19 x20 x21 x22
    (inputs x0 x1 x2 x3 x4 x5 x6 x7 x8 x9 x10 x11 x12 x13 x14 x15 x16 x17 x18 x19 x20 x21 x22 idx)
    (fun q => congrArg x0 (eq_ix2 q)) (fun q => congrArg x2 (eq_ix2 q))
    (fun q => congrArg x3 (eq_ix2 q)) (fun q => congrArg x4 (eq_ix1 q))
    (fun q => congrArg x5 (eq_ix2 q)) (fun q => congrArg x6 (eq_ix1 q))
    (fun q => congrArg x7 (eq_ix1 q)) (fun q => congrArg x8 (eq_ix1 q))
    (fun q => congrArg x9 (eq_ix2 q)) (fun q => congrArg x10 (eq_ix1 q))
    (fun q => congrArg x11 (eq_ix1 q)) (fun q => congrArg x12 (eq_ix1 q))
    (fun q => congrArg x13 (eq_ix2 q)) (fun q => congrArg x14 (eq_ix1 q))
    (fun q => congrArg x15 (eq_ix1 q)) (fun q => congrArg x16 (eq_ix1 q))
    (fun q => congrArg x17 (eq_ix2 q)) (fun q => congrArg x18 (eq_ix1 q))
    (fun q => congrArg x19 (eq_ix1 q)) (fun q => congrArg x20 (eq_ix1 q))
    (fun q => congrArg x21 (eq_ix2 q)) (fun q => congrArg x22 (eq_ix1 q))
    hidx

end Cert.ReferenceIdeal.RefValue

end
-- ==== Proof.PreFacts.lean ====
/- What the precondition says entry by entry: every float entry is a real number and every cluster id is one of 0 … 63. -/
import proofs.«426192_j71700184039604_3_alg».proof.Pre_finite_inputs
import Idealize.ShloMosaic.Lib.ValueIdx
import Idealize.ShloMosaic.Lib.ReduceAll
import Idealize.ShloMosaic.Lib.StableHlo.Predicate

noncomputable section

open Idealize.ShloMosaic Idealize.ShloMosaic.ValueIdx

namespace Cert.PreFacts

open Cert.Pre_finite_inputs

variable [Cert.Pre_finite_inputs.Facts]

instance : Subsingleton S_.Idx := ⟨fun a b => funext fun d => d.elim0⟩

theorem ofBits_inf : Ideal.ofBits .f32 0x7F800000#32 = (⊤ : EReal) := by

  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

theorem real_of_all {s : Shape} {axes : List (Fin s.rank)} (hb : S_.BroadcastsInDim s (![] : Fin 0 → Fin s.rank))
    (hr : s.ReducesTo axes S_) (hS : 0 < S_.numel) (a : FVec Ideal s .f32)
    (h : Host.reduce IntOp.andi (cmpf .olt (Host.absf a) (broadcastInDim s ![] hb (constant S_ .f32 0x7F800000#32)))
          (constantI S_ 1 1#1) hr hS ix0 = 1#1) :
    ∀ i, ∃ r : ℝ, a i = (r : EReal) := by
  intro i

  have hi := Host.reduce_andi_all _ _ hr hS ix0 h i
  exact real_of_abs_lt_inf (a i) hi

theorem toNat_lt_64 (w : BitVec 32) (h0 : IntOp.cmpi .sge w 0#32 = 1#1) (h1 : IntOp.cmpi .slt w 64#32 = 1#1) :
    w.toNat < 64 := by
  simp only [IntOp.cmpi, StableHlo.Predicate.ofBool_eq_one_iff, BitVec.sle, BitVec.slt, decide_eq_true_eq] at h0 h1
  have e0 : (0#32 : BitVec 32).toInt = 0 := by decide
  have e64 : (64#32 : BitVec 32).toInt = 64 := by decide
  rw [e0] at h0
  rw [e64] at h1
  have hw := BitVec.toInt_eq_toNat_cond w
  have hlt := w.isLt
  split at hw <;> omega

theorem cid_of_all (hb : S_.BroadcastsInDim S8192 (![] : Fin 0 → Fin S8192.rank)) (hr : S8192.ReducesTo [0] S_)
    (hS : 0 < S_.numel) (a : IVec S8192 32)
    (h : Host.reduce IntOp.andi
          (andi (cmpi .sge a (broadcastInDim S8192 ![] hb (constantI S_ 32 0#32)))
            (cmpi .slt a (broadcastInDim S8192 ![] hb (constantI S_ 32 64#32))))
          (constantI S_ 1 1#1) hr hS ix0 = 1#1) :
    ∀ i : Fin 8192, ∃ n : Fin 64, a (ix1 i) = BitVec.ofNat 32 n.val := by
  intro i
  have hi := Host.reduce_andi_all _ _ hr hS ix0 h (ix1 i)
  obtain ⟨h0, h1⟩ := IntOp.andi_eq_one.1 hi
  have hlt : (a (ix1 i)).toNat < 64 := toNat_lt_64 (a (ix1 i)) h0 h1
  refine ⟨⟨(a (ix1 i)).toNat, hlt⟩, BitVec.eq_of_toNat_eq ?_⟩
  rw [BitVec.toNat_ofNat]
  exact (Nat.mod_eq_of_lt (a (ix1 i)).isLt).symm

theorem and_split {x y : IVec S_ 1} (h : andi x y ix0 = 1#1) : x ix0 = 1#1 ∧ y ix0 = 1#1 := IntOp.andi_eq_one.1 h

variable (a0 : FVec Ideal S8192x2048 .f32) (a1 : IVec S8192 32) (a2 : FVec Ideal S64x256 .f32) (a3 : FVec Ideal S2048x1024 .f32) (a4 : FVec Ideal S1024 .f32) (a5 : FVec Ideal S1024x512 .f32) (a6 : FVec Ideal S512 .f32) (a7 : FVec Ideal S512 .f32) (a8 : FVec Ideal S512 .f32) (a9 : FVec Ideal S512x256 .f32) (a10 : FVec Ideal S256 .f32) (a11 : FVec Ideal S256 .f32) (a12 : FVec Ideal S256 .f32) (a13 : FVec Ideal S256x512 .f32) (a14 : FVec Ideal S512 .f32) (a15 : FVec Ideal S512 .f32) (a16 : FVec Ideal S512 .f32) (a17 : FVec Ideal S512x1024 .f32) (a18 : FVec Ideal S1024 .f32) (a19 : FVec Ideal S1024 .f32) (a20 : FVec Ideal S1024 .f32) (a21 : FVec Ideal S1024x2048 .f32) (a22 : FVec Ideal S2048 .f32)

structure Decoded : Prop where
  f0 : ∀ i, ∃ r : ℝ, a0 i = (r : EReal)
  cid : ∀ i : Fin 8192, ∃ n : Fin 64, a1 (ix1 i) = BitVec.ofNat 32 n.val
  f2 : ∀ i, ∃ r : ℝ, a2 i = (r : EReal)
  f3 : ∀ i, ∃ r : ℝ, a3 i = (r : EReal)
  f4 : ∀ i, ∃ r : ℝ, a4 i = (r : EReal)
  f5 : ∀ i, ∃ r : ℝ, a5 i = (r : EReal)
  f6 : ∀ i, ∃ r : ℝ, a6 i = (r : EReal)
  f7 : ∀ i, ∃ r : ℝ, a7 i = (r : EReal)
  f8 : ∀ i, ∃ r : ℝ, a8 i = (r : EReal)
  f9 : ∀ i, ∃ r : ℝ, a9 i = (r : EReal)
  f10 : ∀ i, ∃ r : ℝ, a10 i = (r : EReal)
  f11 : ∀ i, ∃ r : ℝ, a11 i = (r : EReal)
  f12 : ∀ i, ∃ r : ℝ, a12 i = (r : EReal)
  f13 : ∀ i, ∃ r : ℝ, a13 i = (r : EReal)
  f14 : ∀ i, ∃ r : ℝ, a14 i = (r : EReal)
  f15 : ∀ i, ∃ r : ℝ, a15 i = (r : EReal)
  f16 : ∀ i, ∃ r : ℝ, a16 i = (r : EReal)
  f17 : ∀ i, ∃ r : ℝ, a17 i = (r : EReal)
  f18 : ∀ i, ∃ r : ℝ, a18 i = (r : EReal)
  f19 : ∀ i, ∃ r : ℝ, a19 i = (r : EReal)
  f20 : ∀ i, ∃ r : ℝ, a20 i = (r : EReal)
  f21 : ∀ i, ∃ r : ℝ, a21 i = (r : EReal)
  f22 : ∀ i, ∃ r : ℝ, a22 i = (r : EReal)

theorem facts_of_pre
    (h : Cert.Pre_finite_inputs.fn (F := Ideal) a0 a1 a2 a3 a4 a5 a6 a7 a8 a9 a10 a11 a12 a13 a14 a15 a16 a17 a18 a19 a20 a21 a22 = fun _ => 1#1) :
    Decoded a0 a1 a2 a3 a4 a5 a6 a7 a8 a9 a10 a11 a12 a13 a14 a15 a16 a17 a18 a19 a20 a21 a22 := by

  have h0 := congrFun h ix0
  simp only [fn, fn_part1, fn_part2, fn_part3, fn_part4, fn_part5, fn_part6] at h0

  obtain ⟨h0, ccid⟩ := and_split h0
  obtain ⟨h0, c22⟩ := and_split h0
  obtain ⟨h0, c21⟩ := and_split h0
  obtain ⟨h0, c20⟩ := and_split h0
  obtain ⟨h0, c19⟩ := and_split h0
  obtain ⟨h0, c18⟩ := and_split h0
  obtain ⟨h0, c17⟩ := and_split h0
  obtain ⟨h0, c16⟩ := and_split h0
  obtain ⟨h0, c15⟩ := and_split h0
  obtain ⟨h0, c14⟩ := and_split h0
  obtain ⟨h0, c13⟩ := and_split h0
  obtain ⟨h0, c12⟩ := and_split h0
  obtain ⟨h0, c11⟩ := and_split h0
  obtain ⟨h0, c10⟩ := and_split h0
  obtain ⟨h0, c9⟩ := and_split h0
  obtain ⟨h0, c8⟩ := and_split h0
  obtain ⟨h0, c7⟩ := and_split h0
  obtain ⟨h0, c6⟩ := and_split h0
  obtain ⟨h0, c5⟩ := and_split h0
  obtain ⟨h0, c4⟩ := and_split h0
  obtain ⟨h0, c3⟩ := and_split h0
  obtain ⟨c0, c2⟩ := and_split h0
  exact
    { f0 := real_of_all _ _ _ a0 c0
      cid := cid_of_all _ _ _ a1 ccid
      f2 := real_of_all _ _ _ a2 c2
      f3 := real_of_all _ _ _ a3 c3
      f4 := real_of_all _ _ _ a4 c4
      f5 := real_of_all _ _ _ a5 c5
      f6 := real_of_all _ _ _ a6 c6
      f7 := real_of_all _ _ _ a7 c7
      f8 := real_of_all _ _ _ a8 c8
      f9 := real_of_all _ _ _ a9 c9
      f10 := real_of_all _ _ _ a10 c10
      f11 := real_of_all _ _ _ a11 c11
      f12 := real_of_all _ _ _ a12 c12
      f13 := real_of_all _ _ _ a13 c13
      f14 := real_of_all _ _ _ a14 c14
      f15 := real_of_all _ _ _ a15 c15
      f16 := real_of_all _ _ _ a16 c16
      f17 := real_of_all _ _ _ a17 c17
      f18 := real_of_all _ _ _ a18 c18
      f19 := real_of_all _ _ _ a19 c19
      f20 := real_of_all _ _ _ a20 c20
      f21 := real_of_all _ _ _ a21 c21
      f22 := real_of_all _ _ _ a22 c22 }

end Cert.PreFacts

end
-- ==== Proof.LibEReal.lean ====
/- Extended reals that are real numbers stay real under sums, maxima, square roots and quotients. -/
import Idealize.ShloMosaic.PureOps.Ideal
import Idealize.ShloMosaic.PureOps.Ideal.Laws

noncomputable section

open scoped BigOperators

namespace Cert.LibEReal

open Idealize.ShloMosaic

theorem coe_sum {ι : Type} (s : Finset ι) (f : ι → ℝ) :
    (∑ i ∈ s, ((f i : ℝ) : EReal)) = ((∑ i ∈ s, f i : ℝ) : EReal) := by
  classical

  induction s using Finset.induction_on with
  | empty => simp
  | insert a s ha ih => rw [Finset.sum_insert ha, Finset.sum_insert ha, ih, EReal.coe_add]

theorem max_coe (a b : ℝ) : max ((a : ℝ) : EReal) ((b : ℝ) : EReal) = ((max a b : ℝ) : EReal) := by

  exact (EReal.coe_strictMono.monotone.map_max (a := a) (b := b)).symm

theorem fold_max_coe {ι : Type} [Fintype ι] [Nonempty ι] (a : ℝ) (f : ι → ℝ) :
    (Finset.univ : Finset ι).fold max ((a : ℝ) : EReal) (fun i => ((f i : ℝ) : EReal))
      = ((max a (Finset.univ.sup' Finset.univ_nonempty f) : ℝ) : EReal) := by

  apply le_antisymm
  · refine (Finset.fold_max_le _).2 ⟨?_, fun i hi => ?_⟩
    · exact EReal.coe_le_coe_iff.2 (le_max_left _ _)
    · exact EReal.coe_le_coe_iff.2 (le_max_of_le_right (Finset.le_sup' f hi))
  ·
    rcases max_choice a (Finset.univ.sup' Finset.univ_nonempty f) with h | h
    · rw [h]; exact (Finset.le_fold_max _).2 (Or.inl le_rfl)
    · rw [h]
      obtain ⟨i, hi, hsup⟩ := Finset.exists_mem_eq_sup' Finset.univ_nonempty f
      rw [hsup]
      exact (Finset.le_fold_max _).2 (Or.inr ⟨i, hi, le_rfl⟩)

theorem fold_max_bot_coe {ι : Type} [Fintype ι] [Nonempty ι] (f : ι → ℝ) :
    (Finset.univ : Finset ι).fold max (⊥ : EReal) (fun i => ((f i : ℝ) : EReal))
      = ((Finset.univ.sup' Finset.univ_nonempty f : ℝ) : EReal) := by

  apply le_antisymm
  · refine (Finset.fold_max_le _).2 ⟨bot_le, fun i hi => ?_⟩
    exact EReal.coe_le_coe_iff.2 (Finset.le_sup' f hi)
  · obtain ⟨i, hi, hsup⟩ := Finset.exists_mem_eq_sup' Finset.univ_nonempty f
    rw [hsup]
    exact (Finset.le_fold_max _).2 (Or.inr ⟨i, hi, le_rfl⟩)

theorem ofBits_neg_inf : Ideal.ofBits .f32 0xFF800000#32 = (⊥ : EReal) := by

  simp [Ideal.ofBits, Ideal.ieee]

theorem ofBits_two : Ideal.ofBits .f32 0x40000000#32 = ((2 : ℝ) : EReal) := by

  simp [Ideal.ofBits, Ideal.ieee]
  rw [← EReal.coe_mul, EReal.coe_eq_coe_iff]
  norm_num

theorem exp_coe (r : ℝ) : Ideal.exp ((r : ℝ) : EReal) = ((Real.exp r : ℝ) : EReal) := by
  exact Ideal.exp_coe r

theorem exp_bot : Ideal.exp (⊥ : EReal) = 0 := by
  exact Ideal.exp_bot

theorem sqrt_coe {r : ℝ} (h : 0 ≤ r) : Ideal.sqrt ((r : ℝ) : EReal) = ((Real.sqrt r : ℝ) : EReal) := by

  rw [Ideal.sqrt_coe, if_neg (not_lt.2 h)]

theorem div_coe_coe (a : ℝ) {b : ℝ} (h : b ≠ 0) :
    Ideal.div ((a : ℝ) : EReal) ((b : ℝ) : EReal) = ((a / b : ℝ) : EReal) := by

  rw [Ideal.div_coe h, ← EReal.coe_mul, mul_one_div]

end Cert.LibEReal

end
-- ==== Proof.SpecReal.lean ====
/- On real-valued arrays the normalisation from column sums and sums of squares is the one from mean and variance: the variance is Q / n − mean², never negative. -/
import proofs.«426192_j71700184039604_3_alg».proof.Proof.Spec
import proofs.«426192_j71700184039604_3_alg».proof.Proof.LibEReal

noncomputable section

open scoped BigOperators
open Idealize.ShloMosaic

namespace Cert.Spec

variable {B K N : ℕ}

def IsReal1 (v : Fin N → EReal) : Prop := ∀ j, ∃ r : ℝ, v j = r

def IsReal2 (a : Fin B → Fin N → EReal) : Prop := ∀ i j, ∃ r : ℝ, a i j = r

theorem zeroW_eq : zeroW = 0 := Ideal.ofBits_zero_f32

theorem cntW_eq : cntW = ((8192 : ℝ) : EReal) := by
  simp [Ideal.ofBits, Ideal.ieee]
  rw [← EReal.coe_mul, EReal.coe_eq_coe_iff]
  norm_num

theorem epsW_eq : epsW = ((10995116 / 1099511627776 : ℝ) : EReal) := by
  simp [Ideal.ofBits, Ideal.ieee]
  rw [← EReal.coe_mul, EReal.coe_eq_coe_iff]
  norm_num

theorem epsW_pos : ∃ e : ℝ, 0 < e ∧ epsW = e := ⟨_, by norm_num, epsW_eq⟩

theorem sum_coreRow {M : Type*} [AddCommMonoid M] (f : Fin 8192 → M) :
    ∑ c : Fin 2, ∑ i : Fin 4096, f (coreRow c i) = ∑ i : Fin 8192, f i := by
  have h := Fin.sum_univ_add (a := 4096) (b := 4096) (fun i : Fin (4096 + 4096) => f i)
  rw [Fin.sum_univ_two]
  refine Eq.trans ?_ h.symm
  congr 1 <;> refine Finset.sum_congr rfl fun i _ => congrArg f (Fin.ext ?_) <;> simp [coreRow]

theorem twoCore_sum (f : Fin 8192 → EReal) :
    twoCore (fun c => ∑ i : Fin 4096, f (coreRow c i)) = ∑ i, f i := by
  rw [twoCore, sum_coreRow, zeroW_eq, zero_add]

theorem colS_eq (a : Fin 8192 → Fin N → EReal) (j : Fin N) : colS a j = ∑ i, a i j :=
  twoCore_sum fun i => a i j

theorem colQ_eq (a : Fin 8192 → Fin N → EReal) (j : Fin N) : colQ a j = ∑ i, a i j * a i j :=
  twoCore_sum fun i => a i j * a i j

theorem isReal_lin {x : Fin B → Fin K → EReal} {w : Fin K → Fin N → EReal} {b : Fin N → EReal}
    (hx : IsReal2 x) (hw : IsReal2 w) (hb : IsReal1 b) : IsReal2 (lin x w b) := by
  intro i j
  choose xr hxr using hx
  choose wr hwr using hw
  choose br hbr using hb

  refine ⟨(∑ k, xr i k * wr k j) + br j, ?_⟩
  simp only [lin, hxr, hwr, hbr, ← EReal.coe_mul, LibEReal.coe_sum, ← EReal.coe_add]

theorem isReal_relu {x : Fin B → Fin N → EReal} (hx : IsReal2 x) : IsReal2 (relu x) := by
  intro i j
  obtain ⟨r, hr⟩ := hx i j

  refine ⟨max r 0, ?_⟩
  rw [relu, hr, zeroW_eq, ← EReal.coe_zero, LibEReal.max_coe]

def meanR (ar : Fin 8192 → Fin N → ℝ) (j : Fin N) : ℝ := (∑ i, ar i j) / 8192

def varR (ar : Fin 8192 → Fin N → ℝ) (j : Fin N) : ℝ :=
  (∑ i, (ar i j - meanR ar j) * (ar i j - meanR ar j)) / 8192

theorem var_identity (f : Fin 8192 → ℝ) (m : ℝ) (hm : m = (∑ i, f i) / 8192) :
    (∑ i, (f i - m) * (f i - m)) / 8192 = (∑ i, f i * f i) / 8192 - m * m := by

  have h : ∑ i, (f i - m) * (f i - m) = (∑ i, f i * f i) - 2 * m * (∑ i, f i) + 8192 * (m * m) := by
    have hi : ∀ i, (f i - m) * (f i - m) = f i * f i - 2 * m * f i + m * m := fun i => by ring
    simp only [hi, Finset.sum_add_distrib, Finset.sum_sub_distrib, ← Finset.mul_sum, Finset.sum_const,
      Finset.card_univ, Fintype.card_fin, nsmul_eq_mul]
    norm_num <;> ring
  have hS : ∑ i, f i = 8192 * m := by rw [hm]; ring
  rw [h, hS]; ring

theorem varR_eq (ar : Fin 8192 → Fin N → ℝ) (j : Fin N) :
    varR ar j = (∑ i, ar i j * ar i j) / 8192 - meanR ar j * meanR ar j :=
  var_identity (fun i => ar i j) (meanR ar j) rfl

theorem varR_nonneg (ar : Fin 8192 → Fin N → ℝ) (j : Fin N) : 0 ≤ varR ar j :=
  div_nonneg (Finset.sum_nonneg fun _ _ => mul_self_nonneg _) (by norm_num)

section
variable {a : Fin 8192 → Fin N → EReal} {g be : Fin N → EReal}
variable {ar : Fin 8192 → Fin N → ℝ} {gr br : Fin N → ℝ}

theorem kMean_coe (har : ∀ i j, a i j = ar i j) (j : Fin N) : kMean (colS a) j = (meanR ar j : ℝ) := by
  rw [kMean, colS_eq, cntW_eq]
  simp only [har, LibEReal.coe_sum]
  rw [LibEReal.div_coe_coe _ (by norm_num), meanR]

theorem kVar_coe (har : ∀ i j, a i j = ar i j) (j : Fin N) : kVar (colS a) (colQ a) j = (varR ar j : ℝ) := by
  rw [kVar, kMean_coe har, colQ_eq, cntW_eq, zeroW_eq]
  simp only [har, ← EReal.coe_mul, LibEReal.coe_sum]

  rw [LibEReal.div_coe_coe _ (by norm_num), ← EReal.coe_sub, ← EReal.coe_zero, LibEReal.max_coe, ← varR_eq,
    max_eq_left (varR_nonneg ar j)]

theorem kScale_coe (har : ∀ i j, a i j = ar i j) (hgr : ∀ j, g j = gr j) {e : ℝ} (he : 0 < e) (hee : epsW = e)
    (j : Fin N) :
    kScale (colS a) (colQ a) g j = ((gr j * (Real.sqrt (varR ar j + e))⁻¹ : ℝ) : EReal) := by
  have hpos : 0 < varR ar j + e := add_pos_of_nonneg_of_pos (varR_nonneg ar j) he
  rw [kScale, kVar_coe har, hee, hgr, ← EReal.coe_add, Ideal.rsqrt_coe, if_neg (not_lt.2 hpos.le),
    if_neg hpos.ne', ← EReal.coe_mul]

theorem kBN_coe (har : ∀ i j, a i j = ar i j) (hgr : ∀ j, g j = gr j) (hbr : ∀ j, be j = br j)
    {e : ℝ} (he : 0 < e) (hee : epsW = e) (i : Fin 8192) (j : Fin N) :
    kBN a g be i j = ((gr j * (ar i j - meanR ar j) / Real.sqrt (varR ar j + e) + br j : ℝ) : EReal) := by
  rw [kBN, affine, kShift, kMean_coe har, kScale_coe har hgr he hee, har, hbr, ← EReal.coe_mul, ← EReal.coe_mul,
    ← EReal.coe_sub, ← EReal.coe_add, EReal.coe_eq_coe_iff, div_eq_mul_inv]
  ring

theorem rMean_coe (har : ∀ i j, a i j = ar i j) (j : Fin N) : rMean a j = (meanR ar j : ℝ) := by
  rw [rMean, cntW_eq, zeroW_eq, zero_add]
  simp only [har, LibEReal.coe_sum]
  rw [LibEReal.div_coe_coe _ (by norm_num), meanR]

theorem rVar_coe (har : ∀ i j, a i j = ar i j) (j : Fin N) : rVar a j = (varR ar j : ℝ) := by
  rw [rVar, rMean_coe har, cntW_eq, zeroW_eq, zero_add]
  simp only [har, ← EReal.coe_sub, ← EReal.coe_mul, LibEReal.coe_sum]
  rw [LibEReal.div_coe_coe _ (by norm_num), varR]

theorem rBN_coe (har : ∀ i j, a i j = ar i j) (hgr : ∀ j, g j = gr j) (hbr : ∀ j, be j = br j)
    {e : ℝ} (he : 0 < e) (hee : epsW = e) (i : Fin 8192) (j : Fin N) :
    rBN a g be i j = ((gr j * (ar i j - meanR ar j) / Real.sqrt (varR ar j + e) + br j : ℝ) : EReal) := by
  have hpos : 0 < varR ar j + e := add_pos_of_nonneg_of_pos (varR_nonneg ar j) he
  rw [rBN, rVar_coe har, rMean_coe har, hee, hgr, hbr, har, ← EReal.coe_add, LibEReal.sqrt_coe hpos.le,
    ← EReal.coe_sub, ← EReal.coe_mul, LibEReal.div_coe_coe _ (Real.sqrt_pos.2 hpos).ne', ← EReal.coe_add]

end

theorem isReal_rBN {a : Fin 8192 → Fin N → EReal} {g be : Fin N → EReal}
    (ha : IsReal2 a) (hg : IsReal1 g) (hbe : IsReal1 be) : IsReal2 (rBN a g be) := by
  choose ar har using ha
  choose gr hgr using hg
  choose br hbr using hbe
  obtain ⟨e, he, hee⟩ := epsW_pos
  exact fun i j => ⟨_, rBN_coe har hgr hbr he hee i j⟩

theorem kBN_eq_rBN (a : Fin 8192 → Fin N → EReal) (g be : Fin N → EReal)
    (ha : IsReal2 a) (hg : IsReal1 g) (hbe : IsReal1 be) : kBN a g be = rBN a g be := by
  choose ar har using ha
  choose gr hgr using hg
  choose br hbr using hbe
  obtain ⟨e, he, hee⟩ := epsW_pos
  funext i j
  rw [kBN_coe har hgr hbr he hee, rBN_coe har hgr hbr he hee]

end Cert.Spec

end
-- ==== Proof.SpecEq.lean ====
/- On real-valued inputs the kernel's loss is the reference's: equal layers feed equal arrays forward, and a sum by halves is the whole sum. -/
import proofs.«426192_j71700184039604_3_alg».proof.Proof.SpecReal

noncomputable section

open scoped BigOperators
open Idealize.ShloMosaic

namespace Cert.Spec

variable {N : ℕ}

private theorem coreRow_zero (i : Fin 4096) : coreRow 0 i = Fin.castAdd 4096 i := by
  apply Fin.ext
  simp [coreRow]

private theorem coreRow_one (i : Fin 4096) : coreRow 1 i = Fin.natAdd 4096 i := by
  apply Fin.ext
  simp [coreRow] <;> omega

theorem sum_halves (f : Fin 8192 → EReal) : ∑ c : Fin 2, ∑ i : Fin 4096, f (coreRow c i) = ∑ i : Fin 8192, f i := by

  have hsplit : ∑ i : Fin 8192, f i
      = ∑ i : Fin 4096, f (Fin.castAdd 4096 i) + ∑ i : Fin 4096, f (Fin.natAdd 4096 i) :=
    Fin.sum_univ_add (a := 4096) (b := 4096) f
  rw [hsplit, Fin.sum_univ_two]
  simp only [coreRow_zero, coreRow_one]

theorem twoCore_coreTot (e : Fin 8192 → Fin N → EReal) : twoCore (coreTot e) = zeroW + ∑ i, ∑ j, e i j := by
  unfold twoCore coreTot
  rw [sum_halves (fun i => ∑ j, e i j)]

section Layers

variable (I : Inputs) (h : I.IsReal)
include h

theorem isReal_act1 : IsReal2 (act1 I) :=
  isReal_relu (isReal_lin (isReal_relu (isReal_lin h.X h.w0 h.b0)) h.w1 h.b1)

theorem kAct2_eq : kAct2 I = rAct2 I := by
  unfold kAct2 rAct2
  rw [kBN_eq_rBN _ _ _ (isReal_act1 I h) h.g1 h.be1]

theorem isReal_rAct2 : IsReal2 (rAct2 I) :=
  isReal_relu (isReal_lin (isReal_rBN (isReal_act1 I h) h.g1 h.be1) h.w2 h.b2)

theorem kLat_eq : kLat I = rLat I := by
  unfold kLat rLat
  rw [kAct2_eq I h, kBN_eq_rBN _ _ _ (isReal_rAct2 I h) h.g2 h.be2]

theorem isReal_rLat : IsReal2 (rLat I) :=
  isReal_rBN (isReal_rAct2 I h) h.g2 h.be2

theorem kAct3_eq : kAct3 I = rAct3 I := by
  unfold kAct3 rAct3
  rw [kLat_eq I h]

theorem isReal_rAct3 : IsReal2 (rAct3 I) :=
  isReal_relu (isReal_lin (isReal_rLat I h) h.w3 h.b3)

theorem kAct4_eq : kAct4 I = rAct4 I := by
  unfold kAct4 rAct4
  rw [kAct3_eq I h, kBN_eq_rBN _ _ _ (isReal_rAct3 I h) h.g3 h.be3]

theorem isReal_rAct4 : IsReal2 (rAct4 I) :=
  isReal_relu (isReal_lin (isReal_rBN (isReal_rAct3 I h) h.g3 h.be3) h.w4 h.b4)

theorem kRec_eq : kRec I = rRec I := by
  unfold kRec rRec
  rw [kAct4_eq I h, kBN_eq_rBN _ _ _ (isReal_rAct4 I h) h.g4 h.be4]

theorem kRecErr_eq : kRecErr I = rRecErr I := by
  unfold kRecErr rRecErr
  rw [kRec_eq I h]

theorem kDistErr_eq : kDistErr I = rDistErr I := by
  unfold kDistErr rDistErr
  rw [kLat_eq I h]

end Layers

theorem numW_eq : numW = ((16777216 : ℝ) : EReal) := by

  simp [Ideal.ofBits, Ideal.ieee]
  rw [← EReal.coe_mul, EReal.coe_eq_coe_iff]
  norm_num

theorem kVal_eq_rVal (I : Inputs) (h : I.IsReal) : kVal I = rVal I := by
  unfold kVal rVal
  rw [twoCore_coreTot, twoCore_coreTot, kRecErr_eq I h, kDistErr_eq I h, numW_eq]

  rw [Ideal.div_coe (by norm_num) _, Ideal.div_coe (by norm_num) _, mul_assoc]

end Cert.Spec

end
-- ==== Proof.Assembly.lean ====
/- The five claims: each program runs and keeps its arguments, and on inputs the precondition makes real the kernel's loss is the reference's. -/
import proofs.«426192_j71700184039604_3_alg».proof.Defs
import proofs.«426192_j71700184039604_3_alg».proof.Proof.Gen.Kernel
import proofs.«426192_j71700184039604_3_alg».proof.Proof.Gen.Kernel.Frame
import proofs.«426192_j71700184039604_3_alg».proof.Proof.Gen.KernelIdeal
import proofs.«426192_j71700184039604_3_alg».proof.Proof.Gen.ReferenceIdeal
import proofs.«426192_j71700184039604_3_alg».proof.Proof.Gen.Pre_finite_inputs
import proofs.«426192_j71700184039604_3_alg».proof.Proof.KernelRun
import proofs.«426192_j71700184039604_3_alg».proof.Proof.Chain
import proofs.«426192_j71700184039604_3_alg».proof.Proof.RefRun
import proofs.«426192_j71700184039604_3_alg».proof.Proof.RefValue
import proofs.«426192_j71700184039604_3_alg».proof.Proof.PreFacts
import proofs.«426192_j71700184039604_3_alg».proof.Proof.SpecEq
import Idealize.ShloMosaic.Lib.ValueIdx

noncomputable section

open Idealize.ShloMosaic Idealize.ShloMosaic.TcCoe Idealize.SL.Sem Idealize.ShloMosaic.ValueIdx

namespace Cert.Proof.Assembly

open Cert.KernelIdeal Cert.KernelIdeal.Gen

variable (m : (ℓ : Loc nD τ sig) → Buf (Elt Ideal) ℓ) (ρ : Dev nD → PrngReg)

abbrev DecodedAt (c : Dev nD) : Prop :=
  Cert.PreFacts.Decoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))

theorem decodedAt_of_pre (hpre : Cert.Pre_KernelIdeal m) (c : Dev nD) : DecodedAt m c :=
  Cert.PreFacts.facts_of_pre _ _ _ _ _ _ _ _ _ _ _ _ _ _ _ _ _ _ _ _ _ _ _ (hpre c)

theorem isReal_inputs (c : Dev nD) (idx : Fin 8192 → Fin 64) (d : DecodedAt m c) :
    Spec.Inputs.IsReal (Cert.KernelIdeal.Chain.inputs m c idx) where
  X := fun i j => d.f0 (ix2 i j)
  cl := fun i j => d.f2 (ix2 i j)
  w0 := fun i j => d.f3 (ix2 i j)
  b0 := fun j => d.f4 (ix1 j)
  w1 := fun i j => d.f5 (ix2 i j)
  b1 := fun j => d.f6 (ix1 j)
  g1 := fun j => d.f7 (ix1 j)
  be1 := fun j => d.f8 (ix1 j)
  w2 := fun i j => d.f9 (ix2 i j)
  b2 := fun j => d.f10 (ix1 j)
  g2 := fun j => d.f11 (ix1 j)
  be2 := fun j => d.f12 (ix1 j)
  w3 := fun i j => d.f13 (ix2 i j)
  b3 := fun j => d.f14 (ix1 j)
  g3 := fun j => d.f15 (ix1 j)
  be3 := fun j => d.f16 (ix1 j)
  w4 := fun i j => d.f17 (ix2 i j)
  b4 := fun j => d.f18 (ix1 j)
  g4 := fun j => d.f19 (ix1 j)
  be4 := fun j => d.f20 (ix1 j)
  w5 := fun i j => d.f21 (ix2 i j)
  b5 := fun j => d.f22 (ix1 j)

theorem value_eq (c : Dev nD) (idx : Fin 8192 → Fin 64)
    (hidx : ∀ i : Fin 8192, ((m ((c.tc : Thread nD τ).loc main_arg1) : Vec Ideal S8192 .i32) (ix1 i) : BitVec 32)
      = BitVec.ofNat 32 (idx i).val)
    (d : DecodedAt m c) :
    Cert.ReferenceIdeal.ReadP.val_main_v145 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      = W13 m ρ c (Proc.devRef .tc main_v130) := by
  funext i
  obtain rfl : i = ix0 := eq_ix0 i
  exact (Cert.ReferenceIdeal.RefValue.result_eq _ _ _ _ _ _ _ _ _ _ _ _ _ _ _ _ _ _ _ _ _ _ _ idx hidx).trans <|
    (Spec.kVal_eq_rVal (Cert.KernelIdeal.Chain.inputs m c idx) (isReal_inputs m c idx d)).symm.trans
      (Cert.KernelIdeal.Chain.result_eq m ρ c idx hidx).symm

end Cert.Proof.Assembly

namespace Cert.Proof.Claims

open Cert.Proof.Assembly

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

theorem algebraic : Cert.algebraic_KernelIdeal_ReferenceIdeal := by
  intro m ρ m' ρ' hpre hagree

  choose idx hidx using fun c => (decodedAt_of_pre m hpre c).cid
  refine ⟨fun c => Cert.KernelIdeal.Gen.W13 m ρ c (Proc.devRef .tc Cert.KernelIdeal.main_v130),
    Cert.KernelIdeal.Gen.runResult (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11, e12, e13, e14, e15, e16, e17, e18, e19, e20, e21, e22⟩ := hagree c
  rw [e0, e1, e2, e3, e4, e5, e6, e7, e8, e9, e10, e11, e12, e13, e14, e15, e16, e17, e18, e19, e20, e21, e22]
  exact value_eq m ρ c (idx c) (hidx c) (decodedAt_of_pre m hpre c)

end Cert.Proof.Claims

end
-- ==== Proof.lean ====
/- The certificate's claim, from the five claims of Assembly. -/
import proofs.«426192_j71700184039604_3_alg».proof.Defs
import proofs.«426192_j71700184039604_3_alg».proof.Proof.Assembly
import proofs.«426192_j71700184039604_3_alg».proof.Proof.Gen.Kernel
import proofs.«426192_j71700184039604_3_alg».proof.Proof.Gen.KernelIdeal
import proofs.«426192_j71700184039604_3_alg».proof.Proof.Gen.ReferenceIdeal
import proofs.«426192_j71700184039604_3_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
